-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S2048x1024 : Shape := ⟨2, ![2048, 1024]⟩
abbrev S1x1024 : Shape := ⟨2, ![1, 1024]⟩
abbrev S256x1024 : Shape := ⟨2, ![256, 1024]⟩
abbrev S32x1024 : Shape := ⟨2, ![32, 1024]⟩
abbrev S32 : Shape := ⟨1, ![32]⟩
abbrev S_ : Shape := ⟨0, ![]⟩
abbrev S1024 : Shape := ⟨1, ![1024]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S32x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c32_i32_5 : BitVec 32 := 32#32
  let c0_i32_6 : BitVec 32 := 0#32
  let v14 : BitVec 1 := Scalar.cmpi .eq c32_i32_5 c0_i32_6
  let c1_i32_7 : BitVec 32 := 1#32
  let v15 : BitVec 32 := Scalar.select v14 c1_i32_7 c32_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c1_i32_12 : BitVec 32 := 1#32
  let v24 : BitVec 32 := Scalar.muli v23 c1_i32_12
  let v25 : BitVec 32 := Scalar.addi c0_i32_13 v24
  v25.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v26 : BitVec 32 := Scalar.addi v2 c2_i32
  let c32_i32_14 : BitVec 32 := 32#32
  let c0_i32_15 : BitVec 32 := 0#32
  let v27 : BitVec 1 := Scalar.cmpi .eq c32_i32_14 c0_i32_15
  let c1_i32_16 : BitVec 32 := 1#32
  let v28 : BitVec 32 := Scalar.select v27 c1_i32_16 c32_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_21 : BitVec 32 := 1#32
  let v37 : BitVec 32 := Scalar.muli v36 c1_i32_21
  let v38 : BitVec 32 := Scalar.addi c0_i32_22 v37
  v38.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v39 : BitVec 32 := Scalar.addi v2 c3_i32
  let c32_i32_23 : BitVec 32 := 32#32
  let c0_i32_24 : BitVec 32 := 0#32
  let v40 : BitVec 1 := Scalar.cmpi .eq c32_i32_23 c0_i32_24
  let c1_i32_25 : BitVec 32 := 1#32
  let v41 : BitVec 32 := Scalar.select v40 c1_i32_25 c32_i32_23
  let v42 : BitVec 32 := Scalar.remsi v39 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let c1_i32_30 : BitVec 32 := 1#32
  let v50 : BitVec 32 := Scalar.muli v49 c1_i32_30
  let v51 : BitVec 32 := Scalar.addi c0_i32_31 v50
  v51.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v52 : BitVec 32 := Scalar.addi v2 c4_i32
  let c32_i32_32 : BitVec 32 := 32#32
  let c0_i32_33 : BitVec 32 := 0#32
  let v53 : BitVec 1 := Scalar.cmpi .eq c32_i32_32 c0_i32_33
  let c1_i32_34 : BitVec 32 := 1#32
  let v54 : BitVec 32 := Scalar.select v53 c1_i32_34 c32_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_39 : BitVec 32 := 1#32
  let v63 : BitVec 32 := Scalar.muli v62 c1_i32_39
  let v64 : BitVec 32 := Scalar.addi c0_i32_40 v63
  v64.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v65 : BitVec 32 := Scalar.addi v2 c5_i32
  let c32_i32_41 : BitVec 32 := 32#32
  let c0_i32_42 : BitVec 32 := 0#32
  let v66 : BitVec 1 := Scalar.cmpi .eq c32_i32_41 c0_i32_42
  let c1_i32_43 : BitVec 32 := 1#32
  let v67 : BitVec 32 := Scalar.select v66 c1_i32_43 c32_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c1_i32_48 : BitVec 32 := 1#32
  let v76 : BitVec 32 := Scalar.muli v75 c1_i32_48
  let v77 : BitVec 32 := Scalar.addi c0_i32_49 v76
  v77.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v78 : BitVec 32 := Scalar.addi v2 c6_i32
  let c32_i32_50 : BitVec 32 := 32#32
  let c0_i32_51 : BitVec 32 := 0#32
  let v79 : BitVec 1 := Scalar.cmpi .eq c32_i32_50 c0_i32_51
  let c1_i32_52 : BitVec 32 := 1#32
  let v80 : BitVec 32 := Scalar.select v79 c1_i32_52 c32_i32_50
  let v81 : BitVec 32 := Scalar.remsi v78 v80
  let c0_i32_54 : BitVec 32 := 0#32
  let v83 : BitVec 1 := Scalar.cmpi .slt v81 c0_i32_54
  let c0_i32_55 : BitVec 32 := 0#32
  let v84 : BitVec 1 := Scalar.cmpi .slt v80 c0_i32_55
  let v85 : BitVec 1 := Scalar.xori v83 v84
  let c0_i32_53 : BitVec 32 := 0#32
  let v82 : BitVec 1 := Scalar.cmpi .ne v81 c0_i32_53
  let v86 : BitVec 1 := Scalar.andi v85 v82
  let v87 : BitVec 32 := Scalar.addi v81 v80
  let v88 : BitVec 32 := Scalar.select v86 v87 v81
  let c1_i32_57 : BitVec 32 := 1#32
  let v89 : BitVec 32 := Scalar.muli v88 c1_i32_57
  let v90 : BitVec 32 := Scalar.addi c0_i32_58 v89
  v90.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_59 : BitVec 32 := 7#32
  let v91 : BitVec 32 := Scalar.addi v2 c7_i32_59
  let c32_i32_60 : BitVec 32 := 32#32
  let c0_i32_61 : BitVec 32 := 0#32
  let v92 : BitVec 1 := Scalar.cmpi .eq c32_i32_60 c0_i32_61
  let c1_i32_62 : BitVec 32 := 1#32
  let v93 : BitVec 32 := Scalar.select v92 c1_i32_62 c32_i32_60
  let v94 : BitVec 32 := Scalar.remsi v91 v93
  let c0_i32_64 : BitVec 32 := 0#32
  let v96 : BitVec 1 := Scalar.cmpi .slt v94 c0_i32_64
  let c0_i32_65 : BitVec 32 := 0#32
  let v97 : BitVec 1 := Scalar.cmpi .slt v93 c0_i32_65
  let v98 : BitVec 1 := Scalar.xori v96 v97
  let c0_i32_63 : BitVec 32 := 0#32
  let v95 : BitVec 1 := Scalar.cmpi .ne v94 c0_i32_63
  let v99 : BitVec 1 := Scalar.andi v98 v95
  let v100 : BitVec 32 := Scalar.addi v94 v93
  let v101 : BitVec 32 := Scalar.select v99 v100 v94
  let c1_i32_67 : BitVec 32 := 1#32
  let v102 : BitVec 32 := Scalar.muli v101 c1_i32_67
  let v103 : BitVec 32 := Scalar.addi c0_i32_68 v102
  v103.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v104 : BitVec 32 := Scalar.addi v2 c8_i32
  let c32_i32_69 : BitVec 32 := 32#32
  let c0_i32_70 : BitVec 32 := 0#32
  let v105 : BitVec 1 := Scalar.cmpi .eq c32_i32_69 c0_i32_70
  let c1_i32_71 : BitVec 32 := 1#32
  let v106 : BitVec 32 := Scalar.select v105 c1_i32_71 c32_i32_69
  let v107 : BitVec 32 := Scalar.remsi v104 v106
  let c0_i32_73 : BitVec 32 := 0#32
  let v109 : BitVec 1 := Scalar.cmpi .slt v107 c0_i32_73
  let c0_i32_74 : BitVec 32 := 0#32
  let v110 : BitVec 1 := Scalar.cmpi .slt v106 c0_i32_74
  let v111 : BitVec 1 := Scalar.xori v109 v110
  let c0_i32_72 : BitVec 32 := 0#32
  let v108 : BitVec 1 := Scalar.cmpi .ne v107 c0_i32_72
  let v112 : BitVec 1 := Scalar.andi v111 v108
  let v113 : BitVec 32 := Scalar.addi v107 v106
  let v114 : BitVec 32 := Scalar.select v112 v113 v107
  let c1_i32_76 : BitVec 32 := 1#32
  let v115 : BitVec 32 := Scalar.muli v114 c1_i32_76
  let v116 : BitVec 32 := Scalar.addi c0_i32_77 v115
  v116.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v117 : BitVec 32 := Scalar.addi v2 c9_i32
  let c32_i32_78 : BitVec 32 := 32#32
  let c0_i32_79 : BitVec 32 := 0#32
  let v118 : BitVec 1 := Scalar.cmpi .eq c32_i32_78 c0_i32_79
  let c1_i32_80 : BitVec 32 := 1#32
  let v119 : BitVec 32 := Scalar.select v118 c1_i32_80 c32_i32_78
  let v120 : BitVec 32 := Scalar.remsi v117 v119
  let c0_i32_82 : BitVec 32 := 0#32
  let v122 : BitVec 1 := Scalar.cmpi .slt v120 c0_i32_82
  let c0_i32_83 : BitVec 32 := 0#32
  let v123 : BitVec 1 := Scalar.cmpi .slt v119 c0_i32_83
  let v124 : BitVec 1 := Scalar.xori v122 v123
  let c0_i32_81 : BitVec 32 := 0#32
  let v121 : BitVec 1 := Scalar.cmpi .ne v120 c0_i32_81
  let v125 : BitVec 1 := Scalar.andi v124 v121
  let v126 : BitVec 32 := Scalar.addi v120 v119
  let v127 : BitVec 32 := Scalar.select v125 v126 v120
  let c1_i32_85 : BitVec 32 := 1#32
  let v128 : BitVec 32 := Scalar.muli v127 c1_i32_85
  let v129 : BitVec 32 := Scalar.addi c0_i32_86 v128
  v129.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v130 : BitVec 32 := Scalar.addi v2 c10_i32
  let c32_i32_87 : BitVec 32 := 32#32
  let c0_i32_88 : BitVec 32 := 0#32
  let v131 : BitVec 1 := Scalar.cmpi .eq c32_i32_87 c0_i32_88
  let c1_i32_89 : BitVec 32 := 1#32
  let v132 : BitVec 32 := Scalar.select v131 c1_i32_89 c32_i32_87
  let v133 : BitVec 32 := Scalar.remsi v130 v132
  let c0_i32_91 : BitVec 32 := 0#32
  let v135 : BitVec 1 := Scalar.cmpi .slt v133 c0_i32_91
  let c0_i32_92 : BitVec 32 := 0#32
  let v136 : BitVec 1 := Scalar.cmpi .slt v132 c0_i32_92
  let v137 : BitVec 1 := Scalar.xori v135 v136
  let c0_i32_90 : BitVec 32 := 0#32
  let v134 : BitVec 1 := Scalar.cmpi .ne v133 c0_i32_90
  let v138 : BitVec 1 := Scalar.andi v137 v134
  let v139 : BitVec 32 := Scalar.addi v133 v132
  let v140 : BitVec 32 := Scalar.select v138 v139 v133
  let c1_i32_94 : BitVec 32 := 1#32
  let v141 : BitVec 32 := Scalar.muli v140 c1_i32_94
  let v142 : BitVec 32 := Scalar.addi c0_i32_95 v141
  v142.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v143 : BitVec 32 := Scalar.addi v2 c11_i32
  let c32_i32_96 : BitVec 32 := 32#32
  let c0_i32_97 : BitVec 32 := 0#32
  let v144 : BitVec 1 := Scalar.cmpi .eq c32_i32_96 c0_i32_97
  let c1_i32_98 : BitVec 32 := 1#32
  let v145 : BitVec 32 := Scalar.select v144 c1_i32_98 c32_i32_96
  let v146 : BitVec 32 := Scalar.remsi v143 v145
  let c0_i32_100 : BitVec 32 := 0#32
  let v148 : BitVec 1 := Scalar.cmpi .slt v146 c0_i32_100
  let c0_i32_101 : BitVec 32 := 0#32
  let v149 : BitVec 1 := Scalar.cmpi .slt v145 c0_i32_101
  let v150 : BitVec 1 := Scalar.xori v148 v149
  let c0_i32_99 : BitVec 32 := 0#32
  let v147 : BitVec 1 := Scalar.cmpi .ne v146 c0_i32_99
  let v151 : BitVec 1 := Scalar.andi v150 v147
  let v152 : BitVec 32 := Scalar.addi v146 v145
  let v153 : BitVec 32 := Scalar.select v151 v152 v146
  let c1_i32_103 : BitVec 32 := 1#32
  let v154 : BitVec 32 := Scalar.muli v153 c1_i32_103
  let v155 : BitVec 32 := Scalar.addi c0_i32_104 v154
  v155.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v156 : BitVec 32 := Scalar.addi v2 c12_i32
  let c32_i32_105 : BitVec 32 := 32#32
  let c0_i32_106 : BitVec 32 := 0#32
  let v157 : BitVec 1 := Scalar.cmpi .eq c32_i32_105 c0_i32_106
  let c1_i32_107 : BitVec 32 := 1#32
  let v158 : BitVec 32 := Scalar.select v157 c1_i32_107 c32_i32_105
  let v159 : BitVec 32 := Scalar.remsi v156 v158
  let c0_i32_109 : BitVec 32 := 0#32
  let v161 : BitVec 1 := Scalar.cmpi .slt v159 c0_i32_109
  let c0_i32_110 : BitVec 32 := 0#32
  let v162 : BitVec 1 := Scalar.cmpi .slt v158 c0_i32_110
  let v163 : BitVec 1 := Scalar.xori v161 v162
  let c0_i32_108 : BitVec 32 := 0#32
  let v160 : BitVec 1 := Scalar.cmpi .ne v159 c0_i32_108
  let v164 : BitVec 1 := Scalar.andi v163 v160
  let v165 : BitVec 32 := Scalar.addi v159 v158
  let v166 : BitVec 32 := Scalar.select v164 v165 v159
  let c1_i32_112 : BitVec 32 := 1#32
  let v167 : BitVec 32 := Scalar.muli v166 c1_i32_112
  let v168 : BitVec 32 := Scalar.addi c0_i32_113 v167
  v168.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v169 : BitVec 32 := Scalar.addi v2 c13_i32
  let c32_i32_114 : BitVec 32 := 32#32
  let c0_i32_115 : BitVec 32 := 0#32
  let v170 : BitVec 1 := Scalar.cmpi .eq c32_i32_114 c0_i32_115
  let c1_i32_116 : BitVec 32 := 1#32
  let v171 : BitVec 32 := Scalar.select v170 c1_i32_116 c32_i32_114
  let v172 : BitVec 32 := Scalar.remsi v169 v171
  let c0_i32_118 : BitVec 32 := 0#32
  let v174 : BitVec 1 := Scalar.cmpi .slt v172 c0_i32_118
  let c0_i32_119 : BitVec 32 := 0#32
  let v175 : BitVec 1 := Scalar.cmpi .slt v171 c0_i32_119
  let v176 : BitVec 1 := Scalar.xori v174 v175
  let c0_i32_117 : BitVec 32 := 0#32
  let v173 : BitVec 1 := Scalar.cmpi .ne v172 c0_i32_117
  let v177 : BitVec 1 := Scalar.andi v176 v173
  let v178 : BitVec 32 := Scalar.addi v172 v171
  let v179 : BitVec 32 := Scalar.select v177 v178 v172
  let c1_i32_121 : BitVec 32 := 1#32
  let v180 : BitVec 32 := Scalar.muli v179 c1_i32_121
  let v181 : BitVec 32 := Scalar.addi c0_i32_122 v180
  v181.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v182 : BitVec 32 := Scalar.addi v2 c14_i32
  let c32_i32_123 : BitVec 32 := 32#32
  let c0_i32_124 : BitVec 32 := 0#32
  let v183 : BitVec 1 := Scalar.cmpi .eq c32_i32_123 c0_i32_124
  let c1_i32_125 : BitVec 32 := 1#32
  let v184 : BitVec 32 := Scalar.select v183 c1_i32_125 c32_i32_123
  let v185 : BitVec 32 := Scalar.remsi v182 v184
  let c0_i32_127 : BitVec 32 := 0#32
  let v187 : BitVec 1 := Scalar.cmpi .slt v185 c0_i32_127
  let c0_i32_128 : BitVec 32 := 0#32
  let v188 : BitVec 1 := Scalar.cmpi .slt v184 c0_i32_128
  let v189 : BitVec 1 := Scalar.xori v187 v188
  let c0_i32_126 : BitVec 32 := 0#32
  let v186 : BitVec 1 := Scalar.cmpi .ne v185 c0_i32_126
  let v190 : BitVec 1 := Scalar.andi v189 v186
  let v191 : BitVec 32 := Scalar.addi v185 v184
  let v192 : BitVec 32 := Scalar.select v190 v191 v185
  let c1_i32_130 : BitVec 32 := 1#32
  let v193 : BitVec 32 := Scalar.muli v192 c1_i32_130
  let v194 : BitVec 32 := Scalar.addi c0_i32_131 v193
  v194.toNat
def k0_dev15 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v195 : BitVec 32 := Scalar.addi v2 c15_i32
  let c32_i32_132 : BitVec 32 := 32#32
  let c0_i32_133 : BitVec 32 := 0#32
  let v196 : BitVec 1 := Scalar.cmpi .eq c32_i32_132 c0_i32_133
  let c1_i32_134 : BitVec 32 := 1#32
  let v197 : BitVec 32 := Scalar.select v196 c1_i32_134 c32_i32_132
  let v198 : BitVec 32 := Scalar.remsi v195 v197
  let c0_i32_136 : BitVec 32 := 0#32
  let v200 : BitVec 1 := Scalar.cmpi .slt v198 c0_i32_136
  let c0_i32_137 : BitVec 32 := 0#32
  let v201 : BitVec 1 := Scalar.cmpi .slt v197 c0_i32_137
  let v202 : BitVec 1 := Scalar.xori v200 v201
  let c0_i32_135 : BitVec 32 := 0#32
  let v199 : BitVec 1 := Scalar.cmpi .ne v198 c0_i32_135
  let v203 : BitVec 1 := Scalar.andi v202 v199
  let v204 : BitVec 32 := Scalar.addi v198 v197
  let v205 : BitVec 32 := Scalar.select v203 v204 v198
  let c1_i32_139 : BitVec 32 := 1#32
  let v206 : BitVec 32 := Scalar.muli v205 c1_i32_139
  let v207 : BitVec 32 := Scalar.addi c0_i32_140 v206
  v207.toNat
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v208 : BitVec 32 := Scalar.addi v2 c16_i32
  let c32_i32_141 : BitVec 32 := 32#32
  let c0_i32_142 : BitVec 32 := 0#32
  let v209 : BitVec 1 := Scalar.cmpi .eq c32_i32_141 c0_i32_142
  let c1_i32_143 : BitVec 32 := 1#32
  let v210 : BitVec 32 := Scalar.select v209 c1_i32_143 c32_i32_141
  let v211 : BitVec 32 := Scalar.remsi v208 v210
  let c0_i32_145 : BitVec 32 := 0#32
  let v213 : BitVec 1 := Scalar.cmpi .slt v211 c0_i32_145
  let c0_i32_146 : BitVec 32 := 0#32
  let v214 : BitVec 1 := Scalar.cmpi .slt v210 c0_i32_146
  let v215 : BitVec 1 := Scalar.xori v213 v214
  let c0_i32_144 : BitVec 32 := 0#32
  let v212 : BitVec 1 := Scalar.cmpi .ne v211 c0_i32_144
  let v216 : BitVec 1 := Scalar.andi v215 v212
  let v217 : BitVec 32 := Scalar.addi v211 v210
  let v218 : BitVec 32 := Scalar.select v216 v217 v211
  let c1_i32_148 : BitVec 32 := 1#32
  let v219 : BitVec 32 := Scalar.muli v218 c1_i32_148
  let v220 : BitVec 32 := Scalar.addi c0_i32_149 v219
  v220.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v221 : BitVec 32 := Scalar.addi v2 c17_i32
  let c32_i32_150 : BitVec 32 := 32#32
  let c0_i32_151 : BitVec 32 := 0#32
  let v222 : BitVec 1 := Scalar.cmpi .eq c32_i32_150 c0_i32_151
  let c1_i32_152 : BitVec 32 := 1#32
  let v223 : BitVec 32 := Scalar.select v222 c1_i32_152 c32_i32_150
  let v224 : BitVec 32 := Scalar.remsi v221 v223
  let c0_i32_154 : BitVec 32 := 0#32
  let v226 : BitVec 1 := Scalar.cmpi .slt v224 c0_i32_154
  let c0_i32_155 : BitVec 32 := 0#32
  let v227 : BitVec 1 := Scalar.cmpi .slt v223 c0_i32_155
  let v228 : BitVec 1 := Scalar.xori v226 v227
  let c0_i32_153 : BitVec 32 := 0#32
  let v225 : BitVec 1 := Scalar.cmpi .ne v224 c0_i32_153
  let v229 : BitVec 1 := Scalar.andi v228 v225
  let v230 : BitVec 32 := Scalar.addi v224 v223
  let v231 : BitVec 32 := Scalar.select v229 v230 v224
  let c1_i32_157 : BitVec 32 := 1#32
  let v232 : BitVec 32 := Scalar.muli v231 c1_i32_157
  let v233 : BitVec 32 := Scalar.addi c0_i32_158 v232
  v233.toNat
def k0_dev18 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v234 : BitVec 32 := Scalar.addi v2 c18_i32
  let c32_i32_159 : BitVec 32 := 32#32
  let c0_i32_160 : BitVec 32 := 0#32
  let v235 : BitVec 1 := Scalar.cmpi .eq c32_i32_159 c0_i32_160
  let c1_i32_161 : BitVec 32 := 1#32
  let v236 : BitVec 32 := Scalar.select v235 c1_i32_161 c32_i32_159
  let v237 : BitVec 32 := Scalar.remsi v234 v236
  let c0_i32_163 : BitVec 32 := 0#32
  let v239 : BitVec 1 := Scalar.cmpi .slt v237 c0_i32_163
  let c0_i32_164 : BitVec 32 := 0#32
  let v240 : BitVec 1 := Scalar.cmpi .slt v236 c0_i32_164
  let v241 : BitVec 1 := Scalar.xori v239 v240
  let c0_i32_162 : BitVec 32 := 0#32
  let v238 : BitVec 1 := Scalar.cmpi .ne v237 c0_i32_162
  let v242 : BitVec 1 := Scalar.andi v241 v238
  let v243 : BitVec 32 := Scalar.addi v237 v236
  let v244 : BitVec 32 := Scalar.select v242 v243 v237
  let c1_i32_166 : BitVec 32 := 1#32
  let v245 : BitVec 32 := Scalar.muli v244 c1_i32_166
  let v246 : BitVec 32 := Scalar.addi c0_i32_167 v245
  v246.toNat
def k0_dev19 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v247 : BitVec 32 := Scalar.addi v2 c19_i32
  let c32_i32_168 : BitVec 32 := 32#32
  let c0_i32_169 : BitVec 32 := 0#32
  let v248 : BitVec 1 := Scalar.cmpi .eq c32_i32_168 c0_i32_169
  let c1_i32_170 : BitVec 32 := 1#32
  let v249 : BitVec 32 := Scalar.select v248 c1_i32_170 c32_i32_168
  let v250 : BitVec 32 := Scalar.remsi v247 v249
  let c0_i32_172 : BitVec 32 := 0#32
  let v252 : BitVec 1 := Scalar.cmpi .slt v250 c0_i32_172
  let c0_i32_173 : BitVec 32 := 0#32
  let v253 : BitVec 1 := Scalar.cmpi .slt v249 c0_i32_173
  let v254 : BitVec 1 := Scalar.xori v252 v253
  let c0_i32_171 : BitVec 32 := 0#32
  let v251 : BitVec 1 := Scalar.cmpi .ne v250 c0_i32_171
  let v255 : BitVec 1 := Scalar.andi v254 v251
  let v256 : BitVec 32 := Scalar.addi v250 v249
  let v257 : BitVec 32 := Scalar.select v255 v256 v250
  let c1_i32_175 : BitVec 32 := 1#32
  let v258 : BitVec 32 := Scalar.muli v257 c1_i32_175
  let v259 : BitVec 32 := Scalar.addi c0_i32_176 v258
  v259.toNat
def k0_dev20 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v260 : BitVec 32 := Scalar.addi v2 c20_i32
  let c32_i32_177 : BitVec 32 := 32#32
  let c0_i32_178 : BitVec 32 := 0#32
  let v261 : BitVec 1 := Scalar.cmpi .eq c32_i32_177 c0_i32_178
  let c1_i32_179 : BitVec 32 := 1#32
  let v262 : BitVec 32 := Scalar.select v261 c1_i32_179 c32_i32_177
  let v263 : BitVec 32 := Scalar.remsi v260 v262
  let c0_i32_181 : BitVec 32 := 0#32
  let v265 : BitVec 1 := Scalar.cmpi .slt v263 c0_i32_181
  let c0_i32_182 : BitVec 32 := 0#32
  let v266 : BitVec 1 := Scalar.cmpi .slt v262 c0_i32_182
  let v267 : BitVec 1 := Scalar.xori v265 v266
  let c0_i32_180 : BitVec 32 := 0#32
  let v264 : BitVec 1 := Scalar.cmpi .ne v263 c0_i32_180
  let v268 : BitVec 1 := Scalar.andi v267 v264
  let v269 : BitVec 32 := Scalar.addi v263 v262
  let v270 : BitVec 32 := Scalar.select v268 v269 v263
  let c1_i32_184 : BitVec 32 := 1#32
  let v271 : BitVec 32 := Scalar.muli v270 c1_i32_184
  let v272 : BitVec 32 := Scalar.addi c0_i32_185 v271
  v272.toNat
def k0_dev21 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v273 : BitVec 32 := Scalar.addi v2 c21_i32
  let c32_i32_186 : BitVec 32 := 32#32
  let c0_i32_187 : BitVec 32 := 0#32
  let v274 : BitVec 1 := Scalar.cmpi .eq c32_i32_186 c0_i32_187
  let c1_i32_188 : BitVec 32 := 1#32
  let v275 : BitVec 32 := Scalar.select v274 c1_i32_188 c32_i32_186
  let v276 : BitVec 32 := Scalar.remsi v273 v275
  let c0_i32_190 : BitVec 32 := 0#32
  let v278 : BitVec 1 := Scalar.cmpi .slt v276 c0_i32_190
  let c0_i32_191 : BitVec 32 := 0#32
  let v279 : BitVec 1 := Scalar.cmpi .slt v275 c0_i32_191
  let v280 : BitVec 1 := Scalar.xori v278 v279
  let c0_i32_189 : BitVec 32 := 0#32
  let v277 : BitVec 1 := Scalar.cmpi .ne v276 c0_i32_189
  let v281 : BitVec 1 := Scalar.andi v280 v277
  let v282 : BitVec 32 := Scalar.addi v276 v275
  let v283 : BitVec 32 := Scalar.select v281 v282 v276
  let c1_i32_193 : BitVec 32 := 1#32
  let v284 : BitVec 32 := Scalar.muli v283 c1_i32_193
  let v285 : BitVec 32 := Scalar.addi c0_i32_194 v284
  v285.toNat
def k0_dev22 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v286 : BitVec 32 := Scalar.addi v2 c22_i32
  let c32_i32_195 : BitVec 32 := 32#32
  let c0_i32_196 : BitVec 32 := 0#32
  let v287 : BitVec 1 := Scalar.cmpi .eq c32_i32_195 c0_i32_196
  let c1_i32_197 : BitVec 32 := 1#32
  let v288 : BitVec 32 := Scalar.select v287 c1_i32_197 c32_i32_195
  let v289 : BitVec 32 := Scalar.remsi v286 v288
  let c0_i32_199 : BitVec 32 := 0#32
  let v291 : BitVec 1 := Scalar.cmpi .slt v289 c0_i32_199
  let c0_i32_200 : BitVec 32 := 0#32
  let v292 : BitVec 1 := Scalar.cmpi .slt v288 c0_i32_200
  let v293 : BitVec 1 := Scalar.xori v291 v292
  let c0_i32_198 : BitVec 32 := 0#32
  let v290 : BitVec 1 := Scalar.cmpi .ne v289 c0_i32_198
  let v294 : BitVec 1 := Scalar.andi v293 v290
  let v295 : BitVec 32 := Scalar.addi v289 v288
  let v296 : BitVec 32 := Scalar.select v294 v295 v289
  let c1_i32_202 : BitVec 32 := 1#32
  let v297 : BitVec 32 := Scalar.muli v296 c1_i32_202
  let v298 : BitVec 32 := Scalar.addi c0_i32_203 v297
  v298.toNat
def k0_dev23 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v299 : BitVec 32 := Scalar.addi v2 c23_i32
  let c32_i32_204 : BitVec 32 := 32#32
  let c0_i32_205 : BitVec 32 := 0#32
  let v300 : BitVec 1 := Scalar.cmpi .eq c32_i32_204 c0_i32_205
  let c1_i32_206 : BitVec 32 := 1#32
  let v301 : BitVec 32 := Scalar.select v300 c1_i32_206 c32_i32_204
  let v302 : BitVec 32 := Scalar.remsi v299 v301
  let c0_i32_208 : BitVec 32 := 0#32
  let v304 : BitVec 1 := Scalar.cmpi .slt v302 c0_i32_208
  let c0_i32_209 : BitVec 32 := 0#32
  let v305 : BitVec 1 := Scalar.cmpi .slt v301 c0_i32_209
  let v306 : BitVec 1 := Scalar.xori v304 v305
  let c0_i32_207 : BitVec 32 := 0#32
  let v303 : BitVec 1 := Scalar.cmpi .ne v302 c0_i32_207
  let v307 : BitVec 1 := Scalar.andi v306 v303
  let v308 : BitVec 32 := Scalar.addi v302 v301
  let v309 : BitVec 32 := Scalar.select v307 v308 v302
  let c1_i32_211 : BitVec 32 := 1#32
  let v310 : BitVec 32 := Scalar.muli v309 c1_i32_211
  let v311 : BitVec 32 := Scalar.addi c0_i32_212 v310
  v311.toNat
def k0_dev24 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v312 : BitVec 32 := Scalar.addi v2 c24_i32
  let c32_i32_213 : BitVec 32 := 32#32
  let c0_i32_214 : BitVec 32 := 0#32
  let v313 : BitVec 1 := Scalar.cmpi .eq c32_i32_213 c0_i32_214
  let c1_i32_215 : BitVec 32 := 1#32
  let v314 : BitVec 32 := Scalar.select v313 c1_i32_215 c32_i32_213
  let v315 : BitVec 32 := Scalar.remsi v312 v314
  let c0_i32_217 : BitVec 32 := 0#32
  let v317 : BitVec 1 := Scalar.cmpi .slt v315 c0_i32_217
  let c0_i32_218 : BitVec 32 := 0#32
  let v318 : BitVec 1 := Scalar.cmpi .slt v314 c0_i32_218
  let v319 : BitVec 1 := Scalar.xori v317 v318
  let c0_i32_216 : BitVec 32 := 0#32
  let v316 : BitVec 1 := Scalar.cmpi .ne v315 c0_i32_216
  let v320 : BitVec 1 := Scalar.andi v319 v316
  let v321 : BitVec 32 := Scalar.addi v315 v314
  let v322 : BitVec 32 := Scalar.select v320 v321 v315
  let c1_i32_220 : BitVec 32 := 1#32
  let v323 : BitVec 32 := Scalar.muli v322 c1_i32_220
  let v324 : BitVec 32 := Scalar.addi c0_i32_221 v323
  v324.toNat
def k0_dev25 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v325 : BitVec 32 := Scalar.addi v2 c25_i32
  let c32_i32_222 : BitVec 32 := 32#32
  let c0_i32_223 : BitVec 32 := 0#32
  let v326 : BitVec 1 := Scalar.cmpi .eq c32_i32_222 c0_i32_223
  let c1_i32_224 : BitVec 32 := 1#32
  let v327 : BitVec 32 := Scalar.select v326 c1_i32_224 c32_i32_222
  let v328 : BitVec 32 := Scalar.remsi v325 v327
  let c0_i32_226 : BitVec 32 := 0#32
  let v330 : BitVec 1 := Scalar.cmpi .slt v328 c0_i32_226
  let c0_i32_227 : BitVec 32 := 0#32
  let v331 : BitVec 1 := Scalar.cmpi .slt v327 c0_i32_227
  let v332 : BitVec 1 := Scalar.xori v330 v331
  let c0_i32_225 : BitVec 32 := 0#32
  let v329 : BitVec 1 := Scalar.cmpi .ne v328 c0_i32_225
  let v333 : BitVec 1 := Scalar.andi v332 v329
  let v334 : BitVec 32 := Scalar.addi v328 v327
  let v335 : BitVec 32 := Scalar.select v333 v334 v328
  let c1_i32_229 : BitVec 32 := 1#32
  let v336 : BitVec 32 := Scalar.muli v335 c1_i32_229
  let v337 : BitVec 32 := Scalar.addi c0_i32_230 v336
  v337.toNat
def k0_dev26 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v338 : BitVec 32 := Scalar.addi v2 c26_i32
  let c32_i32_231 : BitVec 32 := 32#32
  let c0_i32_232 : BitVec 32 := 0#32
  let v339 : BitVec 1 := Scalar.cmpi .eq c32_i32_231 c0_i32_232
  let c1_i32_233 : BitVec 32 := 1#32
  let v340 : BitVec 32 := Scalar.select v339 c1_i32_233 c32_i32_231
  let v341 : BitVec 32 := Scalar.remsi v338 v340
  let c0_i32_235 : BitVec 32 := 0#32
  let v343 : BitVec 1 := Scalar.cmpi .slt v341 c0_i32_235
  let c0_i32_236 : BitVec 32 := 0#32
  let v344 : BitVec 1 := Scalar.cmpi .slt v340 c0_i32_236
  let v345 : BitVec 1 := Scalar.xori v343 v344
  let c0_i32_234 : BitVec 32 := 0#32
  let v342 : BitVec 1 := Scalar.cmpi .ne v341 c0_i32_234
  let v346 : BitVec 1 := Scalar.andi v345 v342
  let v347 : BitVec 32 := Scalar.addi v341 v340
  let v348 : BitVec 32 := Scalar.select v346 v347 v341
  let c1_i32_238 : BitVec 32 := 1#32
  let v349 : BitVec 32 := Scalar.muli v348 c1_i32_238
  let v350 : BitVec 32 := Scalar.addi c0_i32_239 v349
  v350.toNat
def k0_dev27 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v351 : BitVec 32 := Scalar.addi v2 c27_i32
  let c32_i32_240 : BitVec 32 := 32#32
  let c0_i32_241 : BitVec 32 := 0#32
  let v352 : BitVec 1 := Scalar.cmpi .eq c32_i32_240 c0_i32_241
  let c1_i32_242 : BitVec 32 := 1#32
  let v353 : BitVec 32 := Scalar.select v352 c1_i32_242 c32_i32_240
  let v354 : BitVec 32 := Scalar.remsi v351 v353
  let c0_i32_244 : BitVec 32 := 0#32
  let v356 : BitVec 1 := Scalar.cmpi .slt v354 c0_i32_244
  let c0_i32_245 : BitVec 32 := 0#32
  let v357 : BitVec 1 := Scalar.cmpi .slt v353 c0_i32_245
  let v358 : BitVec 1 := Scalar.xori v356 v357
  let c0_i32_243 : BitVec 32 := 0#32
  let v355 : BitVec 1 := Scalar.cmpi .ne v354 c0_i32_243
  let v359 : BitVec 1 := Scalar.andi v358 v355
  let v360 : BitVec 32 := Scalar.addi v354 v353
  let v361 : BitVec 32 := Scalar.select v359 v360 v354
  let c1_i32_247 : BitVec 32 := 1#32
  let v362 : BitVec 32 := Scalar.muli v361 c1_i32_247
  let v363 : BitVec 32 := Scalar.addi c0_i32_248 v362
  v363.toNat
def k0_dev28 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v364 : BitVec 32 := Scalar.addi v2 c28_i32
  let c32_i32_249 : BitVec 32 := 32#32
  let c0_i32_250 : BitVec 32 := 0#32
  let v365 : BitVec 1 := Scalar.cmpi .eq c32_i32_249 c0_i32_250
  let c1_i32_251 : BitVec 32 := 1#32
  let v366 : BitVec 32 := Scalar.select v365 c1_i32_251 c32_i32_249
  let v367 : BitVec 32 := Scalar.remsi v364 v366
  let c0_i32_253 : BitVec 32 := 0#32
  let v369 : BitVec 1 := Scalar.cmpi .slt v367 c0_i32_253
  let c0_i32_254 : BitVec 32 := 0#32
  let v370 : BitVec 1 := Scalar.cmpi .slt v366 c0_i32_254
  let v371 : BitVec 1 := Scalar.xori v369 v370
  let c0_i32_252 : BitVec 32 := 0#32
  let v368 : BitVec 1 := Scalar.cmpi .ne v367 c0_i32_252
  let v372 : BitVec 1 := Scalar.andi v371 v368
  let v373 : BitVec 32 := Scalar.addi v367 v366
  let v374 : BitVec 32 := Scalar.select v372 v373 v367
  let c1_i32_256 : BitVec 32 := 1#32
  let v375 : BitVec 32 := Scalar.muli v374 c1_i32_256
  let v376 : BitVec 32 := Scalar.addi c0_i32_257 v375
  v376.toNat
def k0_dev29 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v377 : BitVec 32 := Scalar.addi v2 c29_i32
  let c32_i32_258 : BitVec 32 := 32#32
  let c0_i32_259 : BitVec 32 := 0#32
  let v378 : BitVec 1 := Scalar.cmpi .eq c32_i32_258 c0_i32_259
  let c1_i32_260 : BitVec 32 := 1#32
  let v379 : BitVec 32 := Scalar.select v378 c1_i32_260 c32_i32_258
  let v380 : BitVec 32 := Scalar.remsi v377 v379
  let c0_i32_262 : BitVec 32 := 0#32
  let v382 : BitVec 1 := Scalar.cmpi .slt v380 c0_i32_262
  let c0_i32_263 : BitVec 32 := 0#32
  let v383 : BitVec 1 := Scalar.cmpi .slt v379 c0_i32_263
  let v384 : BitVec 1 := Scalar.xori v382 v383
  let c0_i32_261 : BitVec 32 := 0#32
  let v381 : BitVec 1 := Scalar.cmpi .ne v380 c0_i32_261
  let v385 : BitVec 1 := Scalar.andi v384 v381
  let v386 : BitVec 32 := Scalar.addi v380 v379
  let v387 : BitVec 32 := Scalar.select v385 v386 v380
  let c1_i32_265 : BitVec 32 := 1#32
  let v388 : BitVec 32 := Scalar.muli v387 c1_i32_265
  let v389 : BitVec 32 := Scalar.addi c0_i32_266 v388
  v389.toNat
def k0_dev30 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v390 : BitVec 32 := Scalar.addi v2 c30_i32
  let c32_i32_267 : BitVec 32 := 32#32
  let c0_i32_268 : BitVec 32 := 0#32
  let v391 : BitVec 1 := Scalar.cmpi .eq c32_i32_267 c0_i32_268
  let c1_i32_269 : BitVec 32 := 1#32
  let v392 : BitVec 32 := Scalar.select v391 c1_i32_269 c32_i32_267
  let v393 : BitVec 32 := Scalar.remsi v390 v392
  let c0_i32_271 : BitVec 32 := 0#32
  let v395 : BitVec 1 := Scalar.cmpi .slt v393 c0_i32_271
  let c0_i32_272 : BitVec 32 := 0#32
  let v396 : BitVec 1 := Scalar.cmpi .slt v392 c0_i32_272
  let v397 : BitVec 1 := Scalar.xori v395 v396
  let c0_i32_270 : BitVec 32 := 0#32
  let v394 : BitVec 1 := Scalar.cmpi .ne v393 c0_i32_270
  let v398 : BitVec 1 := Scalar.andi v397 v394
  let v399 : BitVec 32 := Scalar.addi v393 v392
  let v400 : BitVec 32 := Scalar.select v398 v399 v393
  let c1_i32_274 : BitVec 32 := 1#32
  let v401 : BitVec 32 := Scalar.muli v400 c1_i32_274
  let v402 : BitVec 32 := Scalar.addi c0_i32_275 v401
  v402.toNat
def k0_dev31 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v403 : BitVec 32 := Scalar.addi v2 c31_i32
  let c32_i32_276 : BitVec 32 := 32#32
  let c0_i32_277 : BitVec 32 := 0#32
  let v404 : BitVec 1 := Scalar.cmpi .eq c32_i32_276 c0_i32_277
  let c1_i32_278 : BitVec 32 := 1#32
  let v405 : BitVec 32 := Scalar.select v404 c1_i32_278 c32_i32_276
  let v406 : BitVec 32 := Scalar.remsi v403 v405
  let c0_i32_280 : BitVec 32 := 0#32
  let v408 : BitVec 1 := Scalar.cmpi .slt v406 c0_i32_280
  let c0_i32_281 : BitVec 32 := 0#32
  let v409 : BitVec 1 := Scalar.cmpi .slt v405 c0_i32_281
  let v410 : BitVec 1 := Scalar.xori v408 v409
  let c0_i32_279 : BitVec 32 := 0#32
  let v407 : BitVec 1 := Scalar.cmpi .ne v406 c0_i32_279
  let v411 : BitVec 1 := Scalar.andi v410 v407
  let v412 : BitVec 32 := Scalar.addi v406 v405
  let v413 : BitVec 32 := Scalar.select v411 v412 v406
  let c1_i32_283 : BitVec 32 := 1#32
  let v414 : BitVec 32 := Scalar.muli v413 c1_i32_283
  let v415 : BitVec 32 := Scalar.addi c0_i32_284 v414
  v415.toNat
def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_3 : BitVec 32 := 0#32
  let v12 : BitVec 1 := Scalar.cmpi .ne v11 c0_i32_3
  v12

def k0_dev32 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c32_i32_5 : BitVec 32 := 32#32
  let c0_i32_6 : BitVec 32 := 0#32
  let v14 : BitVec 1 := Scalar.cmpi .eq c32_i32_5 c0_i32_6
  let c1_i32_7 : BitVec 32 := 1#32
  let v15 : BitVec 32 := Scalar.select v14 c1_i32_7 c32_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c1_i32_15 : BitVec 32 := 1#32
  let v24 : BitVec 32 := Scalar.muli v23 c1_i32_15
  let v25 : BitVec 32 := Scalar.addi c0_i32_16 v24
  v25.toNat
def k0_dev33 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v34 : BitVec 32 := Scalar.addi v2 c2_i32
  let c32_i32_19 : BitVec 32 := 32#32
  let c0_i32_20 : BitVec 32 := 0#32
  let v35 : BitVec 1 := Scalar.cmpi .eq c32_i32_19 c0_i32_20
  let c1_i32_21 : BitVec 32 := 1#32
  let v36 : BitVec 32 := Scalar.select v35 c1_i32_21 c32_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c1_i32_29 : BitVec 32 := 1#32
  let v45 : BitVec 32 := Scalar.muli v44 c1_i32_29
  let v46 : BitVec 32 := Scalar.addi c0_i32_30 v45
  v46.toNat
def k0_dev34 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v55 : BitVec 32 := Scalar.addi v2 c3_i32
  let c32_i32_33 : BitVec 32 := 32#32
  let c0_i32_34 : BitVec 32 := 0#32
  let v56 : BitVec 1 := Scalar.cmpi .eq c32_i32_33 c0_i32_34
  let c1_i32_35 : BitVec 32 := 1#32
  let v57 : BitVec 32 := Scalar.select v56 c1_i32_35 c32_i32_33
  let v58 : BitVec 32 := Scalar.remsi v55 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let c1_i32_43 : BitVec 32 := 1#32
  let v66 : BitVec 32 := Scalar.muli v65 c1_i32_43
  let v67 : BitVec 32 := Scalar.addi c0_i32_44 v66
  v67.toNat
def k0_dev35 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v76 : BitVec 32 := Scalar.addi v2 c4_i32
  let c32_i32_47 : BitVec 32 := 32#32
  let c0_i32_48 : BitVec 32 := 0#32
  let v77 : BitVec 1 := Scalar.cmpi .eq c32_i32_47 c0_i32_48
  let c1_i32_49 : BitVec 32 := 1#32
  let v78 : BitVec 32 := Scalar.select v77 c1_i32_49 c32_i32_47
  let v79 : BitVec 32 := Scalar.remsi v76 v78
  let c0_i32_51 : BitVec 32 := 0#32
  let v81 : BitVec 1 := Scalar.cmpi .slt v79 c0_i32_51
  let c0_i32_52 : BitVec 32 := 0#32
  let v82 : BitVec 1 := Scalar.cmpi .slt v78 c0_i32_52
  let v83 : BitVec 1 := Scalar.xori v81 v82
  let c0_i32_50 : BitVec 32 := 0#32
  let v80 : BitVec 1 := Scalar.cmpi .ne v79 c0_i32_50
  let v84 : BitVec 1 := Scalar.andi v83 v80
  let v85 : BitVec 32 := Scalar.addi v79 v78
  let v86 : BitVec 32 := Scalar.select v84 v85 v79
  let c1_i32_57 : BitVec 32 := 1#32
  let v87 : BitVec 32 := Scalar.muli v86 c1_i32_57
  let v88 : BitVec 32 := Scalar.addi c0_i32_58 v87
  v88.toNat
def k0_dev36 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v97 : BitVec 32 := Scalar.addi v2 c5_i32
  let c32_i32_61 : BitVec 32 := 32#32
  let c0_i32_62 : BitVec 32 := 0#32
  let v98 : BitVec 1 := Scalar.cmpi .eq c32_i32_61 c0_i32_62
  let c1_i32_63 : BitVec 32 := 1#32
  let v99 : BitVec 32 := Scalar.select v98 c1_i32_63 c32_i32_61
  let v100 : BitVec 32 := Scalar.remsi v97 v99
  let c0_i32_65 : BitVec 32 := 0#32
  let v102 : BitVec 1 := Scalar.cmpi .slt v100 c0_i32_65
  let c0_i32_66 : BitVec 32 := 0#32
  let v103 : BitVec 1 := Scalar.cmpi .slt v99 c0_i32_66
  let v104 : BitVec 1 := Scalar.xori v102 v103
  let c0_i32_64 : BitVec 32 := 0#32
  let v101 : BitVec 1 := Scalar.cmpi .ne v100 c0_i32_64
  let v105 : BitVec 1 := Scalar.andi v104 v101
  let v106 : BitVec 32 := Scalar.addi v100 v99
  let v107 : BitVec 32 := Scalar.select v105 v106 v100
  let c1_i32_71 : BitVec 32 := 1#32
  let v108 : BitVec 32 := Scalar.muli v107 c1_i32_71
  let v109 : BitVec 32 := Scalar.addi c0_i32_72 v108
  v109.toNat
def k0_dev37 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v118 : BitVec 32 := Scalar.addi v2 c6_i32
  let c32_i32_75 : BitVec 32 := 32#32
  let c0_i32_76 : BitVec 32 := 0#32
  let v119 : BitVec 1 := Scalar.cmpi .eq c32_i32_75 c0_i32_76
  let c1_i32_77 : BitVec 32 := 1#32
  let v120 : BitVec 32 := Scalar.select v119 c1_i32_77 c32_i32_75
  let v121 : BitVec 32 := Scalar.remsi v118 v120
  let c0_i32_79 : BitVec 32 := 0#32
  let v123 : BitVec 1 := Scalar.cmpi .slt v121 c0_i32_79
  let c0_i32_80 : BitVec 32 := 0#32
  let v124 : BitVec 1 := Scalar.cmpi .slt v120 c0_i32_80
  let v125 : BitVec 1 := Scalar.xori v123 v124
  let c0_i32_78 : BitVec 32 := 0#32
  let v122 : BitVec 1 := Scalar.cmpi .ne v121 c0_i32_78
  let v126 : BitVec 1 := Scalar.andi v125 v122
  let v127 : BitVec 32 := Scalar.addi v121 v120
  let v128 : BitVec 32 := Scalar.select v126 v127 v121
  let c1_i32_85 : BitVec 32 := 1#32
  let v129 : BitVec 32 := Scalar.muli v128 c1_i32_85
  let v130 : BitVec 32 := Scalar.addi c0_i32_86 v129
  v130.toNat
def k0_dev38 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_89 : BitVec 32 := 7#32
  let v139 : BitVec 32 := Scalar.addi v2 c7_i32_89
  let c32_i32_90 : BitVec 32 := 32#32
  let c0_i32_91 : BitVec 32 := 0#32
  let v140 : BitVec 1 := Scalar.cmpi .eq c32_i32_90 c0_i32_91
  let c1_i32_92 : BitVec 32 := 1#32
  let v141 : BitVec 32 := Scalar.select v140 c1_i32_92 c32_i32_90
  let v142 : BitVec 32 := Scalar.remsi v139 v141
  let c0_i32_94 : BitVec 32 := 0#32
  let v144 : BitVec 1 := Scalar.cmpi .slt v142 c0_i32_94
  let c0_i32_95 : BitVec 32 := 0#32
  let v145 : BitVec 1 := Scalar.cmpi .slt v141 c0_i32_95
  let v146 : BitVec 1 := Scalar.xori v144 v145
  let c0_i32_93 : BitVec 32 := 0#32
  let v143 : BitVec 1 := Scalar.cmpi .ne v142 c0_i32_93
  let v147 : BitVec 1 := Scalar.andi v146 v143
  let v148 : BitVec 32 := Scalar.addi v142 v141
  let v149 : BitVec 32 := Scalar.select v147 v148 v142
  let c1_i32_100 : BitVec 32 := 1#32
  let v150 : BitVec 32 := Scalar.muli v149 c1_i32_100
  let v151 : BitVec 32 := Scalar.addi c0_i32_101 v150
  v151.toNat
def k0_dev39 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v160 : BitVec 32 := Scalar.addi v2 c8_i32
  let c32_i32_104 : BitVec 32 := 32#32
  let c0_i32_105 : BitVec 32 := 0#32
  let v161 : BitVec 1 := Scalar.cmpi .eq c32_i32_104 c0_i32_105
  let c1_i32_106 : BitVec 32 := 1#32
  let v162 : BitVec 32 := Scalar.select v161 c1_i32_106 c32_i32_104
  let v163 : BitVec 32 := Scalar.remsi v160 v162
  let c0_i32_108 : BitVec 32 := 0#32
  let v165 : BitVec 1 := Scalar.cmpi .slt v163 c0_i32_108
  let c0_i32_109 : BitVec 32 := 0#32
  let v166 : BitVec 1 := Scalar.cmpi .slt v162 c0_i32_109
  let v167 : BitVec 1 := Scalar.xori v165 v166
  let c0_i32_107 : BitVec 32 := 0#32
  let v164 : BitVec 1 := Scalar.cmpi .ne v163 c0_i32_107
  let v168 : BitVec 1 := Scalar.andi v167 v164
  let v169 : BitVec 32 := Scalar.addi v163 v162
  let v170 : BitVec 32 := Scalar.select v168 v169 v163
  let c1_i32_114 : BitVec 32 := 1#32
  let v171 : BitVec 32 := Scalar.muli v170 c1_i32_114
  let v172 : BitVec 32 := Scalar.addi c0_i32_115 v171
  v172.toNat
def k0_dev40 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v181 : BitVec 32 := Scalar.addi v2 c9_i32
  let c32_i32_118 : BitVec 32 := 32#32
  let c0_i32_119 : BitVec 32 := 0#32
  let v182 : BitVec 1 := Scalar.cmpi .eq c32_i32_118 c0_i32_119
  let c1_i32_120 : BitVec 32 := 1#32
  let v183 : BitVec 32 := Scalar.select v182 c1_i32_120 c32_i32_118
  let v184 : BitVec 32 := Scalar.remsi v181 v183
  let c0_i32_122 : BitVec 32 := 0#32
  let v186 : BitVec 1 := Scalar.cmpi .slt v184 c0_i32_122
  let c0_i32_123 : BitVec 32 := 0#32
  let v187 : BitVec 1 := Scalar.cmpi .slt v183 c0_i32_123
  let v188 : BitVec 1 := Scalar.xori v186 v187
  let c0_i32_121 : BitVec 32 := 0#32
  let v185 : BitVec 1 := Scalar.cmpi .ne v184 c0_i32_121
  let v189 : BitVec 1 := Scalar.andi v188 v185
  let v190 : BitVec 32 := Scalar.addi v184 v183
  let v191 : BitVec 32 := Scalar.select v189 v190 v184
  let c1_i32_128 : BitVec 32 := 1#32
  let v192 : BitVec 32 := Scalar.muli v191 c1_i32_128
  let v193 : BitVec 32 := Scalar.addi c0_i32_129 v192
  v193.toNat
def k0_dev41 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v202 : BitVec 32 := Scalar.addi v2 c10_i32
  let c32_i32_132 : BitVec 32 := 32#32
  let c0_i32_133 : BitVec 32 := 0#32
  let v203 : BitVec 1 := Scalar.cmpi .eq c32_i32_132 c0_i32_133
  let c1_i32_134 : BitVec 32 := 1#32
  let v204 : BitVec 32 := Scalar.select v203 c1_i32_134 c32_i32_132
  let v205 : BitVec 32 := Scalar.remsi v202 v204
  let c0_i32_136 : BitVec 32 := 0#32
  let v207 : BitVec 1 := Scalar.cmpi .slt v205 c0_i32_136
  let c0_i32_137 : BitVec 32 := 0#32
  let v208 : BitVec 1 := Scalar.cmpi .slt v204 c0_i32_137
  let v209 : BitVec 1 := Scalar.xori v207 v208
  let c0_i32_135 : BitVec 32 := 0#32
  let v206 : BitVec 1 := Scalar.cmpi .ne v205 c0_i32_135
  let v210 : BitVec 1 := Scalar.andi v209 v206
  let v211 : BitVec 32 := Scalar.addi v205 v204
  let v212 : BitVec 32 := Scalar.select v210 v211 v205
  let c1_i32_142 : BitVec 32 := 1#32
  let v213 : BitVec 32 := Scalar.muli v212 c1_i32_142
  let v214 : BitVec 32 := Scalar.addi c0_i32_143 v213
  v214.toNat
def k0_dev42 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v223 : BitVec 32 := Scalar.addi v2 c11_i32
  let c32_i32_146 : BitVec 32 := 32#32
  let c0_i32_147 : BitVec 32 := 0#32
  let v224 : BitVec 1 := Scalar.cmpi .eq c32_i32_146 c0_i32_147
  let c1_i32_148 : BitVec 32 := 1#32
  let v225 : BitVec 32 := Scalar.select v224 c1_i32_148 c32_i32_146
  let v226 : BitVec 32 := Scalar.remsi v223 v225
  let c0_i32_150 : BitVec 32 := 0#32
  let v228 : BitVec 1 := Scalar.cmpi .slt v226 c0_i32_150
  let c0_i32_151 : BitVec 32 := 0#32
  let v229 : BitVec 1 := Scalar.cmpi .slt v225 c0_i32_151
  let v230 : BitVec 1 := Scalar.xori v228 v229
  let c0_i32_149 : BitVec 32 := 0#32
  let v227 : BitVec 1 := Scalar.cmpi .ne v226 c0_i32_149
  let v231 : BitVec 1 := Scalar.andi v230 v227
  let v232 : BitVec 32 := Scalar.addi v226 v225
  let v233 : BitVec 32 := Scalar.select v231 v232 v226
  let c1_i32_156 : BitVec 32 := 1#32
  let v234 : BitVec 32 := Scalar.muli v233 c1_i32_156
  let v235 : BitVec 32 := Scalar.addi c0_i32_157 v234
  v235.toNat
def k0_dev43 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v244 : BitVec 32 := Scalar.addi v2 c12_i32
  let c32_i32_160 : BitVec 32 := 32#32
  let c0_i32_161 : BitVec 32 := 0#32
  let v245 : BitVec 1 := Scalar.cmpi .eq c32_i32_160 c0_i32_161
  let c1_i32_162 : BitVec 32 := 1#32
  let v246 : BitVec 32 := Scalar.select v245 c1_i32_162 c32_i32_160
  let v247 : BitVec 32 := Scalar.remsi v244 v246
  let c0_i32_164 : BitVec 32 := 0#32
  let v249 : BitVec 1 := Scalar.cmpi .slt v247 c0_i32_164
  let c0_i32_165 : BitVec 32 := 0#32
  let v250 : BitVec 1 := Scalar.cmpi .slt v246 c0_i32_165
  let v251 : BitVec 1 := Scalar.xori v249 v250
  let c0_i32_163 : BitVec 32 := 0#32
  let v248 : BitVec 1 := Scalar.cmpi .ne v247 c0_i32_163
  let v252 : BitVec 1 := Scalar.andi v251 v248
  let v253 : BitVec 32 := Scalar.addi v247 v246
  let v254 : BitVec 32 := Scalar.select v252 v253 v247
  let c1_i32_170 : BitVec 32 := 1#32
  let v255 : BitVec 32 := Scalar.muli v254 c1_i32_170
  let v256 : BitVec 32 := Scalar.addi c0_i32_171 v255
  v256.toNat
def k0_dev44 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v265 : BitVec 32 := Scalar.addi v2 c13_i32
  let c32_i32_174 : BitVec 32 := 32#32
  let c0_i32_175 : BitVec 32 := 0#32
  let v266 : BitVec 1 := Scalar.cmpi .eq c32_i32_174 c0_i32_175
  let c1_i32_176 : BitVec 32 := 1#32
  let v267 : BitVec 32 := Scalar.select v266 c1_i32_176 c32_i32_174
  let v268 : BitVec 32 := Scalar.remsi v265 v267
  let c0_i32_178 : BitVec 32 := 0#32
  let v270 : BitVec 1 := Scalar.cmpi .slt v268 c0_i32_178
  let c0_i32_179 : BitVec 32 := 0#32
  let v271 : BitVec 1 := Scalar.cmpi .slt v267 c0_i32_179
  let v272 : BitVec 1 := Scalar.xori v270 v271
  let c0_i32_177 : BitVec 32 := 0#32
  let v269 : BitVec 1 := Scalar.cmpi .ne v268 c0_i32_177
  let v273 : BitVec 1 := Scalar.andi v272 v269
  let v274 : BitVec 32 := Scalar.addi v268 v267
  let v275 : BitVec 32 := Scalar.select v273 v274 v268
  let c1_i32_184 : BitVec 32 := 1#32
  let v276 : BitVec 32 := Scalar.muli v275 c1_i32_184
  let v277 : BitVec 32 := Scalar.addi c0_i32_185 v276
  v277.toNat
def k0_dev45 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v286 : BitVec 32 := Scalar.addi v2 c14_i32
  let c32_i32_188 : BitVec 32 := 32#32
  let c0_i32_189 : BitVec 32 := 0#32
  let v287 : BitVec 1 := Scalar.cmpi .eq c32_i32_188 c0_i32_189
  let c1_i32_190 : BitVec 32 := 1#32
  let v288 : BitVec 32 := Scalar.select v287 c1_i32_190 c32_i32_188
  let v289 : BitVec 32 := Scalar.remsi v286 v288
  let c0_i32_192 : BitVec 32 := 0#32
  let v291 : BitVec 1 := Scalar.cmpi .slt v289 c0_i32_192
  let c0_i32_193 : BitVec 32 := 0#32
  let v292 : BitVec 1 := Scalar.cmpi .slt v288 c0_i32_193
  let v293 : BitVec 1 := Scalar.xori v291 v292
  let c0_i32_191 : BitVec 32 := 0#32
  let v290 : BitVec 1 := Scalar.cmpi .ne v289 c0_i32_191
  let v294 : BitVec 1 := Scalar.andi v293 v290
  let v295 : BitVec 32 := Scalar.addi v289 v288
  let v296 : BitVec 32 := Scalar.select v294 v295 v289
  let c1_i32_198 : BitVec 32 := 1#32
  let v297 : BitVec 32 := Scalar.muli v296 c1_i32_198
  let v298 : BitVec 32 := Scalar.addi c0_i32_199 v297
  v298.toNat
def k0_dev46 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v307 : BitVec 32 := Scalar.addi v2 c15_i32
  let c32_i32_202 : BitVec 32 := 32#32
  let c0_i32_203 : BitVec 32 := 0#32
  let v308 : BitVec 1 := Scalar.cmpi .eq c32_i32_202 c0_i32_203
  let c1_i32_204 : BitVec 32 := 1#32
  let v309 : BitVec 32 := Scalar.select v308 c1_i32_204 c32_i32_202
  let v310 : BitVec 32 := Scalar.remsi v307 v309
  let c0_i32_206 : BitVec 32 := 0#32
  let v312 : BitVec 1 := Scalar.cmpi .slt v310 c0_i32_206
  let c0_i32_207 : BitVec 32 := 0#32
  let v313 : BitVec 1 := Scalar.cmpi .slt v309 c0_i32_207
  let v314 : BitVec 1 := Scalar.xori v312 v313
  let c0_i32_205 : BitVec 32 := 0#32
  let v311 : BitVec 1 := Scalar.cmpi .ne v310 c0_i32_205
  let v315 : BitVec 1 := Scalar.andi v314 v311
  let v316 : BitVec 32 := Scalar.addi v310 v309
  let v317 : BitVec 32 := Scalar.select v315 v316 v310
  let c1_i32_212 : BitVec 32 := 1#32
  let v318 : BitVec 32 := Scalar.muli v317 c1_i32_212
  let v319 : BitVec 32 := Scalar.addi c0_i32_213 v318
  v319.toNat
def k0_dev47 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v328 : BitVec 32 := Scalar.addi v2 c16_i32
  let c32_i32_216 : BitVec 32 := 32#32
  let c0_i32_217 : BitVec 32 := 0#32
  let v329 : BitVec 1 := Scalar.cmpi .eq c32_i32_216 c0_i32_217
  let c1_i32_218 : BitVec 32 := 1#32
  let v330 : BitVec 32 := Scalar.select v329 c1_i32_218 c32_i32_216
  let v331 : BitVec 32 := Scalar.remsi v328 v330
  let c0_i32_220 : BitVec 32 := 0#32
  let v333 : BitVec 1 := Scalar.cmpi .slt v331 c0_i32_220
  let c0_i32_221 : BitVec 32 := 0#32
  let v334 : BitVec 1 := Scalar.cmpi .slt v330 c0_i32_221
  let v335 : BitVec 1 := Scalar.xori v333 v334
  let c0_i32_219 : BitVec 32 := 0#32
  let v332 : BitVec 1 := Scalar.cmpi .ne v331 c0_i32_219
  let v336 : BitVec 1 := Scalar.andi v335 v332
  let v337 : BitVec 32 := Scalar.addi v331 v330
  let v338 : BitVec 32 := Scalar.select v336 v337 v331
  let c1_i32_226 : BitVec 32 := 1#32
  let v339 : BitVec 32 := Scalar.muli v338 c1_i32_226
  let v340 : BitVec 32 := Scalar.addi c0_i32_227 v339
  v340.toNat
def k0_dev48 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v349 : BitVec 32 := Scalar.addi v2 c17_i32
  let c32_i32_230 : BitVec 32 := 32#32
  let c0_i32_231 : BitVec 32 := 0#32
  let v350 : BitVec 1 := Scalar.cmpi .eq c32_i32_230 c0_i32_231
  let c1_i32_232 : BitVec 32 := 1#32
  let v351 : BitVec 32 := Scalar.select v350 c1_i32_232 c32_i32_230
  let v352 : BitVec 32 := Scalar.remsi v349 v351
  let c0_i32_234 : BitVec 32 := 0#32
  let v354 : BitVec 1 := Scalar.cmpi .slt v352 c0_i32_234
  let c0_i32_235 : BitVec 32 := 0#32
  let v355 : BitVec 1 := Scalar.cmpi .slt v351 c0_i32_235
  let v356 : BitVec 1 := Scalar.xori v354 v355
  let c0_i32_233 : BitVec 32 := 0#32
  let v353 : BitVec 1 := Scalar.cmpi .ne v352 c0_i32_233
  let v357 : BitVec 1 := Scalar.andi v356 v353
  let v358 : BitVec 32 := Scalar.addi v352 v351
  let v359 : BitVec 32 := Scalar.select v357 v358 v352
  let c1_i32_240 : BitVec 32 := 1#32
  let v360 : BitVec 32 := Scalar.muli v359 c1_i32_240
  let v361 : BitVec 32 := Scalar.addi c0_i32_241 v360
  v361.toNat
def k0_dev49 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v370 : BitVec 32 := Scalar.addi v2 c18_i32
  let c32_i32_244 : BitVec 32 := 32#32
  let c0_i32_245 : BitVec 32 := 0#32
  let v371 : BitVec 1 := Scalar.cmpi .eq c32_i32_244 c0_i32_245
  let c1_i32_246 : BitVec 32 := 1#32
  let v372 : BitVec 32 := Scalar.select v371 c1_i32_246 c32_i32_244
  let v373 : BitVec 32 := Scalar.remsi v370 v372
  let c0_i32_248 : BitVec 32 := 0#32
  let v375 : BitVec 1 := Scalar.cmpi .slt v373 c0_i32_248
  let c0_i32_249 : BitVec 32 := 0#32
  let v376 : BitVec 1 := Scalar.cmpi .slt v372 c0_i32_249
  let v377 : BitVec 1 := Scalar.xori v375 v376
  let c0_i32_247 : BitVec 32 := 0#32
  let v374 : BitVec 1 := Scalar.cmpi .ne v373 c0_i32_247
  let v378 : BitVec 1 := Scalar.andi v377 v374
  let v379 : BitVec 32 := Scalar.addi v373 v372
  let v380 : BitVec 32 := Scalar.select v378 v379 v373
  let c1_i32_254 : BitVec 32 := 1#32
  let v381 : BitVec 32 := Scalar.muli v380 c1_i32_254
  let v382 : BitVec 32 := Scalar.addi c0_i32_255 v381
  v382.toNat
def k0_dev50 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v391 : BitVec 32 := Scalar.addi v2 c19_i32
  let c32_i32_258 : BitVec 32 := 32#32
  let c0_i32_259 : BitVec 32 := 0#32
  let v392 : BitVec 1 := Scalar.cmpi .eq c32_i32_258 c0_i32_259
  let c1_i32_260 : BitVec 32 := 1#32
  let v393 : BitVec 32 := Scalar.select v392 c1_i32_260 c32_i32_258
  let v394 : BitVec 32 := Scalar.remsi v391 v393
  let c0_i32_262 : BitVec 32 := 0#32
  let v396 : BitVec 1 := Scalar.cmpi .slt v394 c0_i32_262
  let c0_i32_263 : BitVec 32 := 0#32
  let v397 : BitVec 1 := Scalar.cmpi .slt v393 c0_i32_263
  let v398 : BitVec 1 := Scalar.xori v396 v397
  let c0_i32_261 : BitVec 32 := 0#32
  let v395 : BitVec 1 := Scalar.cmpi .ne v394 c0_i32_261
  let v399 : BitVec 1 := Scalar.andi v398 v395
  let v400 : BitVec 32 := Scalar.addi v394 v393
  let v401 : BitVec 32 := Scalar.select v399 v400 v394
  let c1_i32_268 : BitVec 32 := 1#32
  let v402 : BitVec 32 := Scalar.muli v401 c1_i32_268
  let v403 : BitVec 32 := Scalar.addi c0_i32_269 v402
  v403.toNat
def k0_dev51 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v412 : BitVec 32 := Scalar.addi v2 c20_i32
  let c32_i32_272 : BitVec 32 := 32#32
  let c0_i32_273 : BitVec 32 := 0#32
  let v413 : BitVec 1 := Scalar.cmpi .eq c32_i32_272 c0_i32_273
  let c1_i32_274 : BitVec 32 := 1#32
  let v414 : BitVec 32 := Scalar.select v413 c1_i32_274 c32_i32_272
  let v415 : BitVec 32 := Scalar.remsi v412 v414
  let c0_i32_276 : BitVec 32 := 0#32
  let v417 : BitVec 1 := Scalar.cmpi .slt v415 c0_i32_276
  let c0_i32_277 : BitVec 32 := 0#32
  let v418 : BitVec 1 := Scalar.cmpi .slt v414 c0_i32_277
  let v419 : BitVec 1 := Scalar.xori v417 v418
  let c0_i32_275 : BitVec 32 := 0#32
  let v416 : BitVec 1 := Scalar.cmpi .ne v415 c0_i32_275
  let v420 : BitVec 1 := Scalar.andi v419 v416
  let v421 : BitVec 32 := Scalar.addi v415 v414
  let v422 : BitVec 32 := Scalar.select v420 v421 v415
  let c1_i32_282 : BitVec 32 := 1#32
  let v423 : BitVec 32 := Scalar.muli v422 c1_i32_282
  let v424 : BitVec 32 := Scalar.addi c0_i32_283 v423
  v424.toNat
def k0_dev52 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v433 : BitVec 32 := Scalar.addi v2 c21_i32
  let c32_i32_286 : BitVec 32 := 32#32
  let c0_i32_287 : BitVec 32 := 0#32
  let v434 : BitVec 1 := Scalar.cmpi .eq c32_i32_286 c0_i32_287
  let c1_i32_288 : BitVec 32 := 1#32
  let v435 : BitVec 32 := Scalar.select v434 c1_i32_288 c32_i32_286
  let v436 : BitVec 32 := Scalar.remsi v433 v435
  let c0_i32_290 : BitVec 32 := 0#32
  let v438 : BitVec 1 := Scalar.cmpi .slt v436 c0_i32_290
  let c0_i32_291 : BitVec 32 := 0#32
  let v439 : BitVec 1 := Scalar.cmpi .slt v435 c0_i32_291
  let v440 : BitVec 1 := Scalar.xori v438 v439
  let c0_i32_289 : BitVec 32 := 0#32
  let v437 : BitVec 1 := Scalar.cmpi .ne v436 c0_i32_289
  let v441 : BitVec 1 := Scalar.andi v440 v437
  let v442 : BitVec 32 := Scalar.addi v436 v435
  let v443 : BitVec 32 := Scalar.select v441 v442 v436
  let c1_i32_296 : BitVec 32 := 1#32
  let v444 : BitVec 32 := Scalar.muli v443 c1_i32_296
  let v445 : BitVec 32 := Scalar.addi c0_i32_297 v444
  v445.toNat
def k0_dev53 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v454 : BitVec 32 := Scalar.addi v2 c22_i32
  let c32_i32_300 : BitVec 32 := 32#32
  let c0_i32_301 : BitVec 32 := 0#32
  let v455 : BitVec 1 := Scalar.cmpi .eq c32_i32_300 c0_i32_301
  let c1_i32_302 : BitVec 32 := 1#32
  let v456 : BitVec 32 := Scalar.select v455 c1_i32_302 c32_i32_300
  let v457 : BitVec 32 := Scalar.remsi v454 v456
  let c0_i32_304 : BitVec 32 := 0#32
  let v459 : BitVec 1 := Scalar.cmpi .slt v457 c0_i32_304
  let c0_i32_305 : BitVec 32 := 0#32
  let v460 : BitVec 1 := Scalar.cmpi .slt v456 c0_i32_305
  let v461 : BitVec 1 := Scalar.xori v459 v460
  let c0_i32_303 : BitVec 32 := 0#32
  let v458 : BitVec 1 := Scalar.cmpi .ne v457 c0_i32_303
  let v462 : BitVec 1 := Scalar.andi v461 v458
  let v463 : BitVec 32 := Scalar.addi v457 v456
  let v464 : BitVec 32 := Scalar.select v462 v463 v457
  let c1_i32_310 : BitVec 32 := 1#32
  let v465 : BitVec 32 := Scalar.muli v464 c1_i32_310
  let v466 : BitVec 32 := Scalar.addi c0_i32_311 v465
  v466.toNat
def k0_dev54 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v475 : BitVec 32 := Scalar.addi v2 c23_i32
  let c32_i32_314 : BitVec 32 := 32#32
  let c0_i32_315 : BitVec 32 := 0#32
  let v476 : BitVec 1 := Scalar.cmpi .eq c32_i32_314 c0_i32_315
  let c1_i32_316 : BitVec 32 := 1#32
  let v477 : BitVec 32 := Scalar.select v476 c1_i32_316 c32_i32_314
  let v478 : BitVec 32 := Scalar.remsi v475 v477
  let c0_i32_318 : BitVec 32 := 0#32
  let v480 : BitVec 1 := Scalar.cmpi .slt v478 c0_i32_318
  let c0_i32_319 : BitVec 32 := 0#32
  let v481 : BitVec 1 := Scalar.cmpi .slt v477 c0_i32_319
  let v482 : BitVec 1 := Scalar.xori v480 v481
  let c0_i32_317 : BitVec 32 := 0#32
  let v479 : BitVec 1 := Scalar.cmpi .ne v478 c0_i32_317
  let v483 : BitVec 1 := Scalar.andi v482 v479
  let v484 : BitVec 32 := Scalar.addi v478 v477
  let v485 : BitVec 32 := Scalar.select v483 v484 v478
  let c1_i32_324 : BitVec 32 := 1#32
  let v486 : BitVec 32 := Scalar.muli v485 c1_i32_324
  let v487 : BitVec 32 := Scalar.addi c0_i32_325 v486
  v487.toNat
def k0_dev55 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v496 : BitVec 32 := Scalar.addi v2 c24_i32
  let c32_i32_328 : BitVec 32 := 32#32
  let c0_i32_329 : BitVec 32 := 0#32
  let v497 : BitVec 1 := Scalar.cmpi .eq c32_i32_328 c0_i32_329
  let c1_i32_330 : BitVec 32 := 1#32
  let v498 : BitVec 32 := Scalar.select v497 c1_i32_330 c32_i32_328
  let v499 : BitVec 32 := Scalar.remsi v496 v498
  let c0_i32_332 : BitVec 32 := 0#32
  let v501 : BitVec 1 := Scalar.cmpi .slt v499 c0_i32_332
  let c0_i32_333 : BitVec 32 := 0#32
  let v502 : BitVec 1 := Scalar.cmpi .slt v498 c0_i32_333
  let v503 : BitVec 1 := Scalar.xori v501 v502
  let c0_i32_331 : BitVec 32 := 0#32
  let v500 : BitVec 1 := Scalar.cmpi .ne v499 c0_i32_331
  let v504 : BitVec 1 := Scalar.andi v503 v500
  let v505 : BitVec 32 := Scalar.addi v499 v498
  let v506 : BitVec 32 := Scalar.select v504 v505 v499
  let c1_i32_338 : BitVec 32 := 1#32
  let v507 : BitVec 32 := Scalar.muli v506 c1_i32_338
  let v508 : BitVec 32 := Scalar.addi c0_i32_339 v507
  v508.toNat
def k0_dev56 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v517 : BitVec 32 := Scalar.addi v2 c25_i32
  let c32_i32_342 : BitVec 32 := 32#32
  let c0_i32_343 : BitVec 32 := 0#32
  let v518 : BitVec 1 := Scalar.cmpi .eq c32_i32_342 c0_i32_343
  let c1_i32_344 : BitVec 32 := 1#32
  let v519 : BitVec 32 := Scalar.select v518 c1_i32_344 c32_i32_342
  let v520 : BitVec 32 := Scalar.remsi v517 v519
  let c0_i32_346 : BitVec 32 := 0#32
  let v522 : BitVec 1 := Scalar.cmpi .slt v520 c0_i32_346
  let c0_i32_347 : BitVec 32 := 0#32
  let v523 : BitVec 1 := Scalar.cmpi .slt v519 c0_i32_347
  let v524 : BitVec 1 := Scalar.xori v522 v523
  let c0_i32_345 : BitVec 32 := 0#32
  let v521 : BitVec 1 := Scalar.cmpi .ne v520 c0_i32_345
  let v525 : BitVec 1 := Scalar.andi v524 v521
  let v526 : BitVec 32 := Scalar.addi v520 v519
  let v527 : BitVec 32 := Scalar.select v525 v526 v520
  let c1_i32_352 : BitVec 32 := 1#32
  let v528 : BitVec 32 := Scalar.muli v527 c1_i32_352
  let v529 : BitVec 32 := Scalar.addi c0_i32_353 v528
  v529.toNat
def k0_dev57 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v538 : BitVec 32 := Scalar.addi v2 c26_i32
  let c32_i32_356 : BitVec 32 := 32#32
  let c0_i32_357 : BitVec 32 := 0#32
  let v539 : BitVec 1 := Scalar.cmpi .eq c32_i32_356 c0_i32_357
  let c1_i32_358 : BitVec 32 := 1#32
  let v540 : BitVec 32 := Scalar.select v539 c1_i32_358 c32_i32_356
  let v541 : BitVec 32 := Scalar.remsi v538 v540
  let c0_i32_360 : BitVec 32 := 0#32
  let v543 : BitVec 1 := Scalar.cmpi .slt v541 c0_i32_360
  let c0_i32_361 : BitVec 32 := 0#32
  let v544 : BitVec 1 := Scalar.cmpi .slt v540 c0_i32_361
  let v545 : BitVec 1 := Scalar.xori v543 v544
  let c0_i32_359 : BitVec 32 := 0#32
  let v542 : BitVec 1 := Scalar.cmpi .ne v541 c0_i32_359
  let v546 : BitVec 1 := Scalar.andi v545 v542
  let v547 : BitVec 32 := Scalar.addi v541 v540
  let v548 : BitVec 32 := Scalar.select v546 v547 v541
  let c1_i32_366 : BitVec 32 := 1#32
  let v549 : BitVec 32 := Scalar.muli v548 c1_i32_366
  let v550 : BitVec 32 := Scalar.addi c0_i32_367 v549
  v550.toNat
def k0_dev58 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v559 : BitVec 32 := Scalar.addi v2 c27_i32
  let c32_i32_370 : BitVec 32 := 32#32
  let c0_i32_371 : BitVec 32 := 0#32
  let v560 : BitVec 1 := Scalar.cmpi .eq c32_i32_370 c0_i32_371
  let c1_i32_372 : BitVec 32 := 1#32
  let v561 : BitVec 32 := Scalar.select v560 c1_i32_372 c32_i32_370
  let v562 : BitVec 32 := Scalar.remsi v559 v561
  let c0_i32_374 : BitVec 32 := 0#32
  let v564 : BitVec 1 := Scalar.cmpi .slt v562 c0_i32_374
  let c0_i32_375 : BitVec 32 := 0#32
  let v565 : BitVec 1 := Scalar.cmpi .slt v561 c0_i32_375
  let v566 : BitVec 1 := Scalar.xori v564 v565
  let c0_i32_373 : BitVec 32 := 0#32
  let v563 : BitVec 1 := Scalar.cmpi .ne v562 c0_i32_373
  let v567 : BitVec 1 := Scalar.andi v566 v563
  let v568 : BitVec 32 := Scalar.addi v562 v561
  let v569 : BitVec 32 := Scalar.select v567 v568 v562
  let c1_i32_380 : BitVec 32 := 1#32
  let v570 : BitVec 32 := Scalar.muli v569 c1_i32_380
  let v571 : BitVec 32 := Scalar.addi c0_i32_381 v570
  v571.toNat
def k0_dev59 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v580 : BitVec 32 := Scalar.addi v2 c28_i32
  let c32_i32_384 : BitVec 32 := 32#32
  let c0_i32_385 : BitVec 32 := 0#32
  let v581 : BitVec 1 := Scalar.cmpi .eq c32_i32_384 c0_i32_385
  let c1_i32_386 : BitVec 32 := 1#32
  let v582 : BitVec 32 := Scalar.select v581 c1_i32_386 c32_i32_384
  let v583 : BitVec 32 := Scalar.remsi v580 v582
  let c0_i32_388 : BitVec 32 := 0#32
  let v585 : BitVec 1 := Scalar.cmpi .slt v583 c0_i32_388
  let c0_i32_389 : BitVec 32 := 0#32
  let v586 : BitVec 1 := Scalar.cmpi .slt v582 c0_i32_389
  let v587 : BitVec 1 := Scalar.xori v585 v586
  let c0_i32_387 : BitVec 32 := 0#32
  let v584 : BitVec 1 := Scalar.cmpi .ne v583 c0_i32_387
  let v588 : BitVec 1 := Scalar.andi v587 v584
  let v589 : BitVec 32 := Scalar.addi v583 v582
  let v590 : BitVec 32 := Scalar.select v588 v589 v583
  let c1_i32_394 : BitVec 32 := 1#32
  let v591 : BitVec 32 := Scalar.muli v590 c1_i32_394
  let v592 : BitVec 32 := Scalar.addi c0_i32_395 v591
  v592.toNat
def k0_dev60 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v601 : BitVec 32 := Scalar.addi v2 c29_i32
  let c32_i32_398 : BitVec 32 := 32#32
  let c0_i32_399 : BitVec 32 := 0#32
  let v602 : BitVec 1 := Scalar.cmpi .eq c32_i32_398 c0_i32_399
  let c1_i32_400 : BitVec 32 := 1#32
  let v603 : BitVec 32 := Scalar.select v602 c1_i32_400 c32_i32_398
  let v604 : BitVec 32 := Scalar.remsi v601 v603
  let c0_i32_402 : BitVec 32 := 0#32
  let v606 : BitVec 1 := Scalar.cmpi .slt v604 c0_i32_402
  let c0_i32_403 : BitVec 32 := 0#32
  let v607 : BitVec 1 := Scalar.cmpi .slt v603 c0_i32_403
  let v608 : BitVec 1 := Scalar.xori v606 v607
  let c0_i32_401 : BitVec 32 := 0#32
  let v605 : BitVec 1 := Scalar.cmpi .ne v604 c0_i32_401
  let v609 : BitVec 1 := Scalar.andi v608 v605
  let v610 : BitVec 32 := Scalar.addi v604 v603
  let v611 : BitVec 32 := Scalar.select v609 v610 v604
  let c1_i32_408 : BitVec 32 := 1#32
  let v612 : BitVec 32 := Scalar.muli v611 c1_i32_408
  let v613 : BitVec 32 := Scalar.addi c0_i32_409 v612
  v613.toNat
def k0_dev61 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v622 : BitVec 32 := Scalar.addi v2 c30_i32
  let c32_i32_412 : BitVec 32 := 32#32
  let c0_i32_413 : BitVec 32 := 0#32
  let v623 : BitVec 1 := Scalar.cmpi .eq c32_i32_412 c0_i32_413
  let c1_i32_414 : BitVec 32 := 1#32
  let v624 : BitVec 32 := Scalar.select v623 c1_i32_414 c32_i32_412
  let v625 : BitVec 32 := Scalar.remsi v622 v624
  let c0_i32_416 : BitVec 32 := 0#32
  let v627 : BitVec 1 := Scalar.cmpi .slt v625 c0_i32_416
  let c0_i32_417 : BitVec 32 := 0#32
  let v628 : BitVec 1 := Scalar.cmpi .slt v624 c0_i32_417
  let v629 : BitVec 1 := Scalar.xori v627 v628
  let c0_i32_415 : BitVec 32 := 0#32
  let v626 : BitVec 1 := Scalar.cmpi .ne v625 c0_i32_415
  let v630 : BitVec 1 := Scalar.andi v629 v626
  let v631 : BitVec 32 := Scalar.addi v625 v624
  let v632 : BitVec 32 := Scalar.select v630 v631 v625
  let c1_i32_422 : BitVec 32 := 1#32
  let v633 : BitVec 32 := Scalar.muli v632 c1_i32_422
  let v634 : BitVec 32 := Scalar.addi c0_i32_423 v633
  v634.toNat
def k0_dev62 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_426 : BitVec 32 := 31#32
  let v643 : BitVec 32 := Scalar.addi v2 c31_i32_426
  let c32_i32_427 : BitVec 32 := 32#32
  let c0_i32_428 : BitVec 32 := 0#32
  let v644 : BitVec 1 := Scalar.cmpi .eq c32_i32_427 c0_i32_428
  let c1_i32_429 : BitVec 32 := 1#32
  let v645 : BitVec 32 := Scalar.select v644 c1_i32_429 c32_i32_427
  let v646 : BitVec 32 := Scalar.remsi v643 v645
  let c0_i32_431 : BitVec 32 := 0#32
  let v648 : BitVec 1 := Scalar.cmpi .slt v646 c0_i32_431
  let c0_i32_432 : BitVec 32 := 0#32
  let v649 : BitVec 1 := Scalar.cmpi .slt v645 c0_i32_432
  let v650 : BitVec 1 := Scalar.xori v648 v649
  let c0_i32_430 : BitVec 32 := 0#32
  let v647 : BitVec 1 := Scalar.cmpi .ne v646 c0_i32_430
  let v651 : BitVec 1 := Scalar.andi v650 v647
  let v652 : BitVec 32 := Scalar.addi v646 v645
  let v653 : BitVec 32 := Scalar.select v651 v652 v646
  let c1_i32_437 : BitVec 32 := 1#32
  let v654 : BitVec 32 := Scalar.muli v653 c1_i32_437
  let v655 : BitVec 32 := Scalar.addi c0_i32_438 v654
  v655.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S1024 : S256x1024.Reduces [0] S1024
  shapeCasts_S1024_S1x1024 : S1024.ShapeCasts S1x1024
  inb_S32x1024_S1x1024_0_0 : ∀ a, (![0, 0] : Fin 2 → Nat) a + S1x1024.size a ≤ S32x1024.size a
  h_S1x1024 : 0 < S1x1024.numel
  shapeCasts_S1x1024_S1x1024 : S1x1024.ShapeCasts S1x1024
  hamt_31 : (31#32 : BitVec 32).msb = false
  inb_S32_S1_1 : ∀ a, (![1] : Fin 1 → Nat) a + S1.size a ≤ S32.size a
  squeezes_S1_S_ : S1.Squeezes S_
  inb_S32x1024_S1x1024_1_0 : ∀ a, (![1, 0] : Fin 2 → Nat) a + S1x1024.size a ≤ S32x1024.size a
  squeezes_S1x1024_S1024 : S1x1024.Squeezes S1024
  inb_S32_S1_2 : ∀ a, (![2] : Fin 1 → Nat) a + S1.size a ≤ S32.size a
  inb_S32x1024_S1x1024_2_0 : ∀ a, (![2, 0] : Fin 2 → Nat) a + S1x1024.size a ≤ S32x1024.size a
  inb_S32_S1_3 : ∀ a, (![3] : Fin 1 → Nat) a + S1.size a ≤ S32.size a
  inb_S32x1024_S1x1024_3_0 : ∀ a, (![3, 0] : Fin 2 → Nat) a + S1x1024.size a ≤ S32x1024.size a
  inb_S32_S1_4 : ∀ a, (![4] : Fin 1 → Nat) a + S1.size a ≤ S32.size a
  inb_S32x1024_S1x1024_4_0 : ∀ a, (![4, 0] : Fin 2 → Nat) a + S1x1024.size a ≤ S32x1024.size a
  inb_S32_S1_5 : ∀ a, (![5] : Fin 1 → Nat) a + S1.size a ≤ S32.size a
  inb_S32x1024_S1x1024_5_0 : ∀ a, (![5, 0] : Fin 2 → Nat) a + S1x1024.size a ≤ S32x1024.size a
  inb_S32_S1_6 : ∀ a, (![6] : Fin 1 → Nat) a + S1.size a ≤ S32.size a
  inb_S32x1024_S1x1024_6_0 : ∀ a, (![6, 0] : Fin 2 → Nat) a + S1x1024.size a ≤ S32x1024.size a
  inb_S32_S1_7 : ∀ a, (![7] : Fin 1 → Nat) a + S1.size a ≤ S32.size a
  inb_S32x1024_S1x1024_7_0 : ∀ a, (![7, 0] : Fin 2 → Nat) a + S1x1024.size a ≤ S32x1024.size a
  inb_S32_S1_8 : ∀ a, (![8] : Fin 1 → Nat) a + S1.size a ≤ S32.size a
  inb_S32x1024_S1x1024_8_0 : ∀ a, (![8, 0] : Fin 2 → Nat) a + S1x1024.size a ≤ S32x1024.size a
  inb_S32_S1_9 : ∀ a, (![9] : Fin 1 → Nat) a + S1.size a ≤ S32.size a
  inb_S32x1024_S1x1024_9_0 : ∀ a, (![9, 0] : Fin 2 → Nat) a + S1x1024.size a ≤ S32x1024.size a
  inb_S32_S1_10 : ∀ a, (![10] : Fin 1 → Nat) a + S1.size a ≤ S32.size a
  inb_S32x1024_S1x1024_10_0 : ∀ a, (![10, 0] : Fin 2 → Nat) a + S1x1024.size a ≤ S32x1024.size a
  inb_S32_S1_11 : ∀ a, (![11] : Fin 1 → Nat) a + S1.size a ≤ S32.size a
  inb_S32x1024_S1x1024_11_0 : ∀ a, (![11, 0] : Fin 2 → Nat) a + S1x1024.size a ≤ S32x1024.size a
  inb_S32_S1_12 : ∀ a, (![12] : Fin 1 → Nat) a + S1.size a ≤ S32.size a
  inb_S32x1024_S1x1024_12_0 : ∀ a, (![12, 0] : Fin 2 → Nat) a + S1x1024.size a ≤ S32x1024.size a
  inb_S32_S1_13 : ∀ a, (![13] : Fin 1 → Nat) a + S1.size a ≤ S32.size a
  inb_S32x1024_S1x1024_13_0 : ∀ a, (![13, 0] : Fin 2 → Nat) a + S1x1024.size a ≤ S32x1024.size a
  inb_S32_S1_14 : ∀ a, (![14] : Fin 1 → Nat) a + S1.size a ≤ S32.size a
  inb_S32x1024_S1x1024_14_0 : ∀ a, (![14, 0] : Fin 2 → Nat) a + S1x1024.size a ≤ S32x1024.size a
  inb_S32_S1_15 : ∀ a, (![15] : Fin 1 → Nat) a + S1.size a ≤ S32.size a
  inb_S32x1024_S1x1024_15_0 : ∀ a, (![15, 0] : Fin 2 → Nat) a + S1x1024.size a ≤ S32x1024.size a
  inb_S32_S1_16 : ∀ a, (![16] : Fin 1 → Nat) a + S1.size a ≤ S32.size a
  inb_S32x1024_S1x1024_16_0 : ∀ a, (![16, 0] : Fin 2 → Nat) a + S1x1024.size a ≤ S32x1024.size a
  inb_S32_S1_17 : ∀ a, (![17] : Fin 1 → Nat) a + S1.size a ≤ S32.size a
  inb_S32x1024_S1x1024_17_0 : ∀ a, (![17, 0] : Fin 2 → Nat) a + S1x1024.size a ≤ S32x1024.size a
  inb_S32_S1_18 : ∀ a, (![18] : Fin 1 → Nat) a + S1.size a ≤ S32.size a
  inb_S32x1024_S1x1024_18_0 : ∀ a, (![18, 0] : Fin 2 → Nat) a + S1x1024.size a ≤ S32x1024.size a
  inb_S32_S1_19 : ∀ a, (![19] : Fin 1 → Nat) a + S1.size a ≤ S32.size a
  inb_S32x1024_S1x1024_19_0 : ∀ a, (![19, 0] : Fin 2 → Nat) a + S1x1024.size a ≤ S32x1024.size a
  inb_S32_S1_20 : ∀ a, (![20] : Fin 1 → Nat) a + S1.size a ≤ S32.size a
  inb_S32x1024_S1x1024_20_0 : ∀ a, (![20, 0] : Fin 2 → Nat) a + S1x1024.size a ≤ S32x1024.size a
  inb_S32_S1_21 : ∀ a, (![21] : Fin 1 → Nat) a + S1.size a ≤ S32.size a
  inb_S32x1024_S1x1024_21_0 : ∀ a, (![21, 0] : Fin 2 → Nat) a + S1x1024.size a ≤ S32x1024.size a
  inb_S32_S1_22 : ∀ a, (![22] : Fin 1 → Nat) a + S1.size a ≤ S32.size a
  inb_S32x1024_S1x1024_22_0 : ∀ a, (![22, 0] : Fin 2 → Nat) a + S1x1024.size a ≤ S32x1024.size a
  inb_S32_S1_23 : ∀ a, (![23] : Fin 1 → Nat) a + S1.size a ≤ S32.size a
  inb_S32x1024_S1x1024_23_0 : ∀ a, (![23, 0] : Fin 2 → Nat) a + S1x1024.size a ≤ S32x1024.size a
  inb_S32_S1_24 : ∀ a, (![24] : Fin 1 → Nat) a + S1.size a ≤ S32.size a
  inb_S32x1024_S1x1024_24_0 : ∀ a, (![24, 0] : Fin 2 → Nat) a + S1x1024.size a ≤ S32x1024.size a
  inb_S32_S1_25 : ∀ a, (![25] : Fin 1 → Nat) a + S1.size a ≤ S32.size a
  inb_S32x1024_S1x1024_25_0 : ∀ a, (![25, 0] : Fin 2 → Nat) a + S1x1024.size a ≤ S32x1024.size a
  inb_S32_S1_26 : ∀ a, (![26] : Fin 1 → Nat) a + S1.size a ≤ S32.size a
  inb_S32x1024_S1x1024_26_0 : ∀ a, (![26, 0] : Fin 2 → Nat) a + S1x1024.size a ≤ S32x1024.size a
  inb_S32_S1_27 : ∀ a, (![27] : Fin 1 → Nat) a + S1.size a ≤ S32.size a
  inb_S32x1024_S1x1024_27_0 : ∀ a, (![27, 0] : Fin 2 → Nat) a + S1x1024.size a ≤ S32x1024.size a
  inb_S32_S1_28 : ∀ a, (![28] : Fin 1 → Nat) a + S1.size a ≤ S32.size a
  inb_S32x1024_S1x1024_28_0 : ∀ a, (![28, 0] : Fin 2 → Nat) a + S1x1024.size a ≤ S32x1024.size a
  inb_S32_S1_29 : ∀ a, (![29] : Fin 1 → Nat) a + S1.size a ≤ S32.size a
  inb_S32x1024_S1x1024_29_0 : ∀ a, (![29, 0] : Fin 2 → Nat) a + S1x1024.size a ≤ S32x1024.size a
  inb_S32_S1_30 : ∀ a, (![30] : Fin 1 → Nat) a + S1.size a ≤ S32.size a
  inb_S32x1024_S1x1024_30_0 : ∀ a, (![30, 0] : Fin 2 → Nat) a + S1x1024.size a ≤ S32x1024.size a
  inb_S32_S1_31 : ∀ a, (![31] : Fin 1 → Nat) a + S1.size a ≤ S32.size a
  inb_S32x1024_S1x1024_31_0 : ∀ a, (![31, 0] : Fin 2 → Nat) a + S1x1024.size a ≤ S32x1024.size a
  inb_S32x1024_S32x1024_0_0 : ∀ a, (![0, 0] : Fin 2 → Nat) a + S32x1024.size a ≤ S32x1024.size a
  h_S32x1024 : 0 < S32x1024.numel
  reduces_S32x1024_S1024 : S32x1024.Reduces [0] S1024
  inb_S1x1024_S1x1024_0_0 : ∀ a, (![0, 0] : Fin 2 → Nat) a + S1x1024.size a ≤ S1x1024.size a
  hcc0_scratch1 : 3 + S32.numel ≤ 67
  hcc0_scratch2 : 35 + S32.numel ≤ 67
  hrank0 : 0 < grid0.rank
  k0_dev1_lt : ∀ (i : grid0.Coords) (d0 : Dev nD), ∀ (k0_h1 : k0_cond1 i = 1#1), (k0_dev1 d0) < nD
  k0_dev2_lt : ∀ (i : grid0.Coords) (d0 : Dev nD), ∀ (k0_h1 : k0_cond1 i = 1#1), (k0_dev2 d0) < nD
  k0_dev3_lt : ∀ (i : grid0.Coords) (d0 : Dev nD), ∀ (k0_h1 : k0_cond1 i = 1#1), (k0_dev3 d0) < nD
  k0_dev4_lt : ∀ (i : grid0.Coords) (d0 : Dev nD), ∀ (k0_h1 : k0_cond1 i = 1#1), (k0_dev4 d0) < nD
  k0_dev5_lt : ∀ (i : grid0.Coords) (d0 : Dev nD), ∀ (k0_h1 : k0_cond1 i = 1#1), (k0_dev5 d0) < nD
  k0_dev6_lt : ∀ (i : grid0.Coords) (d0 : Dev nD), ∀ (k0_h1 : k0_cond1 i = 1#1), (k0_dev6 d0) < nD
  k0_dev7_lt : ∀ (i : grid0.Coords) (d0 : Dev nD), ∀ (k0_h1 : k0_cond1 i = 1#1), (k0_dev7 d0) < nD
  k0_dev8_lt : ∀ (i : grid0.Coords) (d0 : Dev nD), ∀ (k0_h1 : k0_cond1 i = 1#1), (k0_dev8 d0) < nD
  k0_dev9_lt : ∀ (i : grid0.Coords) (d0 : Dev nD), ∀ (k0_h1 : k0_cond1 i = 1#1), (k0_dev9 d0) < nD
  k0_dev10_lt : ∀ (i : grid0.Coords) (d0 : Dev nD), ∀ (k0_h1 : k0_cond1 i = 1#1), (k0_dev10 d0) < nD
  k0_dev11_lt : ∀ (i : grid0.Coords) (d0 : Dev nD), ∀ (k0_h1 : k0_cond1 i = 1#1), (k0_dev11 d0) < nD
  k0_dev12_lt : ∀ (i : grid0.Coords) (d0 : Dev nD), ∀ (k0_h1 : k0_cond1 i = 1#1), (k0_dev12 d0) < nD
  k0_dev13_lt : ∀ (i : grid0.Coords) (d0 : Dev nD), ∀ (k0_h1 : k0_cond1 i = 1#1), (k0_dev13 d0) < nD
  k0_dev14_lt : ∀ (i : grid0.Coords) (d0 : Dev nD), ∀ (k0_h1 : k0_cond1 i = 1#1), (k0_dev14 d0) < nD
  k0_dev15_lt : ∀ (i : grid0.Coords) (d0 : Dev nD), ∀ (k0_h1 : k0_cond1 i = 1#1), (k0_dev15 d0) < nD
  k0_dev16_lt : ∀ (i : grid0.Coords) (d0 : Dev nD), ∀ (k0_h1 : k0_cond1 i = 1#1), (k0_dev16 d0) < nD
  k0_dev17_lt : ∀ (i : grid0.Coords) (d0 : Dev nD), ∀ (k0_h1 : k0_cond1 i = 1#1), (k0_dev17 d0) < nD
  k0_dev18_lt : ∀ (i : grid0.Coords) (d0 : Dev nD), ∀ (k0_h1 : k0_cond1 i = 1#1), (k0_dev18 d0) < nD
  k0_dev19_lt : ∀ (i : grid0.Coords) (d0 : Dev nD), ∀ (k0_h1 : k0_cond1 i = 1#1), (k0_dev19 d0) < nD
  k0_dev20_lt : ∀ (i : grid0.Coords) (d0 : Dev nD), ∀ (k0_h1 : k0_cond1 i = 1#1), (k0_dev20 d0) < nD
  k0_dev21_lt : ∀ (i : grid0.Coords) (d0 : Dev nD), ∀ (k0_h1 : k0_cond1 i = 1#1), (k0_dev21 d0) < nD
  k0_dev22_lt : ∀ (i : grid0.Coords) (d0 : Dev nD), ∀ (k0_h1 : k0_cond1 i = 1#1), (k0_dev22 d0) < nD
  k0_dev23_lt : ∀ (i : grid0.Coords) (d0 : Dev nD), ∀ (k0_h1 : k0_cond1 i = 1#1), (k0_dev23 d0) < nD
  k0_dev24_lt : ∀ (i : grid0.Coords) (d0 : Dev nD), ∀ (k0_h1 : k0_cond1 i = 1#1), (k0_dev24 d0) < nD
  k0_dev25_lt : ∀ (i : grid0.Coords) (d0 : Dev nD), ∀ (k0_h1 : k0_cond1 i = 1#1), (k0_dev25 d0) < nD
  k0_dev26_lt : ∀ (i : grid0.Coords) (d0 : Dev nD), ∀ (k0_h1 : k0_cond1 i = 1#1), (k0_dev26 d0) < nD
  k0_dev27_lt : ∀ (i : grid0.Coords) (d0 : Dev nD), ∀ (k0_h1 : k0_cond1 i = 1#1), (k0_dev27 d0) < nD
  k0_dev28_lt : ∀ (i : grid0.Coords) (d0 : Dev nD), ∀ (k0_h1 : k0_cond1 i = 1#1), (k0_dev28 d0) < nD
  k0_dev29_lt : ∀ (i : grid0.Coords) (d0 : Dev nD), ∀ (k0_h1 : k0_cond1 i = 1#1), (k0_dev29 d0) < nD
  k0_dev30_lt : ∀ (i : grid0.Coords) (d0 : Dev nD), ∀ (k0_h1 : k0_cond1 i = 1#1), (k0_dev30 d0) < nD
  k0_dev31_lt : ∀ (i : grid0.Coords) (d0 : Dev nD), ∀ (k0_h1 : k0_cond1 i = 1#1), (k0_dev31 d0) < nD
  k0_dev32_lt : ∀ (i : grid0.Coords) (d0 : Dev nD), ∀ (k0_h3 : k0_cond3 i = 1#1), (k0_dev32 d0) < nD
  k0_dev33_lt : ∀ (i : grid0.Coords) (d0 : Dev nD), ∀ (k0_h3 : k0_cond3 i = 1#1), (k0_dev33 d0) < nD
  k0_dev34_lt : ∀ (i : grid0.Coords) (d0 : Dev nD), ∀ (k0_h3 : k0_cond3 i = 1#1), (k0_dev34 d0) < nD
  k0_dev35_lt : ∀ (i : grid0.Coords) (d0 : Dev nD), ∀ (k0_h3 : k0_cond3 i = 1#1), (k0_dev35 d0) < nD
  k0_dev36_lt : ∀ (i : grid0.Coords) (d0 : Dev nD), ∀ (k0_h3 : k0_cond3 i = 1#1), (k0_dev36 d0) < nD
  k0_dev37_lt : ∀ (i : grid0.Coords) (d0 : Dev nD), ∀ (k0_h3 : k0_cond3 i = 1#1), (k0_dev37 d0) < nD
  k0_dev38_lt : ∀ (i : grid0.Coords) (d0 : Dev nD), ∀ (k0_h3 : k0_cond3 i = 1#1), (k0_dev38 d0) < nD
  k0_dev39_lt : ∀ (i : grid0.Coords) (d0 : Dev nD), ∀ (k0_h3 : k0_cond3 i = 1#1), (k0_dev39 d0) < nD
  k0_dev40_lt : ∀ (i : grid0.Coords) (d0 : Dev nD), ∀ (k0_h3 : k0_cond3 i = 1#1), (k0_dev40 d0) < nD
  k0_dev41_lt : ∀ (i : grid0.Coords) (d0 : Dev nD), ∀ (k0_h3 : k0_cond3 i = 1#1), (k0_dev41 d0) < nD
  k0_dev42_lt : ∀ (i : grid0.Coords) (d0 : Dev nD), ∀ (k0_h3 : k0_cond3 i = 1#1), (k0_dev42 d0) < nD
  k0_dev43_lt : ∀ (i : grid0.Coords) (d0 : Dev nD), ∀ (k0_h3 : k0_cond3 i = 1#1), (k0_dev43 d0) < nD
  k0_dev44_lt : ∀ (i : grid0.Coords) (d0 : Dev nD), ∀ (k0_h3 : k0_cond3 i = 1#1), (k0_dev44 d0) < nD
  k0_dev45_lt : ∀ (i : grid0.Coords) (d0 : Dev nD), ∀ (k0_h3 : k0_cond3 i = 1#1), (k0_dev45 d0) < nD
  k0_dev46_lt : ∀ (i : grid0.Coords) (d0 : Dev nD), ∀ (k0_h3 : k0_cond3 i = 1#1), (k0_dev46 d0) < nD
  k0_dev47_lt : ∀ (i : grid0.Coords) (d0 : Dev nD), ∀ (k0_h3 : k0_cond3 i = 1#1), (k0_dev47 d0) < nD
  k0_dev48_lt : ∀ (i : grid0.Coords) (d0 : Dev nD), ∀ (k0_h3 : k0_cond3 i = 1#1), (k0_dev48 d0) < nD
  k0_dev49_lt : ∀ (i : grid0.Coords) (d0 : Dev nD), ∀ (k0_h3 : k0_cond3 i = 1#1), (k0_dev49 d0) < nD
  k0_dev50_lt : ∀ (i : grid0.Coords) (d0 : Dev nD), ∀ (k0_h3 : k0_cond3 i = 1#1), (k0_dev50 d0) < nD
  k0_dev51_lt : ∀ (i : grid0.Coords) (d0 : Dev nD), ∀ (k0_h3 : k0_cond3 i = 1#1), (k0_dev51 d0) < nD
  k0_dev52_lt : ∀ (i : grid0.Coords) (d0 : Dev nD), ∀ (k0_h3 : k0_cond3 i = 1#1), (k0_dev52 d0) < nD
  k0_dev53_lt : ∀ (i : grid0.Coords) (d0 : Dev nD), ∀ (k0_h3 : k0_cond3 i = 1#1), (k0_dev53 d0) < nD
  k0_dev54_lt : ∀ (i : grid0.Coords) (d0 : Dev nD), ∀ (k0_h3 : k0_cond3 i = 1#1), (k0_dev54 d0) < nD
  k0_dev55_lt : ∀ (i : grid0.Coords) (d0 : Dev nD), ∀ (k0_h3 : k0_cond3 i = 1#1), (k0_dev55 d0) < nD
  k0_dev56_lt : ∀ (i : grid0.Coords) (d0 : Dev nD), ∀ (k0_h3 : k0_cond3 i = 1#1), (k0_dev56 d0) < nD
  k0_dev57_lt : ∀ (i : grid0.Coords) (d0 : Dev nD), ∀ (k0_h3 : k0_cond3 i = 1#1), (k0_dev57 d0) < nD
  k0_dev58_lt : ∀ (i : grid0.Coords) (d0 : Dev nD), ∀ (k0_h3 : k0_cond3 i = 1#1), (k0_dev58 d0) < nD
  k0_dev59_lt : ∀ (i : grid0.Coords) (d0 : Dev nD), ∀ (k0_h3 : k0_cond3 i = 1#1), (k0_dev59 d0) < nD
  k0_dev60_lt : ∀ (i : grid0.Coords) (d0 : Dev nD), ∀ (k0_h3 : k0_cond3 i = 1#1), (k0_dev60 d0) < nD
  k0_dev61_lt : ∀ (i : grid0.Coords) (d0 : Dev nD), ∀ (k0_h3 : k0_cond3 i = 1#1), (k0_dev61 d0) < nD
  k0_dev62_lt : ∀ (i : grid0.Coords) (d0 : Dev nD), ∀ (k0_h3 : k0_cond3 i = 1#1), (k0_dev62 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch1 : DmaSems sig S32 := SemArray.consecutive 3 S32 hcc0_scratch1
abbrev cc0_scratch2 : DmaSems sig S32 := SemArray.consecutive 35 S32 hcc0_scratch2

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Mesh.lean ====
import proofs.«901085_g7700000000001086_dist_sum_ax0_shard0_i_m2048_n1024_v7x_i32_f32_1_alg».proof.Proof.Gen.KernelIdeal

namespace Cert.KernelIdeal.Sum

open Idealize.ShloMosaic Cert.KernelIdeal

def peer (c : Dev nD) (k : ℕ) : Dev nD := ⟨(c.val + k) % 32, Nat.mod_lt _ (by decide)⟩

-- A device number that is (c + k) mod 32 is the device k places after c on the ring.
theorem dev_eq {f : Dev nD → ℕ} {k : ℕ} (hf : ∀ c, f c = (c.val + k) % 32) (c : Dev nD) (h : f c < nD) :
    (⟨f c, h⟩ : Dev nD) = peer c k := Fin.ext (hf c)

theorem dev1_eq (c : Dev nD) (h : k0_dev1 c < nD) : (⟨k0_dev1 c, h⟩ : Dev nD) = peer c 1 := dev_eq (by decide) c h
theorem dev2_eq (c : Dev nD) (h : k0_dev2 c < nD) : (⟨k0_dev2 c, h⟩ : Dev nD) = peer c 2 := dev_eq (by decide) c h
theorem dev3_eq (c : Dev nD) (h : k0_dev3 c < nD) : (⟨k0_dev3 c, h⟩ : Dev nD) = peer c 3 := dev_eq (by decide) c h
theorem dev4_eq (c : Dev nD) (h : k0_dev4 c < nD) : (⟨k0_dev4 c, h⟩ : Dev nD) = peer c 4 := dev_eq (by decide) c h
theorem dev5_eq (c : Dev nD) (h : k0_dev5 c < nD) : (⟨k0_dev5 c, h⟩ : Dev nD) = peer c 5 := dev_eq (by decide) c h
theorem dev6_eq (c : Dev nD) (h : k0_dev6 c < nD) : (⟨k0_dev6 c, h⟩ : Dev nD) = peer c 6 := dev_eq (by decide) c h
theorem dev7_eq (c : Dev nD) (h : k0_dev7 c < nD) : (⟨k0_dev7 c, h⟩ : Dev nD) = peer c 7 := dev_eq (by decide) c h
theorem dev8_eq (c : Dev nD) (h : k0_dev8 c < nD) : (⟨k0_dev8 c, h⟩ : Dev nD) = peer c 8 := dev_eq (by decide) c h
theorem dev9_eq (c : Dev nD) (h : k0_dev9 c < nD) : (⟨k0_dev9 c, h⟩ : Dev nD) = peer c 9 := dev_eq (by decide) c h
theorem dev10_eq (c : Dev nD) (h : k0_dev10 c < nD) : (⟨k0_dev10 c, h⟩ : Dev nD) = peer c 10 := dev_eq (by decide) c h
theorem dev11_eq (c : Dev nD) (h : k0_dev11 c < nD) : (⟨k0_dev11 c, h⟩ : Dev nD) = peer c 11 := dev_eq (by decide) c h
theorem dev12_eq (c : Dev nD) (h : k0_dev12 c < nD) : (⟨k0_dev12 c, h⟩ : Dev nD) = peer c 12 := dev_eq (by decide) c h
theorem dev13_eq (c : Dev nD) (h : k0_dev13 c < nD) : (⟨k0_dev13 c, h⟩ : Dev nD) = peer c 13 := dev_eq (by decide) c h
theorem dev14_eq (c : Dev nD) (h : k0_dev14 c < nD) : (⟨k0_dev14 c, h⟩ : Dev nD) = peer c 14 := dev_eq (by decide) c h
theorem dev15_eq (c : Dev nD) (h : k0_dev15 c < nD) : (⟨k0_dev15 c, h⟩ : Dev nD) = peer c 15 := dev_eq (by decide) c h
theorem dev16_eq (c : Dev nD) (h : k0_dev16 c < nD) : (⟨k0_dev16 c, h⟩ : Dev nD) = peer c 16 := dev_eq (by decide) c h
theorem dev17_eq (c : Dev nD) (h : k0_dev17 c < nD) : (⟨k0_dev17 c, h⟩ : Dev nD) = peer c 17 := dev_eq (by decide) c h
theorem dev18_eq (c : Dev nD) (h : k0_dev18 c < nD) : (⟨k0_dev18 c, h⟩ : Dev nD) = peer c 18 := dev_eq (by decide) c h
theorem dev19_eq (c : Dev nD) (h : k0_dev19 c < nD) : (⟨k0_dev19 c, h⟩ : Dev nD) = peer c 19 := dev_eq (by decide) c h
theorem dev20_eq (c : Dev nD) (h : k0_dev20 c < nD) : (⟨k0_dev20 c, h⟩ : Dev nD) = peer c 20 := dev_eq (by decide) c h
theorem dev21_eq (c : Dev nD) (h : k0_dev21 c < nD) : (⟨k0_dev21 c, h⟩ : Dev nD) = peer c 21 := dev_eq (by decide) c h
theorem dev22_eq (c : Dev nD) (h : k0_dev22 c < nD) : (⟨k0_dev22 c, h⟩ : Dev nD) = peer c 22 := dev_eq (by decide) c h
theorem dev23_eq (c : Dev nD) (h : k0_dev23 c < nD) : (⟨k0_dev23 c, h⟩ : Dev nD) = peer c 23 := dev_eq (by decide) c h
theorem dev24_eq (c : Dev nD) (h : k0_dev24 c < nD) : (⟨k0_dev24 c, h⟩ : Dev nD) = peer c 24 := dev_eq (by decide) c h
theorem dev25_eq (c : Dev nD) (h : k0_dev25 c < nD) : (⟨k0_dev25 c, h⟩ : Dev nD) = peer c 25 := dev_eq (by decide) c h
theorem dev26_eq (c : Dev nD) (h : k0_dev26 c < nD) : (⟨k0_dev26 c, h⟩ : Dev nD) = peer c 26 := dev_eq (by decide) c h
theorem dev27_eq (c : Dev nD) (h : k0_dev27 c < nD) : (⟨k0_dev27 c, h⟩ : Dev nD) = peer c 27 := dev_eq (by decide) c h
theorem dev28_eq (c : Dev nD) (h : k0_dev28 c < nD) : (⟨k0_dev28 c, h⟩ : Dev nD) = peer c 28 := dev_eq (by decide) c h
theorem dev29_eq (c : Dev nD) (h : k0_dev29 c < nD) : (⟨k0_dev29 c, h⟩ : Dev nD) = peer c 29 := dev_eq (by decide) c h
theorem dev30_eq (c : Dev nD) (h : k0_dev30 c < nD) : (⟨k0_dev30 c, h⟩ : Dev nD) = peer c 30 := dev_eq (by decide) c h
theorem dev31_eq (c : Dev nD) (h : k0_dev31 c < nD) : (⟨k0_dev31 c, h⟩ : Dev nD) = peer c 31 := dev_eq (by decide) c h
theorem dev32_eq (c : Dev nD) (h : k0_dev32 c < nD) : (⟨k0_dev32 c, h⟩ : Dev nD) = peer c 1 := dev_eq (by decide) c h
theorem dev33_eq (c : Dev nD) (h : k0_dev33 c < nD) : (⟨k0_dev33 c, h⟩ : Dev nD) = peer c 2 := dev_eq (by decide) c h
theorem dev34_eq (c : Dev nD) (h : k0_dev34 c < nD) : (⟨k0_dev34 c, h⟩ : Dev nD) = peer c 3 := dev_eq (by decide) c h
theorem dev35_eq (c : Dev nD) (h : k0_dev35 c < nD) : (⟨k0_dev35 c, h⟩ : Dev nD) = peer c 4 := dev_eq (by decide) c h
theorem dev36_eq (c : Dev nD) (h : k0_dev36 c < nD) : (⟨k0_dev36 c, h⟩ : Dev nD) = peer c 5 := dev_eq (by decide) c h
theorem dev37_eq (c : Dev nD) (h : k0_dev37 c < nD) : (⟨k0_dev37 c, h⟩ : Dev nD) = peer c 6 := dev_eq (by decide) c h
theorem dev38_eq (c : Dev nD) (h : k0_dev38 c < nD) : (⟨k0_dev38 c, h⟩ : Dev nD) = peer c 7 := dev_eq (by decide) c h
theorem dev39_eq (c : Dev nD) (h : k0_dev39 c < nD) : (⟨k0_dev39 c, h⟩ : Dev nD) = peer c 8 := dev_eq (by decide) c h
theorem dev40_eq (c : Dev nD) (h : k0_dev40 c < nD) : (⟨k0_dev40 c, h⟩ : Dev nD) = peer c 9 := dev_eq (by decide) c h
theorem dev41_eq (c : Dev nD) (h : k0_dev41 c < nD) : (⟨k0_dev41 c, h⟩ : Dev nD) = peer c 10 := dev_eq (by decide) c h
theorem dev42_eq (c : Dev nD) (h : k0_dev42 c < nD) : (⟨k0_dev42 c, h⟩ : Dev nD) = peer c 11 := dev_eq (by decide) c h
theorem dev43_eq (c : Dev nD) (h : k0_dev43 c < nD) : (⟨k0_dev43 c, h⟩ : Dev nD) = peer c 12 := dev_eq (by decide) c h
theorem dev44_eq (c : Dev nD) (h : k0_dev44 c < nD) : (⟨k0_dev44 c, h⟩ : Dev nD) = peer c 13 := dev_eq (by decide) c h
theorem dev45_eq (c : Dev nD) (h : k0_dev45 c < nD) : (⟨k0_dev45 c, h⟩ : Dev nD) = peer c 14 := dev_eq (by decide) c h
theorem dev46_eq (c : Dev nD) (h : k0_dev46 c < nD) : (⟨k0_dev46 c, h⟩ : Dev nD) = peer c 15 := dev_eq (by decide) c h
theorem dev47_eq (c : Dev nD) (h : k0_dev47 c < nD) : (⟨k0_dev47 c, h⟩ : Dev nD) = peer c 16 := dev_eq (by decide) c h
theorem dev48_eq (c : Dev nD) (h : k0_dev48 c < nD) : (⟨k0_dev48 c, h⟩ : Dev nD) = peer c 17 := dev_eq (by decide) c h
theorem dev49_eq (c : Dev nD) (h : k0_dev49 c < nD) : (⟨k0_dev49 c, h⟩ : Dev nD) = peer c 18 := dev_eq (by decide) c h
theorem dev50_eq (c : Dev nD) (h : k0_dev50 c < nD) : (⟨k0_dev50 c, h⟩ : Dev nD) = peer c 19 := dev_eq (by decide) c h
theorem dev51_eq (c : Dev nD) (h : k0_dev51 c < nD) : (⟨k0_dev51 c, h⟩ : Dev nD) = peer c 20 := dev_eq (by decide) c h
theorem dev52_eq (c : Dev nD) (h : k0_dev52 c < nD) : (⟨k0_dev52 c, h⟩ : Dev nD) = peer c 21 := dev_eq (by decide) c h
theorem dev53_eq (c : Dev nD) (h : k0_dev53 c < nD) : (⟨k0_dev53 c, h⟩ : Dev nD) = peer c 22 := dev_eq (by decide) c h
theorem dev54_eq (c : Dev nD) (h : k0_dev54 c < nD) : (⟨k0_dev54 c, h⟩ : Dev nD) = peer c 23 := dev_eq (by decide) c h
theorem dev55_eq (c : Dev nD) (h : k0_dev55 c < nD) : (⟨k0_dev55 c, h⟩ : Dev nD) = peer c 24 := dev_eq (by decide) c h
theorem dev56_eq (c : Dev nD) (h : k0_dev56 c < nD) : (⟨k0_dev56 c, h⟩ : Dev nD) = peer c 25 := dev_eq (by decide) c h
theorem dev57_eq (c : Dev nD) (h : k0_dev57 c < nD) : (⟨k0_dev57 c, h⟩ : Dev nD) = peer c 26 := dev_eq (by decide) c h
theorem dev58_eq (c : Dev nD) (h : k0_dev58 c < nD) : (⟨k0_dev58 c, h⟩ : Dev nD) = peer c 27 := dev_eq (by decide) c h
theorem dev59_eq (c : Dev nD) (h : k0_dev59 c < nD) : (⟨k0_dev59 c, h⟩ : Dev nD) = peer c 28 := dev_eq (by decide) c h
theorem dev60_eq (c : Dev nD) (h : k0_dev60 c < nD) : (⟨k0_dev60 c, h⟩ : Dev nD) = peer c 29 := dev_eq (by decide) c h
theorem dev61_eq (c : Dev nD) (h : k0_dev61 c < nD) : (⟨k0_dev61 c, h⟩ : Dev nD) = peer c 30 := dev_eq (by decide) c h
theorem dev62_eq (c : Dev nD) (h : k0_dev62 c < nD) : (⟨k0_dev62 c, h⟩ : Dev nD) = peer c 31 := dev_eq (by decide) c h

end Cert.KernelIdeal.Sum
-- ==== Proof.Sched.lean ====
import proofs.«901085_g7700000000001086_dist_sum_ax0_shard0_i_m2048_n1024_v7x_i32_f32_1_alg».proof.Proof.Gen.KernelIdeal.Skeleton
import proofs.«901085_g7700000000001086_dist_sum_ax0_shard0_i_m2048_n1024_v7x_i32_f32_1_alg».proof.Proof.Gen.KernelIdeal.Frame
import proofs.«901085_g7700000000001086_dist_sum_ax0_shard0_i_m2048_n1024_v7x_i32_f32_1_alg».proof.Proof.Mesh
import Idealize.ShloMosaic.Lib.Pipeline.Launch

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def back (c : Dev nD) (k : ℕ) : Dev nD := ⟨(c.val + (32 - k % 32)) % 32, Nat.mod_lt _ (by decide)⟩

theorem back_peer (c : Dev nD) (k : ℕ) : back (peer c k) k = c := by
  apply Fin.ext; have h : c.val < 32 := c.isLt; simp only [peer, back]; omega
theorem peer_back (c : Dev nD) (k : ℕ) : peer (back c k) k = c := by
  apply Fin.ext; have h : c.val < 32 := c.isLt; simp only [peer, back]; omega
theorem back_zero (c : Dev nD) : back c 0 = c := by
  apply Fin.ext; have h : c.val < 32 := c.isLt; simp only [back]; omega

theorem peer_peer_neg (c : Dev nD) (k : ℕ) (hk : k < 32) : peer (peer c k) (32 - k) = c := by
  apply Fin.ext; have h : c.val < 32 := c.isLt; simp only [peer]; omega

abbrev scr : Memref sig .tc .vmem S32x1024 .f32 := Memref.whole cc0_scratch0

theorem inb_row (k : ℕ) (hk : k < 32) : ∀ a, (![k, 0] : Fin 2 → Nat) a + S1x1024.size a ≤ S32x1024.size a := by
  intro a; fin_cases a
  · show k + 1 ≤ 32; omega
  · show 0 + 1024 ≤ 1024; omega
theorem inb_sem (k : ℕ) (hk : k < 32) : ∀ a, (![k] : Fin 1 → Nat) a + S1.size a ≤ S32.size a := by
  intro a; fin_cases a; show k + 1 ≤ 32; omega

abbrev rowM (k : ℕ) (hk : k < 32) : Memref sig .tc .vmem S1024 .f32 :=
  (scr.slice (Rect.unit (s := S32x1024) ![k, 0] S1x1024.size (inb_row k hk)) (fun _ => rfl)).squeeze S1024 squeezes_S1x1024_S1024

abbrev sendS (k : ℕ) (hk : k < 32) : DmaSems sig S_ := (cc0_scratch1.slice (Rect.unit (s := S32) ![k] S1.size (inb_sem k hk))).squeeze S_ squeezes_S1_S_
abbrev recvS (k : ℕ) (hk : k < 32) : DmaSems sig S_ := (cc0_scratch2.slice (Rect.unit (s := S32) ![k] S1.size (inb_sem k hk))).squeeze S_ squeezes_S1_S_

abbrev barS : Sem sig := (SemArray.scalar (sig.barrier 0 rfl) : Sems sig S_).sem

abbrev barCell (c : Dev nD) : GSem nD τ sig := ((c : Thread nD τ), .reg barS)
abbrev sendCell (c : Dev nD) (k : ℕ) (hk : k < 32) : GSem nD τ sig := ((c : Thread nD τ), .dma (sendS k hk).sem)
abbrev recvCell (c : Dev nD) (k : ℕ) (hk : k < 32) : GSem nD τ sig := ((c : Thread nD τ), .dma (recvS k hk).sem)

theorem sendS_val (k : ℕ) (hk : k < 32) : ((sendS k hk).sem : DmaSem sig).val = 3 + k := by
  show 3 + (S32.rowMajor _).val = 3 + k
  rw [Shape.rowMajor_val_one, Rect.emb_apply]
  show 3 + (k + 1 * ((_ : Fin 1) : ℕ)) = 3 + k
  generalize ((Shape.reshapeEquiv _ _ : S1.Idx) 0 : Fin 1) = j
  have hj : (j : ℕ) < 1 := j.isLt
  omega

theorem recvS_val (k : ℕ) (hk : k < 32) : ((recvS k hk).sem : DmaSem sig).val = 35 + k := by
  show 35 + (S32.rowMajor _).val = 35 + k
  rw [Shape.rowMajor_val_one, Rect.emb_apply]
  show 35 + (k + 1 * ((_ : Fin 1) : ℕ)) = 35 + k
  generalize ((Shape.reshapeEquiv _ _ : S1.Idx) 0 : Fin 1) = j
  have hj : (j : ℕ) < 1 := j.isLt
  omega

abbrev N : ℕ := (rowM 0 (by decide)).view.dmaCredit
theorem N_pos : 0 < N := View.dmaCredit_pos _ (by decide)
variable (m : (ℓ : Loc nD τ sig) → Buf (Elt F) ℓ)

theorem cfg0_N : cfg0.N = 8 := by decide

def tN (t : ℕ) : Fin cfg0.N := ⟨t % 8, by have := cfg0_N; omega⟩

abbrev xblk (c : Dev nD) (t : Fin cfg0.N) : Vec F S256x1024 .f32 := iblk m c 0 t

def acc (c : Dev nD) : ℕ → FVec F S1x1024 .f32
  | 0 => k0_pay1 (xblk m c (tN 0))
  | t + 1 => k0_pay2 (acc c t) (xblk m c (tN (t + 1)))

def S (c : Dev nD) : FVec F S1x1024 .f32 := acc m c 7

abbrev ScrC (F : FTy → Type) : Type := (cc0_scratch0 : Ref sig .tc).ty.Contents (Elt F)

def colIdx (i : (cc0_scratch0 : Ref sig .tc).ty.Idx) : S1x1024.Idx :=
  fun a => match a with
    | ⟨0, _⟩ => (⟨0, by decide⟩ : Fin 1)
    | ⟨1, _⟩ => (⟨(i 1).val, (i 1).isLt⟩ : Fin 1024)

def rowFill (v : FVec F S1x1024 .f32) : ScrC F := fun i => v (colIdx i)

def full (c : Dev nD) : ScrC F := fun i => S m (back c (i 0).val) (colIdx i)

def outAt (c : Dev nD) : (cc0_stg1_0 : Ref sig .tc).ty.Contents (Elt F) := k0_pay3 (full m c)

def qrest : ℕ → PosShare TreeShare
  | 0 => fullShare
  | k + 1 => (qrest k).right
def q (k : ℕ) : PosShare TreeShare := (qrest (k - 1)).left

def barPay (c : Dev nD) (j : ℕ) : sProp 𝕄 :=
  if hj : 1 ≤ j ∧ j < 32 then
    iprop((∃ f, (rowM j hj.2).view.loc (peer c j : Thread nD τ) ↦[(rowM j hj.2).view.set]{fullShare} f) ∗ reached ER (recvCell (peer c j) j hj.2) 0)
  else iprop(emp)

def sendPay (c : Dev nD) (k : ℕ) : sProp 𝕄 :=
  (rowM 0 (by decide)).view.loc (c : Thread nD τ) ↦[(rowM 0 (by decide)).view.set]{q k} (rowFill (S m c))

def recvPay (c : Dev nD) (k : ℕ) (hk : k < 32) : sProp 𝕄 :=
  iprop(∃ fd, (rowM k hk).view.loc (c : Thread nD τ) ↦[(rowM k hk).view.set]{fullShare}
    ((rowM k hk).view.write (Elt F) fd ((rowM 0 (by decide)).view.read (Elt F) (rowFill (S m (back c k)))) Finset.univ))

def sumRd : Rounds.Schedule (GSem nD τ sig) (Fin 32) 𝕄 where
  duties g r :=
    if r = 0 ∧ g.1.2 = .tc then
      (match g.2 with
        | .reg s => if s = barS then Finset.univ.erase 0 else ∅
        | .dma s => if (4 ≤ s.val ∧ s.val < 35) ∨ (36 ≤ s.val ∧ s.val < 67) then {0} else ∅)
    else ∅
  amount g _ _ := match g.2 with
    | .reg _ => 1
    | .dma _ => N
  payload g _ d := match g.2 with
    | .reg s => if s = barS then barPay g.1.1 d.val else iprop(emp)
    | .dma s =>
      if h : 4 ≤ s.val ∧ s.val < 35 then sendPay m g.1.1 (s.val - 3)
      else if h : 36 ≤ s.val ∧ s.val < 67 then recvPay m g.1.1 (s.val - 35) (by omega)
      else iprop(emp)
  amount_pos g _ _ _ := by
    cases g.2 with
    | reg _ => exact Nat.one_pos
    | dma _ => exact N_pos

end Cert.KernelIdeal.Sum
end
-- ==== Proof.Data.lean ====
import proofs.«901085_g7700000000001086_dist_sum_ax0_shard0_i_m2048_n1024_v7x_i32_f32_1_alg».proof.Proof.Sched

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A product over 31 indices is the chain of its factors in order.
theorem sep31 {M : Type} [URA M] (Φ : Fin 31 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

variable (m : (ℓ : Loc nD τ sig) → Buf (Elt F) ℓ) (ρ : Dev nD → PrngReg)

def s₀ : MemSt nD τ sig (Elt F) := ⟨m, fun _ => 0, ρ⟩

def kk (k : Fin 31) : ℕ := k.val + 1
theorem kk_lt (k : Fin 31) : kk k < 32 := by unfold kk; omega
theorem kk_pos (k : Fin 31) : 1 ≤ kk k := by unfold kk; omega

def negD (k : Fin 31) : Fin 32 := ⟨32 - kk k, by unfold kk; omega⟩

def Orecv (c : Dev nD) : CellTallies nD τ sig Unit := ∑ k : Fin 31, tallyAt (recvCell (peer c (kk k)) (kk k) (kk_lt k)) () N

def Obar (c : Dev nD) : CellTallies nD τ sig Unit := ∑ k : Fin 31, tallyAt (barCell (peer c (kk k))) () 1
def O₀ (c : Dev nD) : CellTallies nD τ sig Unit := Orecv c + Obar c

def isRecvSem (s : SemLoc sig) : Bool := match s with
  | .dma d => decide (36 ≤ d.val)
  | _ => false
def L (g : GSem nD τ sig) : Finset Unit := if g.1.2 = .tc then {()} else ∅
def lv (g : GSem nD τ sig) (_ : Unit) : ℕ := if g.2 = .reg barS then 1 else if isRecvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

section Ghost
variable (K : GSem nD τ sig → ℕ) (c : Dev nD)

def invs : sProp 𝕄 :=
  iprop(cellInv ER (sumRd m) (K (barCell c)) (barCell c)
    ∗ (bigSep Finset.univ fun k : Fin 31 => cellInv ER (sumRd m) (K (sendCell c (kk k) (kk_lt k))) (sendCell c (kk k) (kk_lt k)))
    ∗ (bigSep Finset.univ fun k : Fin 31 => cellInv ER (sumRd m) (K (recvCell c (kk k) (kk_lt k))) (recvCell c (kk k) (kk_lt k)))
    ∗ (bigSep Finset.univ fun k : Fin 31 => cellInv ER (sumRd m) (K (barCell (peer c (kk k)))) (barCell (peer c (kk k))))
    ∗ (bigSep Finset.univ fun k : Fin 31 => cellInv ER (sumRd m) (K (recvCell (peer c (kk k)) (kk k) (kk_lt k))) (recvCell (peer c (kk k)) (kk k) (kk_lt k))))

def pos : sProp 𝕄 :=
  iprop(atPos ER (barCell c) 0 ∅ 0
    ∗ (bigSep Finset.univ fun k : Fin 31 => atPos ER (sendCell c (kk k) (kk_lt k)) 0 ∅ 0)
    ∗ (bigSep Finset.univ fun k : Fin 31 => atPos ER (recvCell c (kk k) (kk_lt k)) 0 ∅ 0))

def rch : sProp 𝕄 :=
  iprop((bigSep Finset.univ fun k : Fin 31 => reached ER (barCell (peer c (kk k))) 0)
    ∗ (bigSep Finset.univ fun k : Fin 31 => reached ER (recvCell (peer c (kk k)) (kk k) (kk_lt k)) 0)
    ∗ (bigSep Finset.univ fun k : Fin 31 => reached ER (sendCell c (kk k) (kk_lt k)) 0)
    ∗ (bigSep Finset.univ fun k : Fin 31 => reached ER (recvCell c (kk k) (kk_lt k)) 0))

def sigToks : sProp 𝕄 := bigSep Finset.univ fun k : Fin 31 => dutyTok ER (barCell (peer c (kk k))) 0 (negD k)

def xferToks : sProp 𝕄 :=
  iprop((bigSep Finset.univ fun k : Fin 31 => dutyTok ER (recvCell (peer c (kk k)) (kk k) (kk_lt k)) 0 0)
    ∗ (bigSep Finset.univ fun k : Fin 31 => dutyTok ER (sendCell c (kk k) (kk_lt k)) 0 0))

def creds : sProp 𝕄 :=
  iprop(cred (tallyAt (barCell c) () 31) ∗ (bigSep Finset.univ fun k : Fin 31 => cred (tallyAt (recvCell c (kk k) (kk_lt k)) () N)))

instance invs_persistent : BI.Persistent (invs m K c) := by unfold invs; infer_instance
instance rch_persistent : BI.Persistent (rch (F := F) c) := by unfold rch; infer_instance

end Ghost

def row0Pts (c : Dev nD) (f : ScrC F) : sProp 𝕄 :=
  (rowM 0 (by decide)).view.loc (c : Thread nD τ) ↦[(rowM 0 (by decide)).view.set]{fullShare} f

def scrPts (c : Dev nD) (f : ScrC F) : sProp 𝕄 := ((c : Thread nD τ).loc cc0_scratch0) ↦{fullShare} f

def idleSems (c : Dev nD) : sProp 𝕄 :=
  iprop(semVal (sendCell c 0 (by decide)) 0 ∗ semVal (recvCell c 0 (by decide)) 0)

def Φ₀ (c : Dev nD) : sProp 𝕄 :=
  iprop((∃ K, invs m K c ∗ pos c ∗ rch c ∗ sigToks c ∗ xferToks c) ∗ creds c ∗ levAts L lv ∗ idleSems c ∗ ∃ f, scrPts c f)

def Φmid (c : Dev nD) (t : ℕ) : sProp 𝕄 :=
  iprop((∃ K, invs m K c ∗ pos c ∗ rch c ∗ xferToks c) ∗ creds c ∗ levAts L lv ∗ idleSems c ∗ row0Pts c (rowFill (acc m c t)))

def Φend (c : Dev nD) : sProp 𝕄 :=
  iprop(scrPts c (full m c) ∗ idleSems c
    ∗ (bigSep Finset.univ fun k : Fin 31 => semVal (sendCell c (kk k) (kk_lt k)) 0)
    ∗ (bigSep Finset.univ fun k : Fin 31 => semVal (recvCell c (kk k) (kk_lt k)) 0))

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := match t with
    | ⟨0, _⟩ => Φ₀ m c
    | ⟨t + 1, _⟩ => if t < 7 then Φmid m c t else Φend m c
  q _ := fullShare
  owed t := match t with
    | ⟨0, _⟩ => O₀ c
    | ⟨t + 1, _⟩ => if t < 7 then Orecv c else 0

abbrev 𝒱₀ : Variants := Variants.none

end Cert.KernelIdeal.Sum
end
-- ==== Proof.Levels.lean ====
import proofs.«901085_g7700000000001086_dist_sum_ax0_shard0_i_m2048_n1024_v7x_i32_f32_1_alg».proof.Proof.Data

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem dma_ne_bar (d : DmaSem sig) : (SemLoc.dma d : SemLoc sig) ≠ .reg barS := fun h => by cases h

theorem lv_bar (c : Dev nD) (u : Unit) : lv (barCell c) u = 1 := if_pos rfl

theorem lv_recv (c : Dev nD) (k : ℕ) (hk : k < 32) (h1 : 1 ≤ k) (u : Unit) : lv (recvCell c k hk) u = 2 := by
  have hr : isRecvSem (SemLoc.dma (recvS k hk).sem : SemLoc sig) = true := by
    show decide (36 ≤ ((recvS k hk).sem : DmaSem sig).val) = true
    rw [recvS_val]; exact decide_eq_true (by omega)
  show (if (SemLoc.dma (recvS k hk).sem : SemLoc sig) = .reg barS then 1 else if isRecvSem (SemLoc.dma (recvS k hk).sem : SemLoc sig) then 2 else 0) = 2
  rw [if_neg (dma_ne_bar _), if_pos hr]

theorem lv_low (c : Dev nD) (qd : DmaSem sig) (hq : isRecvSem (.dma qd) = false) (u : Unit) : lv ((c : Thread nD τ), SemLoc.dma qd) u = 0 := by
  show (if (SemLoc.dma qd : SemLoc sig) = .reg barS then 1 else if isRecvSem (SemLoc.dma qd : SemLoc sig) then 2 else 0) = 0
  rw [if_neg (dma_ne_bar _), hq]; rfl

theorem Orecv_pos {c : Dev nD} {g : GSem nD τ sig} {u : Unit} (h : 0 < Orecv c g u) :
    ∃ k : Fin 31, g = recvCell (peer c (kk k)) (kk k) (kk_lt k) := by
  unfold Orecv at h
  obtain ⟨k, -, hk⟩ := Pipeline.sum_pos_exists h
  exact ⟨k, (Pipeline.tallyAt_pos hk).1⟩

theorem Obar_pos {c : Dev nD} {g : GSem nD τ sig} {u : Unit} (h : 0 < Obar c g u) :
    ∃ k : Fin 31, g = barCell (peer c (kk k)) := by
  unfold Obar at h
  obtain ⟨k, -, hk⟩ := Pipeline.sum_pos_exists h
  exact ⟨k, (Pipeline.tallyAt_pos hk).1⟩

theorem O₀_pos {c : Dev nD} {g : GSem nD τ sig} {u : Unit} (h : 0 < O₀ c g u) :
    (∃ k : Fin 31, g = recvCell (peer c (kk k)) (kk k) (kk_lt k)) ∨ ∃ k : Fin 31, g = barCell (peer c (kk k)) := by
  unfold O₀ at h
  rcases Pipeline.add_pos_cases h with h | h
  · exact Or.inl (Orecv_pos h)
  · exact Or.inr (Obar_pos h)

theorem mayWait_stage (c : Dev nD) (qd : DmaSem sig) (hq : isRecvSem (.dma qd) = false) (O : CellTallies nD τ sig Unit)
    (hO : O = O₀ c ∨ O = Orecv c ∨ O = 0) :
    (levAts L lv : sProp 𝕄) ⊢ MayWait (c : Thread nD τ) (.dma qd) () O := by
  have key : ∀ O' : CellTallies nD τ sig Unit,
      (∀ (g : GSem nD τ sig) (u : Unit), 0 < O' g u →
        (∃ k : Fin 31, g = recvCell (peer c (kk k)) (kk k) (kk_lt k)) ∨ ∃ k : Fin 31, g = barCell (peer c (kk k))) →
      ((levAts L lv : sProp 𝕄) ⊢ MayWait (c : Thread nD τ) (.dma qd) () O') := fun O' hpos =>
    MayOwe.of_cut (L := L) (lev := lv) 0
      (fun p hp => by rw [Finset.mem_singleton.mp hp, L_tc]; exact Finset.mem_singleton_self _)
      (fun g u hg => by
        rcases hpos g u hg with ⟨k, rfl⟩ | ⟨k, rfl⟩ <;> (rw [L_tc]; exact Finset.mem_singleton_self _))
      (fun p hp => by rw [Finset.mem_singleton.mp hp]; exact le_of_eq (lv_low c qd hq ()))
      (fun g u hg => by
        rcases hpos g u hg with ⟨k, rfl⟩ | ⟨k, rfl⟩
        · rw [lv_recv _ _ _ (kk_pos k)]; decide
        · rw [lv_bar]; decide)
  rcases hO with rfl | rfl | rfl
  · exact key _ fun g u hg => O₀_pos hg
  · exact key _ fun g u hg => Or.inl (Orecv_pos hg)
  · rw [MayWait_zero]; iintro -; iempintro

theorem mayWait_bar (c : Dev nD) : (levAts L lv : sProp 𝕄) ⊢ MayWait (c : Thread nD τ) (.reg barS) () (Orecv c) :=
  MayOwe.of_cut (L := L) (lev := lv) 1
    (fun p hp => by rw [Finset.mem_singleton.mp hp, L_tc]; exact Finset.mem_singleton_self _)
    (fun g u hg => by obtain ⟨k, rfl⟩ := Orecv_pos hg; rw [L_tc]; exact Finset.mem_singleton_self _)
    (fun p hp => by rw [Finset.mem_singleton.mp hp]; exact le_of_eq (lv_bar c ()))
    (fun g u hg => by obtain ⟨k, rfl⟩ := Orecv_pos hg; rw [lv_recv _ _ _ (kk_pos k)]; decide)

end Cert.KernelIdeal.Sum
end
-- ==== Proof.Tables.lean ====
import proofs.«901085_g7700000000001086_dist_sum_ax0_shard0_i_m2048_n1024_v7x_i32_f32_1_alg».proof.Proof.Data
import Idealize.SL.BI.BigOp
import Mathlib.Data.Fintype.Fin
import Mathlib.Data.Fintype.BigOperators

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem send_range (k : ℕ) (hk : k < 32) (h1 : 1 ≤ k) : 4 ≤ ((sendS k hk).sem : DmaSem sig).val ∧ ((sendS k hk).sem : DmaSem sig).val < 35 := by
  rw [sendS_val]; omega
theorem recv_not_send_range (k : ℕ) (hk : k < 32) : ¬ (4 ≤ ((recvS k hk).sem : DmaSem sig).val ∧ ((recvS k hk).sem : DmaSem sig).val < 35) := by
  rw [recvS_val]; omega
theorem recv_range (k : ℕ) (hk : k < 32) (h1 : 1 ≤ k) : 36 ≤ ((recvS k hk).sem : DmaSem sig).val ∧ ((recvS k hk).sem : DmaSem sig).val < 67 := by
  rw [recvS_val]; omega

theorem duties_bar (c : Dev nD) : (sumRd (F := F) m).duties (barCell c) 0 = Finset.univ.erase 0 := by
  dsimp only [sumRd]; rw [if_pos ⟨rfl, rfl⟩]; exact if_pos rfl
theorem duties_send (c : Dev nD) (k : ℕ) (hk : k < 32) (h1 : 1 ≤ k) : (sumRd (F := F) m).duties (sendCell c k hk) 0 = {0} := by
  dsimp only [sumRd]; rw [if_pos ⟨rfl, rfl⟩]; exact if_pos (.inl (send_range k hk h1))
theorem duties_recv (c : Dev nD) (k : ℕ) (hk : k < 32) (h1 : 1 ≤ k) : (sumRd (F := F) m).duties (recvCell c k hk) 0 = {0} := by
  dsimp only [sumRd]; rw [if_pos ⟨rfl, rfl⟩]; exact if_pos (.inr (recv_range k hk h1))
theorem duties_later (g : GSem nD τ sig) (r : ℕ) (hr : 1 ≤ r) : (sumRd (F := F) m).duties g r = ∅ := by
  dsimp only [sumRd]; exact if_neg fun h => by omega

theorem amount_bar (c : Dev nD) (d : Fin 32) : (sumRd (F := F) m).amount (barCell c) 0 d = 1 := rfl
theorem amount_send (c : Dev nD) (k : ℕ) (hk : k < 32) (d : Fin 32) : (sumRd (F := F) m).amount (sendCell c k hk) 0 d = N := rfl
theorem amount_recv (c : Dev nD) (k : ℕ) (hk : k < 32) (d : Fin 32) : (sumRd (F := F) m).amount (recvCell c k hk) 0 d = N := rfl

theorem expect_bar (c : Dev nD) : (sumRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_send (c : Dev nD) (k : ℕ) (hk : k < 32) (h1 : 1 ≤ k) : (sumRd (F := F) m).expect (sendCell c k hk) 0 = N := by
  unfold Schedule.expect Schedule.amountOf; rw [duties_send m c k hk h1, Finset.sum_singleton, amount_send]
theorem expect_recv (c : Dev nD) (k : ℕ) (hk : k < 32) (h1 : 1 ≤ k) : (sumRd (F := F) m).expect (recvCell c k hk) 0 = N := by
  unfold Schedule.expect Schedule.amountOf; rw [duties_recv m c k hk h1, Finset.sum_singleton, amount_recv]

theorem payload_bar (c : Dev nD) (j : ℕ) (hj : 1 ≤ j ∧ j < 32) : (sumRd (F := F) m).payload (barCell c) 0 ⟨j, hj.2⟩ = iprop((∃ f, (rowM j hj.2).view.loc (peer c j : Thread nD τ) ↦[(rowM j hj.2).view.set]{fullShare} f) ∗ reached ER (recvCell (peer c j) j hj.2) 0) := by
  dsimp only [sumRd]; rw [if_pos rfl]; unfold barPay; exact dif_pos hj

theorem payload_send (c : Dev nD) (k : ℕ) (hk : k < 32) (h1 : 1 ≤ k) (d : Fin 32) : (sumRd (F := F) m).payload (sendCell c k hk) 0 d = sendPay m c k := by
  dsimp only [sumRd]; rw [dif_pos (send_range k hk h1)]
  show sendPay m c (((sendS k hk).sem : DmaSem sig).val - 3) = sendPay m c k
  rw [sendS_val, Nat.add_sub_cancel_left]

theorem recvPay_congr (c : Dev nD) (k k' : ℕ) (h : k = k') (hk : k < 32) (hk' : k' < 32) : recvPay m c k hk = recvPay m c k' hk' := by
  subst h; rfl

theorem payload_recv (c : Dev nD) (k : ℕ) (hk : k < 32) (h1 : 1 ≤ k) (d : Fin 32) : (sumRd (F := F) m).payload (recvCell c k hk) 0 d = recvPay m c k hk := by
  dsimp only [sumRd]; rw [dif_neg (recv_not_send_range k hk), dif_pos (recv_range k hk h1)]
  exact recvPay_congr m c _ _ (by rw [recvS_val, Nat.add_sub_cancel_left]) _ _

instance payload_storable (g : GSem nD τ sig) (r : ℕ) (d : Fin 32) : BI.Storable (upEmb : UEmb _ 𝕄) ((sumRd (F := F) m).payload g r d) := by
  dsimp only [sumRd]
  unfold barPay sendPay recvPay
  (repeat' split) <;> infer_instance

theorem payload_bar_out (c : Dev nD) (k j : ℕ) (hj : j < 32) (hk : 1 ≤ k) (hkj : k + j = 32) (hj1 : 1 ≤ j) : (sumRd (F := F) m).payload (barCell (peer c k)) 0 ⟨j, hj⟩ = iprop((∃ f, (rowM j hj).view.loc (c : Thread nD τ) ↦[(rowM j hj).view.set]{fullShare} f) ∗ reached ER (recvCell c j hj) 0) := by
  have hp : peer (peer c k) j = c := by
    have hjk : j = 32 - k := by omega
    subst hjk; exact peer_peer_neg c k (by omega)
  rw [payload_bar m (peer c k) j ⟨hj1, hj⟩, hp]

theorem erase_zero_eq_map : (Finset.univ.erase 0 : Finset (Fin 32)) = Finset.univ.map (Fin.succEmb 31) := by decide

theorem rest_bar (c : Dev nD) : bigSep ((sumRd (F := F) m).duties (barCell c) 0 \ ∅) (fun d => (sumRd (F := F) m).payload (barCell c) 0 d) = bigSep Finset.univ fun k : Fin 31 => iprop((∃ f, (rowM (kk k) (kk_lt k)).view.loc (peer c (kk k) : Thread nD τ) ↦[(rowM (kk k) (kk_lt k)).view.set]{fullShare} f) ∗ reached ER (recvCell (peer c (kk k)) (kk k) (kk_lt k)) 0) := by
  rw [Finset.sdiff_empty, duties_bar, erase_zero_eq_map, bigSep_map]
  exact bigSep_congr fun k _ => payload_bar m c (kk k) ⟨kk_pos k, kk_lt k⟩

local macro "row% " c:term:max j:num : term =>
  `(iprop((∃ f, (rowM $j (of_decide_eq_true (Eq.refl true))).view.loc (peer $c $j : Thread nD τ) ↦[(rowM $j (of_decide_eq_true (Eq.refl true))).view.set]{fullShare} f)
      ∗ reached ER (recvCell (peer $c $j) $j (of_decide_eq_true (Eq.refl true))) 0))

theorem rest_bar_chain (c : Dev nD) : bigSep ((sumRd (F := F) m).duties (barCell c) 0 \ ∅) (fun d => (sumRd (F := F) m).payload (barCell c) 0 d) =
    iprop(row% c 1 ∗ row% c 2 ∗ row% c 3 ∗ row% c 4 ∗ row% c 5 ∗ row% c 6 ∗ row% c 7 ∗ row% c 8 ∗ row% c 9 ∗ row% c 10 ∗ row% c 11 ∗ row% c 12 ∗ row% c 13 ∗ row% c 14 ∗ row% c 15 ∗ row% c 16 ∗ row% c 17 ∗ row% c 18 ∗ row% c 19 ∗ row% c 20 ∗ row% c 21 ∗ row% c 22 ∗ row% c 23 ∗ row% c 24 ∗ row% c 25 ∗ row% c 26 ∗ row% c 27 ∗ row% c 28 ∗ row% c 29 ∗ row% c 30 ∗ row% c 31) := by
  rw [rest_bar, sep31]
  rfl

-- Copy k's send duty returns row 0 at the share lent to it.
theorem payload_send_pts (c : Dev nD) (k : ℕ) (hk : k < 32) (h1 : 1 ≤ k) :
    (sumRd (F := F) m).payload (sendCell c k hk) 0 0
      = ((rowM 0 (by decide)).view.loc (c : Thread nD τ) ↦[(rowM 0 (by decide)).view.set]{q k} (rowFill (S m c)) : sProp 𝕄) :=
  payload_send m c k hk h1 0

-- Copy k lands row 0 of the sender over row k of the device k places on, which is k places after the sender.
theorem payload_recv_out (c : Dev nD) (k : ℕ) (hk : k < 32) (h1 : 1 ≤ k) :
    (sumRd (F := F) m).payload (recvCell (peer c k) k hk) 0 0
      = (iprop(∃ fd, (rowM k hk).view.loc (peer c k : Thread nD τ) ↦[(rowM k hk).view.set]{fullShare}
          ((rowM k hk).view.write (Elt F) fd ((rowM 0 (by decide)).view.read (Elt F) (rowFill (S m c))) Finset.univ)) : sProp 𝕄) := by
  rw [payload_recv m (peer c k) k hk h1 0]; unfold recvPay; rw [back_peer]

end Cert.KernelIdeal.Sum
end
-- ==== Proof.Launch.lean ====
import proofs.«901085_g7700000000001086_dist_sum_ax0_shard0_i_m2048_n1024_v7x_i32_f32_1_alg».proof.Proof.Levels
import proofs.«901085_g7700000000001086_dist_sum_ax0_shard0_i_m2048_n1024_v7x_i32_f32_1_alg».proof.Proof.Tables

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev OIx : Type := (Unit ⊕ Fin 31) ⊕ (Unit ⊕ Fin 31)

def osem : OIx → SemLoc sig
  | .inl (.inl _) => .dma (sendS 0 (by decide)).sem
  | .inl (.inr k) => .dma (sendS (kk k) (kk_lt k)).sem
  | .inr (.inl _) => .dma (recvS 0 (by decide)).sem
  | .inr (.inr k) => .dma (recvS (kk k) (kk_lt k)).sem

def oword : OIx → ℕ
  | .inl (.inl _) => 3
  | .inl (.inr k) => 3 + kk k
  | .inr (.inl _) => 35
  | .inr (.inr k) => 35 + kk k

theorem osem_eq (i : OIx) : ∃ d : DmaSem sig, osem i = .dma d ∧ d.val = oword i := by
  rcases i with (_ | k) | (_ | k)
  · exact ⟨_, rfl, sendS_val 0 (by decide)⟩
  · exact ⟨_, rfl, sendS_val _ _⟩
  · exact ⟨_, rfl, recvS_val 0 (by decide)⟩
  · exact ⟨_, rfl, recvS_val _ _⟩

theorem oword_inj : Function.Injective oword := by
  rintro ((_ | k) | (_ | k)) ((_ | l) | (_ | l)) h <;> simp only [oword, kk] at h <;>
    first | rfl | (exfalso; omega) | (congr 2; apply Fin.ext; omega)

theorem dma_scoped : ∀ d : DmaSem sig, (SemLoc.dma d : SemLoc sig).isScoped .tc = true := by decide
theorem stage_word : ∀ (w : Fin cfg0.W) (s : Fin (cfg0.spec w).nbuf), ((cfg0.spec w).sem s).val < 3 := by decide

theorem ownSemFacts : Pipeline.OwnSemFacts cfg0.spec osem where
  isScoped i := by obtain ⟨d, hd, -⟩ := osem_eq i; rw [hd]; exact dma_scoped d
  inj i j h := by
    obtain ⟨d, hd, hv⟩ := osem_eq i
    obtain ⟨e, he, hw⟩ := osem_eq j
    rw [hd, he] at h
    have : d = e := by injection h
    exact oword_inj (by rw [← hv, ← hw, this])
  disj i w s h := by
    obtain ⟨d, hd, hv⟩ := osem_eq i
    rw [hd] at h
    have : d = (cfg0.spec w).sem s := by injection h
    have h3 := stage_word w s
    rw [← this, hv] at h3
    rcases i with (_ | k) | (_ | k) <;> simp only [oword] at h3 <;> omega

theorem ownSems0_eq (c : Dev nD) :
    (Pipeline.ownSems0 (Ix := Unit) (Name := ℕ) (U := UU) (Lvl := ℕ) (Val := Elt F) (τ := τ) osem c : sProp 𝕄)
      = iprop((semVal (sendCell c 0 (by decide)) 0 ∗ bigSep Finset.univ fun k : Fin 31 => semVal (sendCell c (kk k) (kk_lt k)) 0)
          ∗ (semVal (recvCell c 0 (by decide)) 0 ∗ bigSep Finset.univ fun k : Fin 31 => semVal (recvCell c (kk k) (kk_lt k)) 0)) := by
  unfold Pipeline.ownSems0
  rw [bigSep_univ_sum, bigSep_univ_sum, bigSep_univ_sum, bigSep_univ_of_subsingleton (), bigSep_univ_of_subsingleton ()]
  rfl

abbrev CIx : Type := Unit ⊕ (Fin 31 ⊕ Fin 31)

def csem : CIx → SemLoc sig
  | .inl _ => .reg barS
  | .inr (.inl k) => .dma (sendS (kk k) (kk_lt k)).sem
  | .inr (.inr k) => .dma (recvS (kk k) (kk_lt k)).sem

abbrev kcell (ck : Dev nD × CIx) : GSem nD τ sig := ((ck.1 : Thread nD τ), csem ck.2)

theorem csem_inj : Function.Injective csem := by
  have hs : ∀ k l : Fin 31, (sendS (kk k) (kk_lt k)).sem = (sendS (kk l) (kk_lt l)).sem → k = l := fun k l h => by
    have := congrArg Fin.val h; rw [sendS_val, sendS_val] at this; simp only [kk] at this; exact Fin.ext (by omega)
  have hr : ∀ k l : Fin 31, (recvS (kk k) (kk_lt k)).sem = (recvS (kk l) (kk_lt l)).sem → k = l := fun k l h => by
    have := congrArg Fin.val h; rw [recvS_val, recvS_val] at this; simp only [kk] at this; exact Fin.ext (by omega)
  have hsr : ∀ k l : Fin 31, (sendS (kk k) (kk_lt k)).sem ≠ (recvS (kk l) (kk_lt l)).sem := fun k l h => by
    have := congrArg Fin.val h; rw [sendS_val, recvS_val] at this; simp only [kk] at this; have := k.isLt; omega
  intro i j h
  rcases i with _ | k | k <;> rcases j with _ | l | l
  · rfl
  · exact absurd h.symm (dma_ne_bar _)
  · exact absurd h.symm (dma_ne_bar _)
  · exact absurd h (dma_ne_bar _)
  · rw [hs k l (SemLoc.dma.inj h)]
  · exact absurd (SemLoc.dma.inj h) (hsr k l)
  · exact absurd h (dma_ne_bar _)
  · exact absurd (SemLoc.dma.inj h).symm (hsr l k)
  · rw [hr k l (SemLoc.dma.inj h)]

theorem kcell_injective : Function.Injective (kcell : Dev nD × CIx → GSem nD τ sig) := by
  rintro ⟨c, i⟩ ⟨c', i'⟩ h
  have h1 : c = c' := congrArg (fun g : GSem nD τ sig => g.1.1) h
  subst h1
  have h2 : i = i' := csem_inj (congrArg Prod.snd h)
  subst h2; rfl

def sumCells : Finset (GSem nD τ sig) := Finset.univ.map ⟨kcell, kcell_injective⟩

abbrev TIx : Type := Fin 31 ⊕ (Fin 31 ⊕ Fin 31)

def tcell : TIx → CIx
  | .inl _ => .inl ()
  | .inr x => .inr x
def tduty : TIx → Fin 32
  | .inl j => ⟨kk j, kk_lt j⟩
  | .inr _ => 0

abbrev tokOf (cj : Dev nD × TIx) : GSem nD τ sig × ℕ × Fin 32 := (kcell (cj.1, tcell cj.2), 0, tduty cj.2)

theorem tokOf_injective : Function.Injective (tokOf : Dev nD × TIx → GSem nD τ sig × ℕ × Fin 32) := by
  rintro ⟨c, t⟩ ⟨c', t'⟩ h
  have h1 := kcell_injective (congrArg (fun x : GSem nD τ sig × ℕ × Fin 32 => x.1) h)
  have h2 : tduty t = tduty t' := congrArg (fun x : GSem nD τ sig × ℕ × Fin 32 => x.2.2) h
  have hc : c = c' := congrArg Prod.fst h1
  have ht : tcell t = tcell t' := congrArg Prod.snd h1
  subst hc
  have : t = t' := by
    rcases t with j | x <;> rcases t' with j' | x' <;> simp only [tcell, tduty] at ht h2
    · have := congrArg Fin.val h2; simp only [kk] at this; congr 1; apply Fin.ext; omega
    · cases ht
    · cases ht
    · injection ht with ht; rw [ht]
  subst this; rfl

def sumToks : Finset (GSem nD τ sig × ℕ × Fin 32) := Finset.univ.map ⟨tokOf, tokOf_injective⟩

def u₀ : UU :=
  (initOf (Pipeline.cells cfgs cellOf_inj) (Pipeline.launchToks cfgs cellOf_inj), initOf sumCells sumToks)

def toks (c : Dev nD) : sProp 𝕄 :=
  iprop((bigSep Finset.univ fun j : Fin 31 => dutyTok ER (barCell c) 0 (⟨kk j, kk_lt j⟩ : Fin 32))
    ∗ (bigSep Finset.univ fun k : Fin 31 => dutyTok ER (sendCell c (kk k) (kk_lt k)) 0 (0 : Fin 32))
    ∗ (bigSep Finset.univ fun k : Fin 31 => dutyTok ER (recvCell c (kk k) (kk_lt k)) 0 (0 : Fin 32)))

def G (c : Dev nD) : sProp 𝕄 :=
  iprop((bigSep Finset.univ fun i : CIx => roundState ER (sumRd m) (kcell (c, i)) 0)
    ∗ (bigSep Finset.univ fun i : CIx => iprop(atPos ER (kcell (c, i)) 0 ∅ 0 ∗ reached ER (kcell (c, i)) 0)) ∗ toks c)

theorem bigSep_CIx (Φ : CIx → sProp 𝕄) :
    bigSep Finset.univ Φ = iprop(Φ (.inl ()) ∗ (bigSep Finset.univ fun k : Fin 31 => Φ (.inr (.inl k))) ∗ (bigSep Finset.univ fun k : Fin 31 => Φ (.inr (.inr k)))) := by
  rw [bigSep_univ_sum, bigSep_univ_sum, bigSep_univ_of_subsingleton ()]; rfl

theorem bigSep_TIx (Φ : TIx → sProp 𝕄) :
    bigSep Finset.univ Φ = iprop((bigSep Finset.univ fun j : Fin 31 => Φ (.inl j)) ∗ (bigSep Finset.univ fun k : Fin 31 => Φ (.inr (.inl k))) ∗ (bigSep Finset.univ fun k : Fin 31 => Φ (.inr (.inr k)))) := by
  rw [bigSep_univ_sum, bigSep_univ_sum]; rfl

theorem fund_sum : BI.own (ER (initOf sumCells sumToks)) ⊢ (|==> bigSep Finset.univ (G m) : sProp 𝕄) := by
  have hX (Φ : GSem nD τ sig → sProp 𝕄) : bigSep sumCells Φ = bigSep Finset.univ fun c : Dev nD => bigSep Finset.univ fun i : CIx => Φ (kcell (c, i)) := by
    unfold sumCells; rw [bigSep_map, bigSep_univ_prod]; rfl
  have hT : bigSep sumToks (fun x => (dutyTok ER x.1 x.2.1 x.2.2 : sProp 𝕄)) = bigSep Finset.univ fun c : Dev nD => toks c := by
    unfold sumToks; rw [bigSep_map, bigSep_univ_prod]
    exact bigSep_congr fun c _ => by unfold toks; rw [bigSep_TIx]; rfl
  iintro HX
  imod (Rounds.fund ER (sumRd m) sumCells sumToks) $$ HX with ⟨Hst, Hr, Hat, Htok⟩
  imodintro
  ihave Hst' := (Entails.of_eq (hX fun g => roundState ER (sumRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun i : CIx => semVal (kcell (c, i)) 0) ∗ idleSems c) : sProp 𝕄) := by
  rw [ownSems0_eq, unscopedSems0_eq, bigSep_CIx]
  unfold idleSems
  iintro ⟨⟨⟨HS0, HS⟩, ⟨HR0, HR⟩⟩, HB⟩
  isplitl [HB HS HR]
  · isplitl [HB]; · iexact HB
    isplitl [HS]; · iexact HS
    iexact HR
  · isplitl [HS0]; · iexact HS0
    iexact HR0

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sumRd m) κ (kcell (c, i))))
          ∗ (bigSep Finset.univ fun i : CIx => iprop(atPos ER (kcell (c, i)) 0 ∅ 0 ∗ reached ER (kcell (c, i)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun i : CIx => semVal (kcell (c, i)) 0) ∗ bigSep Finset.univ fun i : CIx => roundState ER (sumRd m) (kcell (c, i)) 0)
      ⊢ (|={Set.univ}=> bigSep Finset.univ fun i : CIx => iprop(∃ κ : ℕ, cellInv ER (sumRd m) κ (kcell (c, i))) : sProp 𝕄) from by
        rw [← bigSep_sep']
        exact (bigSep_mono fun i _ => (Rounds.body_intro ER (sumRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

def shift (k : ℕ) : Dev nD ≃ Dev nD := ⟨fun c => peer c k, fun c => back c k, fun c => back_peer c k, fun c => peer_back c k⟩

theorem ring_deal (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (peer c (kk k)) k :=
  (bigSep_univ_comm Φ).trans ((bigSep_congr fun k _ => bigSep_univ_equiv (shift (kk k)) (fun c => Φ c k)).trans
    (bigSep_univ_comm (fun (c : Dev nD) (k : Fin 31) => Φ (peer c (kk k)) k)).symm)

theorem negD_rev (k : Fin 31) : (⟨kk (Fin.revPerm k), kk_lt (Fin.revPerm k)⟩ : Fin 32) = negD k := by
  apply Fin.ext
  show kk (Fin.rev k) = 32 - kk k
  unfold kk; rw [Fin.val_rev]; have := k.isLt; omega

theorem sig_around :
    (bigSep Finset.univ fun c : Dev nD => bigSep Finset.univ fun j : Fin 31 => (dutyTok ER (barCell c) 0 (⟨kk j, kk_lt j⟩ : Fin 32) : sProp 𝕄))
      = bigSep Finset.univ fun c : Dev nD => sigToks c := by
  have e (c : Dev nD) : (bigSep Finset.univ fun j : Fin 31 => (dutyTok ER (barCell c) 0 (⟨kk j, kk_lt j⟩ : Fin 32) : sProp 𝕄))
      = bigSep Finset.univ fun k : Fin 31 => dutyTok ER (barCell c) 0 (negD k) :=
    (bigSep_univ_equiv Fin.revPerm fun j : Fin 31 => (dutyTok ER (barCell c) 0 (⟨kk j, kk_lt j⟩ : Fin 32) : sProp 𝕄)).trans
      (bigSep_congr fun k _ => by rw [negD_rev])
  rw [bigSep_congr (s := Finset.univ) fun c _ => e c, ring_deal fun c k => (dutyTok ER (barCell c) 0 (negD k) : sProp 𝕄)]
  rfl

theorem recv_around :
    (bigSep Finset.univ fun c : Dev nD => bigSep Finset.univ fun k : Fin 31 => (dutyTok ER (recvCell c (kk k) (kk_lt k)) 0 (0 : Fin 32) : sProp 𝕄))
      = bigSep Finset.univ fun c : Dev nD => bigSep Finset.univ fun k : Fin 31 => dutyTok ER (recvCell (peer c (kk k)) (kk k) (kk_lt k)) 0 (0 : Fin 32) :=
  ring_deal fun c k => (dutyTok ER (recvCell c (kk k) (kk_lt k)) 0 (0 : Fin 32) : sProp 𝕄)

theorem toks_around :
    (bigSep Finset.univ fun c : Dev nD => (toks c : sProp 𝕄)) ⊢ bigSep Finset.univ fun c : Dev nD => iprop(sigToks c ∗ xferToks c) := by
  unfold toks xferToks
  rw [bigSep_sep', bigSep_sep', bigSep_sep', bigSep_sep', sig_around, recv_around]
  iintro ⟨H1, H2, H3⟩
  isplitl [H1]; · iexact H1
  isplitl [H3]; · iexact H3
  iexact H2

theorem cells_eq (Φ : GSem nD τ sig → sProp 𝕄) : bigSep sumCells Φ = bigSep Finset.univ fun ck : Dev nD × CIx => Φ (kcell ck) := by
  unfold sumCells; rw [bigSep_map]; rfl

def records (K : GSem nD τ sig → ℕ) : sProp 𝕄 :=
  iprop((bigSep Finset.univ fun ck : Dev nD × CIx => cellInv ER (sumRd m) (K (kcell ck)) (kcell ck))
    ∗ bigSep Finset.univ fun ck : Dev nD × CIx => reached ER (kcell ck) 0)

instance records_persistent (K : GSem nD τ sig → ℕ) : BI.Persistent (records m K) := by unfold records; infer_instance

theorem inv_at (K : GSem nD τ sig → ℕ) (ck : Dev nD × CIx) :
    records m K ⊢ cellInv ER (sumRd m) (K (kcell ck)) (kcell ck) := by
  unfold records; iintro ⟨#HI, -⟩
  iapply (show (bigSep Finset.univ fun ck : Dev nD × CIx => (cellInv ER (sumRd m) (K (kcell ck)) (kcell ck) : sProp 𝕄))
    ⊢ cellInv ER (sumRd m) (K (kcell ck)) (kcell ck) from bigSep_elim (Finset.mem_univ ck))
  iexact HI
theorem reached_at (K : GSem nD τ sig → ℕ) (ck : Dev nD × CIx) : records m K ⊢ reached ER (kcell ck) 0 := by
  unfold records; iintro ⟨-, #HR⟩
  iapply (show (bigSep Finset.univ fun ck : Dev nD × CIx => (reached ER (kcell ck) 0 : sProp 𝕄)) ⊢ reached ER (kcell ck) 0 from
    bigSep_elim (Finset.mem_univ ck))
  iexact HR

theorem invs_intro (K : GSem nD τ sig → ℕ) (c : Dev nD) : records m K ⊢ invs m K c := by
  unfold invs
  iintro #H
  isplitr; · iapply (inv_at m K (c, .inl ())); iexact H
  isplitr; · iapply (bigSep_intro_persistent fun (k : Fin 31) _ => inv_at m K (c, .inr (.inl k))); iexact H
  isplitr; · iapply (bigSep_intro_persistent fun (k : Fin 31) _ => inv_at m K (c, .inr (.inr k))); iexact H
  isplitr; · iapply (bigSep_intro_persistent fun (k : Fin 31) _ => inv_at m K (peer c (kk k), .inl ())); iexact H
  iapply (bigSep_intro_persistent fun (k : Fin 31) _ => inv_at m K (peer c (kk k), .inr (.inr k))); iexact H

theorem rch_intro (K : GSem nD τ sig → ℕ) (c : Dev nD) : records m K ⊢ rch c := by
  unfold rch
  iintro #H
  isplitr; · iapply (bigSep_intro_persistent fun (k : Fin 31) _ => reached_at m K (peer c (kk k), .inl ())); iexact H
  isplitr; · iapply (bigSep_intro_persistent fun (k : Fin 31) _ => reached_at m K (peer c (kk k), .inr (.inr k))); iexact H
  isplitr; · iapply (bigSep_intro_persistent fun (k : Fin 31) _ => reached_at m K (c, .inr (.inl k))); iexact H
  iapply (bigSep_intro_persistent fun (k : Fin 31) _ => reached_at m K (c, .inr (.inr k))); iexact H

def linear (c : Dev nD) : sProp 𝕄 := iprop(pos c ∗ (sigToks c ∗ xferToks c) ∗ idleSems c)

def G' (c : Dev nD) : sProp 𝕄 := iprop((∃ K, invs m K c ∗ pos c ∗ rch c ∗ sigToks c ∗ xferToks c) ∗ idleSems c)

theorem ghost_intro (K : GSem nD τ sig → ℕ) (c : Dev nD) : iprop(records m K ∗ linear c) ⊢ G' m c := by
  unfold linear G'
  iintro ⟨#HR, Hpos, ⟨Hsig, Hxfer⟩, Hidle⟩
  isplitr [Hidle]
  · iexists K
    isplitr; · iapply (invs_intro m K c); iexact HR
    isplitl [Hpos]; · iexact Hpos
    isplitr; · iapply (rch_intro m K c); iexact HR
    isplitl [Hsig]; · iexact Hsig
    iexact Hxfer
  · iexact Hidle

theorem pos_eq (c : Dev nD) : (bigSep Finset.univ fun i : CIx => (atPos ER (kcell (c, i)) 0 ∅ 0 : sProp 𝕄)) = pos c := by
  unfold pos; rw [bigSep_CIx]; rfl

theorem regroup :
    (bigSep Finset.univ fun c : Dev nD => iprop((bigSep Finset.univ fun i : CIx => iprop(∃ κ : ℕ, cellInv ER (sumRd m) κ (kcell (c, i))))
          ∗ (bigSep Finset.univ fun i : CIx => iprop(atPos ER (kcell (c, i)) 0 ∅ 0 ∗ reached ER (kcell (c, i)) 0)) ∗ toks c ∗ idleSems c) : sProp 𝕄)
      ⊢ bigSep Finset.univ (G' m) := by
  rw [bigSep_sep', bigSep_sep', bigSep_sep', ← bigSep_univ_prod (fun ck : Dev nD × CIx => iprop(∃ κ : ℕ, cellInv ER (sumRd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄)),
    bigSep_congr (s := Finset.univ) (fun (c : Dev nD) _ => pos_eq (F := F) c),
    ← cells_eq (fun g => iprop(∃ κ : ℕ, cellInv ER (sumRd m) κ g))]
  have hlin : (bigSep Finset.univ fun c : Dev nD => (linear c : sProp 𝕄))
      = iprop((bigSep Finset.univ fun c : Dev nD => pos c) ∗ (bigSep Finset.univ fun c : Dev nD => iprop(sigToks c ∗ xferToks c))
          ∗ bigSep Finset.univ fun c : Dev nD => idleSems c) := by
    unfold linear; rw [bigSep_sep', bigSep_sep']
  iintro ⟨HI, ⟨Hat, #HR⟩, Htok, Hidle⟩
  ihave HK := (BI.bigSep_exists_pi sumCells (fun (g : GSem nD τ sig) (κ : ℕ) => (cellInv ER (sumRd m) κ g : sProp 𝕄))) $$ HI
  icases HK with ⟨%K, HI⟩
  ihave #HI' := (Entails.of_eq (cells_eq (fun g => (cellInv ER (sumRd m) (K g) g : sProp 𝕄)))) $$ HI
  ihave Htk := (toks_around (F := F)) $$ Htok
  iapply (bigSep_with_persistent (R := records m K) fun c _ => ghost_intro m K c)
  isplitr
  · unfold records; isplitl; · iexact HI'
    iexact HR
  · iapply (Entails.of_eq hlin.symm)
    isplitl [Hat]; · iexact Hat
    isplitl [Htk]; · iexact Htk
    iexact Hidle

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem tallyAt_nsmul (g : GSem nD τ sig) (n : ℕ) : n • (tallyAt g () 1 : CellTallies nD τ sig Unit) = tallyAt g () n := by
  induction n with
  | zero => rw [zero_smul]; unfold tallyAt tallyOn; rw [Finsupp.single_zero, Pi.single_zero]
  | succ n ih => rw [succ_nsmul, ih, tallyAt_add]

theorem creds_of_launch (c : Dev nD) : (Pipeline.launchCred O₀ c : sProp 𝕄) ⊢ creds c := by
  have hR : (Pipeline.launchCred Orecv c : sProp 𝕄)
      = bigSep Finset.univ fun k : Fin 31 => Pipeline.launchCred (fun d : Dev nD => (tallyAt (recvCell (peer d (kk k)) (kk k) (kk_lt k)) () N : CellTallies nD τ sig Unit)) c :=
    Pipeline.launchCred_sum Finset.univ (fun (k : Fin 31) (d : Dev nD) => (tallyAt (recvCell (peer d (kk k)) (kk k) (kk_lt k)) () N : CellTallies nD τ sig Unit)) c
  have hB : (Pipeline.launchCred Obar c : sProp 𝕄)
      = bigSep Finset.univ fun k : Fin 31 => Pipeline.launchCred (fun d : Dev nD => (tallyAt (barCell (peer d (kk k))) () 1 : CellTallies nD τ sig Unit)) c :=
    Pipeline.launchCred_sum Finset.univ (fun (k : Fin 31) (d : Dev nD) => (tallyAt (barCell (peer d (kk k))) () 1 : CellTallies nD τ sig Unit)) c
  have h31 : (tallyAt (barCell c) () 31 : CellTallies nD τ sig Unit) = ∑ k : Fin 31, tallyAt (barCell c) () 1 := by
    rw [Finset.sum_const, Finset.card_univ, Fintype.card_fin, tallyAt_nsmul]
  rw [show (Pipeline.launchCred O₀ c : sProp 𝕄) = Pipeline.launchCred (fun d => Orecv d + Obar d) c from rfl, Pipeline.launchCred_add, hR, hB]
  unfold creds
  rw [h31, Pipeline.cred_finsetSum]
  have eR : (bigSep Finset.univ fun k : Fin 31 => (Pipeline.launchCred (fun d : Dev nD => (tallyAt (recvCell (peer d (kk k)) (kk k) (kk_lt k)) () N : CellTallies nD τ sig Unit)) c : sProp 𝕄))
      ⊢ bigSep Finset.univ fun k : Fin 31 => cred (tallyAt (recvCell c (kk k) (kk_lt k)) () N) :=
    bigSep_mono fun k _ =>
      Pipeline.launchCred_tallyAt (SemLoc.dma (recvS (kk k) (kk_lt k)).sem) (fun d => peer d (kk k)) (fun d => back d (kk k))
        (fun c => peer_back c (kk k)) (fun d => back_peer d (kk k)) () N c
  have eB : (bigSep Finset.univ fun k : Fin 31 => (Pipeline.launchCred (fun d : Dev nD => (tallyAt (barCell (peer d (kk k))) () 1 : CellTallies nD τ sig Unit)) c : sProp 𝕄))
      ⊢ bigSep Finset.univ fun k : Fin 31 => cred (tallyAt (barCell c) () 1) :=
    bigSep_mono fun k _ =>
      Pipeline.launchCred_tallyAt (SemLoc.reg barS) (fun d => peer d (kk k)) (fun d => back d (kk k))
        (fun c => peer_back c (kk k)) (fun d => back_peer d (kk k)) () 1 c
  iintro ⟨HR, HB⟩
  isplitl [HB]
  · iapply eB; iexact HB
  · iapply eR; iexact HR

def X (c : Dev nD) : sProp 𝕄 :=
  iprop((∃ K, invs m K c ∗ pos c ∗ rch c ∗ sigToks c ∗ xferToks c) ∗ creds c ∗ levAts L lv ∗ idleSems c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  iintro ⟨-, Hlev, Hcr, -, HG⟩
  ihave Hc := (creds_of_launch (F := F) c) $$ Hcr
  imodintro
  unfold X G'
  icases HG with ⟨HK, Hidle⟩
  isplitl
  · isplitl [HK]; · iexact HK
    isplitl [Hc]; · iexact Hc
    isplitl [Hlev]; · iexact Hlev
    iexact Hidle
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X scrPts
  iintro ⟨⟨HK, Hc, Hlev, Hidle⟩, -, ⟨%f, Hr⟩⟩
  isplitl [HK]; · iexact HK
  isplitl [Hc]; · iexact Hc
  isplitl [Hlev]; · iexact Hlev
  isplitl [Hidle]; · iexact Hidle
  iexists f; iexact Hr

theorem phiN_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φend m c from rfl, scopedRest0_eq, ownSems0_eq]
  unfold Φend idleSems scrPts
  iintro ⟨Hr, ⟨HS0, HR0⟩, HS, HR⟩
  isplitr; · iempintro
  isplitl [HS0 HS HR0 HR]
  · isplitl [HS0 HS]
    · isplitl [HS0]; · iexact HS0
      iexact HS
    · isplitl [HR0]; · iexact HR0
      iexact HR
  iexists (full m c); iexact Hr

theorem stage_low : ∀ (w : Fin cfg0.W) (s : Fin (cfg0.win w).nbuf), isRecvSem (SemLoc.dma ((cfg0.win w).sem s) : SemLoc sig) = false := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | t, ht⟩
      · exact Or.inl rfl
      · by_cases h : t < 7
        · exact Or.inr (Or.inl (if_pos h))
        · exact Or.inr (Or.inr (if_neg h)))

theorem share_eq (c : Dev nD) (w : Fin cfg0.W) : (dats m ρ 0 c).share w = fullShare := by unfold Dat.share; split <;> rfl

end Launch

open Launch

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_sum m) $$ HX with HG
      imodintro
      isplitl [HP] <;> iassumption)
    (hglob := glob m)
    (hA := fun _ _ => rfl) (hpf := fun _ k => k.elim0)
    (X := X m) (Y := fun _ => iprop(emp)) (Z := fun _ => iprop(emp))
    (hX := start_intro m ρ) (hin := phi0_intro m ρ) (hout := phiN_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Sum
end
-- ==== Proof.Final.lean ====
import proofs.«901085_g7700000000001086_dist_sum_ax0_shard0_i_m2048_n1024_v7x_i32_f32_1_alg».proof.Proof.Launch

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem final_x (m : (ℓ : Loc nD τ sig) → Buf (Elt F) ℓ) (ρ : Dev nD → PrngReg) (c : Dev nD) :
    (dats (F := F) m ρ 0 c).arrAt (0 : Fin 2) cfg0.N = m ((c : Thread nD τ).loc main_arg0) :=
  ((dats (F := F) m ρ 0 c).arrAt_in (0 : Fin 2) rfl cfg0.N).trans rfl

theorem seven_lt : 7 < cfg0.N := by rw [cfg0_N]; decide

theorem out_off_zero :
    (fun a => (win0_1.index (⟨7, seven_lt⟩ : Fin cfg0.N)) a * main_v1.ty.shape.size a) = fun _ => 0 :=
  funext fun a => by fin_cases a <;> decide

theorem final_out (m : (ℓ : Loc nD τ sig) → Buf (Elt F) ℓ) (ρ : Dev nD → PrngReg) (c : Dev nD) :
    (dats (F := F) m ρ 0 c).arrAt (1 : Fin 2) cfg0.N = outAt m c := by
  have hf : (cfg0.win 1).flush (⟨7, seven_lt⟩ : Fin cfg0.N) = true := (flush0_1 ⟨7, seven_lt⟩).mpr rfl
  have hs := (dats (F := F) m ρ 0 c).arrAt_succ (1 : Fin 2) ⟨7, seven_lt⟩
  rw [if_pos hf] at hs
  refine (congrArg ((dats (F := F) m ρ 0 c).arrAt (1 : Fin 2)) cfg0_N).trans (hs.trans ?_)
  exact Memref.write_access_unit_zero_univ (Elt F) main_v1 out_off_zero (fun a => by fin_cases a <;> decide) _ _

theorem run_values (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono
    (fun r h c => ⟨(h c (1 : Fin 2)).trans (final_out m ρ c), (h c (0 : Fin 2)).trans (final_x m ρ c)⟩)
    (run_main m ρ hbody)

end Cert.KernelIdeal.Sum
end
-- ==== Proof.MeshKernel.lean ====
import proofs.«901085_g7700000000001086_dist_sum_ax0_shard0_i_m2048_n1024_v7x_i32_f32_1_alg».proof.Proof.Gen.Kernel

namespace Cert.Kernel.Sum

open Idealize.ShloMosaic Cert.Kernel

def peer (c : Dev nD) (k : ℕ) : Dev nD := ⟨(c.val + k) % 32, Nat.mod_lt _ (by decide)⟩

-- A device number that is (c + k) mod 32 is the device k places after c on the ring.
theorem dev_eq {f : Dev nD → ℕ} {k : ℕ} (hf : ∀ c, f c = (c.val + k) % 32) (c : Dev nD) (h : f c < nD) :
    (⟨f c, h⟩ : Dev nD) = peer c k := Fin.ext (hf c)

theorem dev1_eq (c : Dev nD) (h : k0_dev1 c < nD) : (⟨k0_dev1 c, h⟩ : Dev nD) = peer c 1 := dev_eq (by decide) c h
theorem dev2_eq (c : Dev nD) (h : k0_dev2 c < nD) : (⟨k0_dev2 c, h⟩ : Dev nD) = peer c 2 := dev_eq (by decide) c h
theorem dev3_eq (c : Dev nD) (h : k0_dev3 c < nD) : (⟨k0_dev3 c, h⟩ : Dev nD) = peer c 3 := dev_eq (by decide) c h
theorem dev4_eq (c : Dev nD) (h : k0_dev4 c < nD) : (⟨k0_dev4 c, h⟩ : Dev nD) = peer c 4 := dev_eq (by decide) c h
theorem dev5_eq (c : Dev nD) (h : k0_dev5 c < nD) : (⟨k0_dev5 c, h⟩ : Dev nD) = peer c 5 := dev_eq (by decide) c h
theorem dev6_eq (c : Dev nD) (h : k0_dev6 c < nD) : (⟨k0_dev6 c, h⟩ : Dev nD) = peer c 6 := dev_eq (by decide) c h
theorem dev7_eq (c : Dev nD) (h : k0_dev7 c < nD) : (⟨k0_dev7 c, h⟩ : Dev nD) = peer c 7 := dev_eq (by decide) c h
theorem dev8_eq (c : Dev nD) (h : k0_dev8 c < nD) : (⟨k0_dev8 c, h⟩ : Dev nD) = peer c 8 := dev_eq (by decide) c h
theorem dev9_eq (c : Dev nD) (h : k0_dev9 c < nD) : (⟨k0_dev9 c, h⟩ : Dev nD) = peer c 9 := dev_eq (by decide) c h
theorem dev10_eq (c : Dev nD) (h : k0_dev10 c < nD) : (⟨k0_dev10 c, h⟩ : Dev nD) = peer c 10 := dev_eq (by decide) c h
theorem dev11_eq (c : Dev nD) (h : k0_dev11 c < nD) : (⟨k0_dev11 c, h⟩ : Dev nD) = peer c 11 := dev_eq (by decide) c h
theorem dev12_eq (c : Dev nD) (h : k0_dev12 c < nD) : (⟨k0_dev12 c, h⟩ : Dev nD) = peer c 12 := dev_eq (by decide) c h
theorem dev13_eq (c : Dev nD) (h : k0_dev13 c < nD) : (⟨k0_dev13 c, h⟩ : Dev nD) = peer c 13 := dev_eq (by decide) c h
theorem dev14_eq (c : Dev nD) (h : k0_dev14 c < nD) : (⟨k0_dev14 c, h⟩ : Dev nD) = peer c 14 := dev_eq (by decide) c h
theorem dev15_eq (c : Dev nD) (h : k0_dev15 c < nD) : (⟨k0_dev15 c, h⟩ : Dev nD) = peer c 15 := dev_eq (by decide) c h
theorem dev16_eq (c : Dev nD) (h : k0_dev16 c < nD) : (⟨k0_dev16 c, h⟩ : Dev nD) = peer c 16 := dev_eq (by decide) c h
theorem dev17_eq (c : Dev nD) (h : k0_dev17 c < nD) : (⟨k0_dev17 c, h⟩ : Dev nD) = peer c 17 := dev_eq (by decide) c h
theorem dev18_eq (c : Dev nD) (h : k0_dev18 c < nD) : (⟨k0_dev18 c, h⟩ : Dev nD) = peer c 18 := dev_eq (by decide) c h
theorem dev19_eq (c : Dev nD) (h : k0_dev19 c < nD) : (⟨k0_dev19 c, h⟩ : Dev nD) = peer c 19 := dev_eq (by decide) c h
theorem dev20_eq (c : Dev nD) (h : k0_dev20 c < nD) : (⟨k0_dev20 c, h⟩ : Dev nD) = peer c 20 := dev_eq (by decide) c h
theorem dev21_eq (c : Dev nD) (h : k0_dev21 c < nD) : (⟨k0_dev21 c, h⟩ : Dev nD) = peer c 21 := dev_eq (by decide) c h
theorem dev22_eq (c : Dev nD) (h : k0_dev22 c < nD) : (⟨k0_dev22 c, h⟩ : Dev nD) = peer c 22 := dev_eq (by decide) c h
theorem dev23_eq (c : Dev nD) (h : k0_dev23 c < nD) : (⟨k0_dev23 c, h⟩ : Dev nD) = peer c 23 := dev_eq (by decide) c h
theorem dev24_eq (c : Dev nD) (h : k0_dev24 c < nD) : (⟨k0_dev24 c, h⟩ : Dev nD) = peer c 24 := dev_eq (by decide) c h
theorem dev25_eq (c : Dev nD) (h : k0_dev25 c < nD) : (⟨k0_dev25 c, h⟩ : Dev nD) = peer c 25 := dev_eq (by decide) c h
theorem dev26_eq (c : Dev nD) (h : k0_dev26 c < nD) : (⟨k0_dev26 c, h⟩ : Dev nD) = peer c 26 := dev_eq (by decide) c h
theorem dev27_eq (c : Dev nD) (h : k0_dev27 c < nD) : (⟨k0_dev27 c, h⟩ : Dev nD) = peer c 27 := dev_eq (by decide) c h
theorem dev28_eq (c : Dev nD) (h : k0_dev28 c < nD) : (⟨k0_dev28 c, h⟩ : Dev nD) = peer c 28 := dev_eq (by decide) c h
theorem dev29_eq (c : Dev nD) (h : k0_dev29 c < nD) : (⟨k0_dev29 c, h⟩ : Dev nD) = peer c 29 := dev_eq (by decide) c h
theorem dev30_eq (c : Dev nD) (h : k0_dev30 c < nD) : (⟨k0_dev30 c, h⟩ : Dev nD) = peer c 30 := dev_eq (by decide) c h
theorem dev31_eq (c : Dev nD) (h : k0_dev31 c < nD) : (⟨k0_dev31 c, h⟩ : Dev nD) = peer c 31 := dev_eq (by decide) c h
theorem dev32_eq (c : Dev nD) (h : k0_dev32 c < nD) : (⟨k0_dev32 c, h⟩ : Dev nD) = peer c 1 := dev_eq (by decide) c h
theorem dev33_eq (c : Dev nD) (h : k0_dev33 c < nD) : (⟨k0_dev33 c, h⟩ : Dev nD) = peer c 2 := dev_eq (by decide) c h
theorem dev34_eq (c : Dev nD) (h : k0_dev34 c < nD) : (⟨k0_dev34 c, h⟩ : Dev nD) = peer c 3 := dev_eq (by decide) c h
theorem dev35_eq (c : Dev nD) (h : k0_dev35 c < nD) : (⟨k0_dev35 c, h⟩ : Dev nD) = peer c 4 := dev_eq (by decide) c h
theorem dev36_eq (c : Dev nD) (h : k0_dev36 c < nD) : (⟨k0_dev36 c, h⟩ : Dev nD) = peer c 5 := dev_eq (by decide) c h
theorem dev37_eq (c : Dev nD) (h : k0_dev37 c < nD) : (⟨k0_dev37 c, h⟩ : Dev nD) = peer c 6 := dev_eq (by decide) c h
theorem dev38_eq (c : Dev nD) (h : k0_dev38 c < nD) : (⟨k0_dev38 c, h⟩ : Dev nD) = peer c 7 := dev_eq (by decide) c h
theorem dev39_eq (c : Dev nD) (h : k0_dev39 c < nD) : (⟨k0_dev39 c, h⟩ : Dev nD) = peer c 8 := dev_eq (by decide) c h
theorem dev40_eq (c : Dev nD) (h : k0_dev40 c < nD) : (⟨k0_dev40 c, h⟩ : Dev nD) = peer c 9 := dev_eq (by decide) c h
theorem dev41_eq (c : Dev nD) (h : k0_dev41 c < nD) : (⟨k0_dev41 c, h⟩ : Dev nD) = peer c 10 := dev_eq (by decide) c h
theorem dev42_eq (c : Dev nD) (h : k0_dev42 c < nD) : (⟨k0_dev42 c, h⟩ : Dev nD) = peer c 11 := dev_eq (by decide) c h
theorem dev43_eq (c : Dev nD) (h : k0_dev43 c < nD) : (⟨k0_dev43 c, h⟩ : Dev nD) = peer c 12 := dev_eq (by decide) c h
theorem dev44_eq (c : Dev nD) (h : k0_dev44 c < nD) : (⟨k0_dev44 c, h⟩ : Dev nD) = peer c 13 := dev_eq (by decide) c h
theorem dev45_eq (c : Dev nD) (h : k0_dev45 c < nD) : (⟨k0_dev45 c, h⟩ : Dev nD) = peer c 14 := dev_eq (by decide) c h
theorem dev46_eq (c : Dev nD) (h : k0_dev46 c < nD) : (⟨k0_dev46 c, h⟩ : Dev nD) = peer c 15 := dev_eq (by decide) c h
theorem dev47_eq (c : Dev nD) (h : k0_dev47 c < nD) : (⟨k0_dev47 c, h⟩ : Dev nD) = peer c 16 := dev_eq (by decide) c h
theorem dev48_eq (c : Dev nD) (h : k0_dev48 c < nD) : (⟨k0_dev48 c, h⟩ : Dev nD) = peer c 17 := dev_eq (by decide) c h
theorem dev49_eq (c : Dev nD) (h : k0_dev49 c < nD) : (⟨k0_dev49 c, h⟩ : Dev nD) = peer c 18 := dev_eq (by decide) c h
theorem dev50_eq (c : Dev nD) (h : k0_dev50 c < nD) : (⟨k0_dev50 c, h⟩ : Dev nD) = peer c 19 := dev_eq (by decide) c h
theorem dev51_eq (c : Dev nD) (h : k0_dev51 c < nD) : (⟨k0_dev51 c, h⟩ : Dev nD) = peer c 20 := dev_eq (by decide) c h
theorem dev52_eq (c : Dev nD) (h : k0_dev52 c < nD) : (⟨k0_dev52 c, h⟩ : Dev nD) = peer c 21 := dev_eq (by decide) c h
theorem dev53_eq (c : Dev nD) (h : k0_dev53 c < nD) : (⟨k0_dev53 c, h⟩ : Dev nD) = peer c 22 := dev_eq (by decide) c h
theorem dev54_eq (c : Dev nD) (h : k0_dev54 c < nD) : (⟨k0_dev54 c, h⟩ : Dev nD) = peer c 23 := dev_eq (by decide) c h
theorem dev55_eq (c : Dev nD) (h : k0_dev55 c < nD) : (⟨k0_dev55 c, h⟩ : Dev nD) = peer c 24 := dev_eq (by decide) c h
theorem dev56_eq (c : Dev nD) (h : k0_dev56 c < nD) : (⟨k0_dev56 c, h⟩ : Dev nD) = peer c 25 := dev_eq (by decide) c h
theorem dev57_eq (c : Dev nD) (h : k0_dev57 c < nD) : (⟨k0_dev57 c, h⟩ : Dev nD) = peer c 26 := dev_eq (by decide) c h
theorem dev58_eq (c : Dev nD) (h : k0_dev58 c < nD) : (⟨k0_dev58 c, h⟩ : Dev nD) = peer c 27 := dev_eq (by decide) c h
theorem dev59_eq (c : Dev nD) (h : k0_dev59 c < nD) : (⟨k0_dev59 c, h⟩ : Dev nD) = peer c 28 := dev_eq (by decide) c h
theorem dev60_eq (c : Dev nD) (h : k0_dev60 c < nD) : (⟨k0_dev60 c, h⟩ : Dev nD) = peer c 29 := dev_eq (by decide) c h
theorem dev61_eq (c : Dev nD) (h : k0_dev61 c < nD) : (⟨k0_dev61 c, h⟩ : Dev nD) = peer c 30 := dev_eq (by decide) c h
theorem dev62_eq (c : Dev nD) (h : k0_dev62 c < nD) : (⟨k0_dev62 c, h⟩ : Dev nD) = peer c 31 := dev_eq (by decide) c h

end Cert.Kernel.Sum
-- ==== Proof.SchedKernel.lean ====
import proofs.«901085_g7700000000001086_dist_sum_ax0_shard0_i_m2048_n1024_v7x_i32_f32_1_alg».proof.Proof.Gen.Kernel.Skeleton
import proofs.«901085_g7700000000001086_dist_sum_ax0_shard0_i_m2048_n1024_v7x_i32_f32_1_alg».proof.Proof.Gen.Kernel.Frame
import proofs.«901085_g7700000000001086_dist_sum_ax0_shard0_i_m2048_n1024_v7x_i32_f32_1_alg».proof.Proof.MeshKernel
import Idealize.ShloMosaic.Lib.Pipeline.Launch

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def back (c : Dev nD) (k : ℕ) : Dev nD := ⟨(c.val + (32 - k % 32)) % 32, Nat.mod_lt _ (by decide)⟩

theorem back_peer (c : Dev nD) (k : ℕ) : back (peer c k) k = c := by
  apply Fin.ext; have h : c.val < 32 := c.isLt; simp only [peer, back]; omega
theorem peer_back (c : Dev nD) (k : ℕ) : peer (back c k) k = c := by
  apply Fin.ext; have h : c.val < 32 := c.isLt; simp only [peer, back]; omega
theorem back_zero (c : Dev nD) : back c 0 = c := by
  apply Fin.ext; have h : c.val < 32 := c.isLt; simp only [back]; omega

theorem peer_peer_neg (c : Dev nD) (k : ℕ) (hk : k < 32) : peer (peer c k) (32 - k) = c := by
  apply Fin.ext; have h : c.val < 32 := c.isLt; simp only [peer]; omega

abbrev scr : Memref sig .tc .vmem S32x1024 .f32 := Memref.whole cc0_scratch0

theorem inb_row (k : ℕ) (hk : k < 32) : ∀ a, (![k, 0] : Fin 2 → Nat) a + S1x1024.size a ≤ S32x1024.size a := by
  intro a; fin_cases a
  · show k + 1 ≤ 32; omega
  · show 0 + 1024 ≤ 1024; omega
theorem inb_sem (k : ℕ) (hk : k < 32) : ∀ a, (![k] : Fin 1 → Nat) a + S1.size a ≤ S32.size a := by
  intro a; fin_cases a; show k + 1 ≤ 32; omega

abbrev rowM (k : ℕ) (hk : k < 32) : Memref sig .tc .vmem S1024 .f32 :=
  (scr.slice (Rect.unit (s := S32x1024) ![k, 0] S1x1024.size (inb_row k hk)) (fun _ => rfl)).squeeze S1024 squeezes_S1x1024_S1024

abbrev sendS (k : ℕ) (hk : k < 32) : DmaSems sig S_ := (cc0_scratch1.slice (Rect.unit (s := S32) ![k] S1.size (inb_sem k hk))).squeeze S_ squeezes_S1_S_
abbrev recvS (k : ℕ) (hk : k < 32) : DmaSems sig S_ := (cc0_scratch2.slice (Rect.unit (s := S32) ![k] S1.size (inb_sem k hk))).squeeze S_ squeezes_S1_S_

abbrev barS : Sem sig := (SemArray.scalar (sig.barrier 0 rfl) : Sems sig S_).sem

abbrev barCell (c : Dev nD) : GSem nD τ sig := ((c : Thread nD τ), .reg barS)
abbrev sendCell (c : Dev nD) (k : ℕ) (hk : k < 32) : GSem nD τ sig := ((c : Thread nD τ), .dma (sendS k hk).sem)
abbrev recvCell (c : Dev nD) (k : ℕ) (hk : k < 32) : GSem nD τ sig := ((c : Thread nD τ), .dma (recvS k hk).sem)

theorem sendS_val (k : ℕ) (hk : k < 32) : ((sendS k hk).sem : DmaSem sig).val = 3 + k := by
  show 3 + (S32.rowMajor _).val = 3 + k
  rw [Shape.rowMajor_val_one, Rect.emb_apply]
  show 3 + (k + 1 * ((_ : Fin 1) : ℕ)) = 3 + k
  generalize ((Shape.reshapeEquiv _ _ : S1.Idx) 0 : Fin 1) = j
  have hj : (j : ℕ) < 1 := j.isLt
  omega

theorem recvS_val (k : ℕ) (hk : k < 32) : ((recvS k hk).sem : DmaSem sig).val = 35 + k := by
  show 35 + (S32.rowMajor _).val = 35 + k
  rw [Shape.rowMajor_val_one, Rect.emb_apply]
  show 35 + (k + 1 * ((_ : Fin 1) : ℕ)) = 35 + k
  generalize ((Shape.reshapeEquiv _ _ : S1.Idx) 0 : Fin 1) = j
  have hj : (j : ℕ) < 1 := j.isLt
  omega

abbrev N : ℕ := (rowM 0 (by decide)).view.dmaCredit
theorem N_pos : 0 < N := View.dmaCredit_pos _ (by decide)
variable (m : (ℓ : Loc nD τ sig) → Buf (Elt F) ℓ)

theorem cfg0_N : cfg0.N = 8 := by decide

def tN (t : ℕ) : Fin cfg0.N := ⟨t % 8, by have := cfg0_N; omega⟩

abbrev xblk (c : Dev nD) (t : Fin cfg0.N) : Vec F S256x1024 .f32 := iblk m c 0 t

def acc (c : Dev nD) : ℕ → FVec F S1x1024 .f32
  | 0 => k0_pay1 (xblk m c (tN 0))
  | t + 1 => k0_pay2 (acc c t) (xblk m c (tN (t + 1)))

def S (c : Dev nD) : FVec F S1x1024 .f32 := acc m c 7

abbrev ScrC (F : FTy → Type) : Type := (cc0_scratch0 : Ref sig .tc).ty.Contents (Elt F)

def colIdx (i : (cc0_scratch0 : Ref sig .tc).ty.Idx) : S1x1024.Idx :=
  fun a => match a with
    | ⟨0, _⟩ => (⟨0, by decide⟩ : Fin 1)
    | ⟨1, _⟩ => (⟨(i 1).val, (i 1).isLt⟩ : Fin 1024)

def rowFill (v : FVec F S1x1024 .f32) : ScrC F := fun i => v (colIdx i)

def full (c : Dev nD) : ScrC F := fun i => S m (back c (i 0).val) (colIdx i)

def outAt (c : Dev nD) : (cc0_stg1_0 : Ref sig .tc).ty.Contents (Elt F) := k0_pay3 (full m c)

def qrest : ℕ → PosShare TreeShare
  | 0 => fullShare
  | k + 1 => (qrest k).right
def q (k : ℕ) : PosShare TreeShare := (qrest (k - 1)).left

def barPay (c : Dev nD) (j : ℕ) : sProp 𝕄 :=
  if hj : 1 ≤ j ∧ j < 32 then
    iprop((∃ f, (rowM j hj.2).view.loc (peer c j : Thread nD τ) ↦[(rowM j hj.2).view.set]{fullShare} f) ∗ reached ER (recvCell (peer c j) j hj.2) 0)
  else iprop(emp)

def sendPay (c : Dev nD) (k : ℕ) : sProp 𝕄 :=
  (rowM 0 (by decide)).view.loc (c : Thread nD τ) ↦[(rowM 0 (by decide)).view.set]{q k} (rowFill (S m c))

def recvPay (c : Dev nD) (k : ℕ) (hk : k < 32) : sProp 𝕄 :=
  iprop(∃ fd, (rowM k hk).view.loc (c : Thread nD τ) ↦[(rowM k hk).view.set]{fullShare}
    ((rowM k hk).view.write (Elt F) fd ((rowM 0 (by decide)).view.read (Elt F) (rowFill (S m (back c k)))) Finset.univ))

def sumRd : Rounds.Schedule (GSem nD τ sig) (Fin 32) 𝕄 where
  duties g r :=
    if r = 0 ∧ g.1.2 = .tc then
      (match g.2 with
        | .reg s => if s = barS then Finset.univ.erase 0 else ∅
        | .dma s => if (4 ≤ s.val ∧ s.val < 35) ∨ (36 ≤ s.val ∧ s.val < 67) then {0} else ∅)
    else ∅
  amount g _ _ := match g.2 with
    | .reg _ => 1
    | .dma _ => N
  payload g _ d := match g.2 with
    | .reg s => if s = barS then barPay g.1.1 d.val else iprop(emp)
    | .dma s =>
      if h : 4 ≤ s.val ∧ s.val < 35 then sendPay m g.1.1 (s.val - 3)
      else if h : 36 ≤ s.val ∧ s.val < 67 then recvPay m g.1.1 (s.val - 35) (by omega)
      else iprop(emp)
  amount_pos g _ _ _ := by
    cases g.2 with
    | reg _ => exact Nat.one_pos
    | dma _ => exact N_pos

end Cert.Kernel.Sum
end
-- ==== Proof.DataKernel.lean ====
import proofs.«901085_g7700000000001086_dist_sum_ax0_shard0_i_m2048_n1024_v7x_i32_f32_1_alg».proof.Proof.SchedKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A product over 31 indices is the chain of its factors in order.
theorem sep31 {M : Type} [URA M] (Φ : Fin 31 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

variable (m : (ℓ : Loc nD τ sig) → Buf (Elt F) ℓ) (ρ : Dev nD → PrngReg)

def s₀ : MemSt nD τ sig (Elt F) := ⟨m, fun _ => 0, ρ⟩

def kk (k : Fin 31) : ℕ := k.val + 1
theorem kk_lt (k : Fin 31) : kk k < 32 := by unfold kk; omega
theorem kk_pos (k : Fin 31) : 1 ≤ kk k := by unfold kk; omega

def negD (k : Fin 31) : Fin 32 := ⟨32 - kk k, by unfold kk; omega⟩

def Orecv (c : Dev nD) : CellTallies nD τ sig Unit := ∑ k : Fin 31, tallyAt (recvCell (peer c (kk k)) (kk k) (kk_lt k)) () N

def Obar (c : Dev nD) : CellTallies nD τ sig Unit := ∑ k : Fin 31, tallyAt (barCell (peer c (kk k))) () 1
def O₀ (c : Dev nD) : CellTallies nD τ sig Unit := Orecv c + Obar c

def isRecvSem (s : SemLoc sig) : Bool := match s with
  | .dma d => decide (36 ≤ d.val)
  | _ => false
def L (g : GSem nD τ sig) : Finset Unit := if g.1.2 = .tc then {()} else ∅
def lv (g : GSem nD τ sig) (_ : Unit) : ℕ := if g.2 = .reg barS then 1 else if isRecvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

section Ghost
variable (K : GSem nD τ sig → ℕ) (c : Dev nD)

def invs : sProp 𝕄 :=
  iprop(cellInv ER (sumRd m) (K (barCell c)) (barCell c)
    ∗ (bigSep Finset.univ fun k : Fin 31 => cellInv ER (sumRd m) (K (sendCell c (kk k) (kk_lt k))) (sendCell c (kk k) (kk_lt k)))
    ∗ (bigSep Finset.univ fun k : Fin 31 => cellInv ER (sumRd m) (K (recvCell c (kk k) (kk_lt k))) (recvCell c (kk k) (kk_lt k)))
    ∗ (bigSep Finset.univ fun k : Fin 31 => cellInv ER (sumRd m) (K (barCell (peer c (kk k)))) (barCell (peer c (kk k))))
    ∗ (bigSep Finset.univ fun k : Fin 31 => cellInv ER (sumRd m) (K (recvCell (peer c (kk k)) (kk k) (kk_lt k))) (recvCell (peer c (kk k)) (kk k) (kk_lt k))))

def pos : sProp 𝕄 :=
  iprop(atPos ER (barCell c) 0 ∅ 0
    ∗ (bigSep Finset.univ fun k : Fin 31 => atPos ER (sendCell c (kk k) (kk_lt k)) 0 ∅ 0)
    ∗ (bigSep Finset.univ fun k : Fin 31 => atPos ER (recvCell c (kk k) (kk_lt k)) 0 ∅ 0))

def rch : sProp 𝕄 :=
  iprop((bigSep Finset.univ fun k : Fin 31 => reached ER (barCell (peer c (kk k))) 0)
    ∗ (bigSep Finset.univ fun k : Fin 31 => reached ER (recvCell (peer c (kk k)) (kk k) (kk_lt k)) 0)
    ∗ (bigSep Finset.univ fun k : Fin 31 => reached ER (sendCell c (kk k) (kk_lt k)) 0)
    ∗ (bigSep Finset.univ fun k : Fin 31 => reached ER (recvCell c (kk k) (kk_lt k)) 0))

def sigToks : sProp 𝕄 := bigSep Finset.univ fun k : Fin 31 => dutyTok ER (barCell (peer c (kk k))) 0 (negD k)

def xferToks : sProp 𝕄 :=
  iprop((bigSep Finset.univ fun k : Fin 31 => dutyTok ER (recvCell (peer c (kk k)) (kk k) (kk_lt k)) 0 0)
    ∗ (bigSep Finset.univ fun k : Fin 31 => dutyTok ER (sendCell c (kk k) (kk_lt k)) 0 0))

def creds : sProp 𝕄 :=
  iprop(cred (tallyAt (barCell c) () 31) ∗ (bigSep Finset.univ fun k : Fin 31 => cred (tallyAt (recvCell c (kk k) (kk_lt k)) () N)))

instance invs_persistent : BI.Persistent (invs m K c) := by unfold invs; infer_instance
instance rch_persistent : BI.Persistent (rch (F := F) c) := by unfold rch; infer_instance

end Ghost

def row0Pts (c : Dev nD) (f : ScrC F) : sProp 𝕄 :=
  (rowM 0 (by decide)).view.loc (c : Thread nD τ) ↦[(rowM 0 (by decide)).view.set]{fullShare} f

def scrPts (c : Dev nD) (f : ScrC F) : sProp 𝕄 := ((c : Thread nD τ).loc cc0_scratch0) ↦{fullShare} f

def idleSems (c : Dev nD) : sProp 𝕄 :=
  iprop(semVal (sendCell c 0 (by decide)) 0 ∗ semVal (recvCell c 0 (by decide)) 0)

def Φ₀ (c : Dev nD) : sProp 𝕄 :=
  iprop((∃ K, invs m K c ∗ pos c ∗ rch c ∗ sigToks c ∗ xferToks c) ∗ creds c ∗ levAts L lv ∗ idleSems c ∗ ∃ f, scrPts c f)

def Φmid (c : Dev nD) (t : ℕ) : sProp 𝕄 :=
  iprop((∃ K, invs m K c ∗ pos c ∗ rch c ∗ xferToks c) ∗ creds c ∗ levAts L lv ∗ idleSems c ∗ row0Pts c (rowFill (acc m c t)))

def Φend (c : Dev nD) : sProp 𝕄 :=
  iprop(scrPts c (full m c) ∗ idleSems c
    ∗ (bigSep Finset.univ fun k : Fin 31 => semVal (sendCell c (kk k) (kk_lt k)) 0)
    ∗ (bigSep Finset.univ fun k : Fin 31 => semVal (recvCell c (kk k) (kk_lt k)) 0))

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := match t with
    | ⟨0, _⟩ => Φ₀ m c
    | ⟨t + 1, _⟩ => if t < 7 then Φmid m c t else Φend m c
  q _ := fullShare
  owed t := match t with
    | ⟨0, _⟩ => O₀ c
    | ⟨t + 1, _⟩ => if t < 7 then Orecv c else 0

abbrev 𝒱₀ : Variants := Variants.none

end Cert.Kernel.Sum
end
-- ==== Proof.LevelsKernel.lean ====
import proofs.«901085_g7700000000001086_dist_sum_ax0_shard0_i_m2048_n1024_v7x_i32_f32_1_alg».proof.Proof.DataKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem dma_ne_bar (d : DmaSem sig) : (SemLoc.dma d : SemLoc sig) ≠ .reg barS := fun h => by cases h

theorem lv_bar (c : Dev nD) (u : Unit) : lv (barCell c) u = 1 := if_pos rfl

theorem lv_recv (c : Dev nD) (k : ℕ) (hk : k < 32) (h1 : 1 ≤ k) (u : Unit) : lv (recvCell c k hk) u = 2 := by
  have hr : isRecvSem (SemLoc.dma (recvS k hk).sem : SemLoc sig) = true := by
    show decide (36 ≤ ((recvS k hk).sem : DmaSem sig).val) = true
    rw [recvS_val]; exact decide_eq_true (by omega)
  show (if (SemLoc.dma (recvS k hk).sem : SemLoc sig) = .reg barS then 1 else if isRecvSem (SemLoc.dma (recvS k hk).sem : SemLoc sig) then 2 else 0) = 2
  rw [if_neg (dma_ne_bar _), if_pos hr]

theorem lv_low (c : Dev nD) (qd : DmaSem sig) (hq : isRecvSem (.dma qd) = false) (u : Unit) : lv ((c : Thread nD τ), SemLoc.dma qd) u = 0 := by
  show (if (SemLoc.dma qd : SemLoc sig) = .reg barS then 1 else if isRecvSem (SemLoc.dma qd : SemLoc sig) then 2 else 0) = 0
  rw [if_neg (dma_ne_bar _), hq]; rfl

theorem Orecv_pos {c : Dev nD} {g : GSem nD τ sig} {u : Unit} (h : 0 < Orecv c g u) :
    ∃ k : Fin 31, g = recvCell (peer c (kk k)) (kk k) (kk_lt k) := by
  unfold Orecv at h
  obtain ⟨k, -, hk⟩ := Pipeline.sum_pos_exists h
  exact ⟨k, (Pipeline.tallyAt_pos hk).1⟩

theorem Obar_pos {c : Dev nD} {g : GSem nD τ sig} {u : Unit} (h : 0 < Obar c g u) :
    ∃ k : Fin 31, g = barCell (peer c (kk k)) := by
  unfold Obar at h
  obtain ⟨k, -, hk⟩ := Pipeline.sum_pos_exists h
  exact ⟨k, (Pipeline.tallyAt_pos hk).1⟩

theorem O₀_pos {c : Dev nD} {g : GSem nD τ sig} {u : Unit} (h : 0 < O₀ c g u) :
    (∃ k : Fin 31, g = recvCell (peer c (kk k)) (kk k) (kk_lt k)) ∨ ∃ k : Fin 31, g = barCell (peer c (kk k)) := by
  unfold O₀ at h
  rcases Pipeline.add_pos_cases h with h | h
  · exact Or.inl (Orecv_pos h)
  · exact Or.inr (Obar_pos h)

theorem mayWait_stage (c : Dev nD) (qd : DmaSem sig) (hq : isRecvSem (.dma qd) = false) (O : CellTallies nD τ sig Unit)
    (hO : O = O₀ c ∨ O = Orecv c ∨ O = 0) :
    (levAts L lv : sProp 𝕄) ⊢ MayWait (c : Thread nD τ) (.dma qd) () O := by
  have key : ∀ O' : CellTallies nD τ sig Unit,
      (∀ (g : GSem nD τ sig) (u : Unit), 0 < O' g u →
        (∃ k : Fin 31, g = recvCell (peer c (kk k)) (kk k) (kk_lt k)) ∨ ∃ k : Fin 31, g = barCell (peer c (kk k))) →
      ((levAts L lv : sProp 𝕄) ⊢ MayWait (c : Thread nD τ) (.dma qd) () O') := fun O' hpos =>
    MayOwe.of_cut (L := L) (lev := lv) 0
      (fun p hp => by rw [Finset.mem_singleton.mp hp, L_tc]; exact Finset.mem_singleton_self _)
      (fun g u hg => by
        rcases hpos g u hg with ⟨k, rfl⟩ | ⟨k, rfl⟩ <;> (rw [L_tc]; exact Finset.mem_singleton_self _))
      (fun p hp => by rw [Finset.mem_singleton.mp hp]; exact le_of_eq (lv_low c qd hq ()))
      (fun g u hg => by
        rcases hpos g u hg with ⟨k, rfl⟩ | ⟨k, rfl⟩
        · rw [lv_recv _ _ _ (kk_pos k)]; decide
        · rw [lv_bar]; decide)
  rcases hO with rfl | rfl | rfl
  · exact key _ fun g u hg => O₀_pos hg
  · exact key _ fun g u hg => Or.inl (Orecv_pos hg)
  · rw [MayWait_zero]; iintro -; iempintro

theorem mayWait_bar (c : Dev nD) : (levAts L lv : sProp 𝕄) ⊢ MayWait (c : Thread nD τ) (.reg barS) () (Orecv c) :=
  MayOwe.of_cut (L := L) (lev := lv) 1
    (fun p hp => by rw [Finset.mem_singleton.mp hp, L_tc]; exact Finset.mem_singleton_self _)
    (fun g u hg => by obtain ⟨k, rfl⟩ := Orecv_pos hg; rw [L_tc]; exact Finset.mem_singleton_self _)
    (fun p hp => by rw [Finset.mem_singleton.mp hp]; exact le_of_eq (lv_bar c ()))
    (fun g u hg => by obtain ⟨k, rfl⟩ := Orecv_pos hg; rw [lv_recv _ _ _ (kk_pos k)]; decide)

end Cert.Kernel.Sum
end
-- ==== Proof.TablesKernel.lean ====
import proofs.«901085_g7700000000001086_dist_sum_ax0_shard0_i_m2048_n1024_v7x_i32_f32_1_alg».proof.Proof.DataKernel
import Idealize.SL.BI.BigOp
import Mathlib.Data.Fintype.Fin
import Mathlib.Data.Fintype.BigOperators

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem send_range (k : ℕ) (hk : k < 32) (h1 : 1 ≤ k) : 4 ≤ ((sendS k hk).sem : DmaSem sig).val ∧ ((sendS k hk).sem : DmaSem sig).val < 35 := by
  rw [sendS_val]; omega
theorem recv_not_send_range (k : ℕ) (hk : k < 32) : ¬ (4 ≤ ((recvS k hk).sem : DmaSem sig).val ∧ ((recvS k hk).sem : DmaSem sig).val < 35) := by
  rw [recvS_val]; omega
theorem recv_range (k : ℕ) (hk : k < 32) (h1 : 1 ≤ k) : 36 ≤ ((recvS k hk).sem : DmaSem sig).val ∧ ((recvS k hk).sem : DmaSem sig).val < 67 := by
  rw [recvS_val]; omega

theorem duties_bar (c : Dev nD) : (sumRd (F := F) m).duties (barCell c) 0 = Finset.univ.erase 0 := by
  dsimp only [sumRd]; rw [if_pos ⟨rfl, rfl⟩]; exact if_pos rfl
theorem duties_send (c : Dev nD) (k : ℕ) (hk : k < 32) (h1 : 1 ≤ k) : (sumRd (F := F) m).duties (sendCell c k hk) 0 = {0} := by
  dsimp only [sumRd]; rw [if_pos ⟨rfl, rfl⟩]; exact if_pos (.inl (send_range k hk h1))
theorem duties_recv (c : Dev nD) (k : ℕ) (hk : k < 32) (h1 : 1 ≤ k) : (sumRd (F := F) m).duties (recvCell c k hk) 0 = {0} := by
  dsimp only [sumRd]; rw [if_pos ⟨rfl, rfl⟩]; exact if_pos (.inr (recv_range k hk h1))
theorem duties_later (g : GSem nD τ sig) (r : ℕ) (hr : 1 ≤ r) : (sumRd (F := F) m).duties g r = ∅ := by
  dsimp only [sumRd]; exact if_neg fun h => by omega

theorem amount_bar (c : Dev nD) (d : Fin 32) : (sumRd (F := F) m).amount (barCell c) 0 d = 1 := rfl
theorem amount_send (c : Dev nD) (k : ℕ) (hk : k < 32) (d : Fin 32) : (sumRd (F := F) m).amount (sendCell c k hk) 0 d = N := rfl
theorem amount_recv (c : Dev nD) (k : ℕ) (hk : k < 32) (d : Fin 32) : (sumRd (F := F) m).amount (recvCell c k hk) 0 d = N := rfl

theorem expect_bar (c : Dev nD) : (sumRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_send (c : Dev nD) (k : ℕ) (hk : k < 32) (h1 : 1 ≤ k) : (sumRd (F := F) m).expect (sendCell c k hk) 0 = N := by
  unfold Schedule.expect Schedule.amountOf; rw [duties_send m c k hk h1, Finset.sum_singleton, amount_send]
theorem expect_recv (c : Dev nD) (k : ℕ) (hk : k < 32) (h1 : 1 ≤ k) : (sumRd (F := F) m).expect (recvCell c k hk) 0 = N := by
  unfold Schedule.expect Schedule.amountOf; rw [duties_recv m c k hk h1, Finset.sum_singleton, amount_recv]

theorem payload_bar (c : Dev nD) (j : ℕ) (hj : 1 ≤ j ∧ j < 32) : (sumRd (F := F) m).payload (barCell c) 0 ⟨j, hj.2⟩ = iprop((∃ f, (rowM j hj.2).view.loc (peer c j : Thread nD τ) ↦[(rowM j hj.2).view.set]{fullShare} f) ∗ reached ER (recvCell (peer c j) j hj.2) 0) := by
  dsimp only [sumRd]; rw [if_pos rfl]; unfold barPay; exact dif_pos hj

theorem payload_send (c : Dev nD) (k : ℕ) (hk : k < 32) (h1 : 1 ≤ k) (d : Fin 32) : (sumRd (F := F) m).payload (sendCell c k hk) 0 d = sendPay m c k := by
  dsimp only [sumRd]; rw [dif_pos (send_range k hk h1)]
  show sendPay m c (((sendS k hk).sem : DmaSem sig).val - 3) = sendPay m c k
  rw [sendS_val, Nat.add_sub_cancel_left]

theorem recvPay_congr (c : Dev nD) (k k' : ℕ) (h : k = k') (hk : k < 32) (hk' : k' < 32) : recvPay m c k hk = recvPay m c k' hk' := by
  subst h; rfl

theorem payload_recv (c : Dev nD) (k : ℕ) (hk : k < 32) (h1 : 1 ≤ k) (d : Fin 32) : (sumRd (F := F) m).payload (recvCell c k hk) 0 d = recvPay m c k hk := by
  dsimp only [sumRd]; rw [dif_neg (recv_not_send_range k hk), dif_pos (recv_range k hk h1)]
  exact recvPay_congr m c _ _ (by rw [recvS_val, Nat.add_sub_cancel_left]) _ _

instance payload_storable (g : GSem nD τ sig) (r : ℕ) (d : Fin 32) : BI.Storable (upEmb : UEmb _ 𝕄) ((sumRd (F := F) m).payload g r d) := by
  dsimp only [sumRd]
  unfold barPay sendPay recvPay
  (repeat' split) <;> infer_instance

theorem payload_bar_out (c : Dev nD) (k j : ℕ) (hj : j < 32) (hk : 1 ≤ k) (hkj : k + j = 32) (hj1 : 1 ≤ j) : (sumRd (F := F) m).payload (barCell (peer c k)) 0 ⟨j, hj⟩ = iprop((∃ f, (rowM j hj).view.loc (c : Thread nD τ) ↦[(rowM j hj).view.set]{fullShare} f) ∗ reached ER (recvCell c j hj) 0) := by
  have hp : peer (peer c k) j = c := by
    have hjk : j = 32 - k := by omega
    subst hjk; exact peer_peer_neg c k (by omega)
  rw [payload_bar m (peer c k) j ⟨hj1, hj⟩, hp]

theorem erase_zero_eq_map : (Finset.univ.erase 0 : Finset (Fin 32)) = Finset.univ.map (Fin.succEmb 31) := by decide

theorem rest_bar (c : Dev nD) : bigSep ((sumRd (F := F) m).duties (barCell c) 0 \ ∅) (fun d => (sumRd (F := F) m).payload (barCell c) 0 d) = bigSep Finset.univ fun k : Fin 31 => iprop((∃ f, (rowM (kk k) (kk_lt k)).view.loc (peer c (kk k) : Thread nD τ) ↦[(rowM (kk k) (kk_lt k)).view.set]{fullShare} f) ∗ reached ER (recvCell (peer c (kk k)) (kk k) (kk_lt k)) 0) := by
  rw [Finset.sdiff_empty, duties_bar, erase_zero_eq_map, bigSep_map]
  exact bigSep_congr fun k _ => payload_bar m c (kk k) ⟨kk_pos k, kk_lt k⟩

local macro "row% " c:term:max j:num : term =>
  `(iprop((∃ f, (rowM $j (of_decide_eq_true (Eq.refl true))).view.loc (peer $c $j : Thread nD τ) ↦[(rowM $j (of_decide_eq_true (Eq.refl true))).view.set]{fullShare} f)
      ∗ reached ER (recvCell (peer $c $j) $j (of_decide_eq_true (Eq.refl true))) 0))

theorem rest_bar_chain (c : Dev nD) : bigSep ((sumRd (F := F) m).duties (barCell c) 0 \ ∅) (fun d => (sumRd (F := F) m).payload (barCell c) 0 d) =
    iprop(row% c 1 ∗ row% c 2 ∗ row% c 3 ∗ row% c 4 ∗ row% c 5 ∗ row% c 6 ∗ row% c 7 ∗ row% c 8 ∗ row% c 9 ∗ row% c 10 ∗ row% c 11 ∗ row% c 12 ∗ row% c 13 ∗ row% c 14 ∗ row% c 15 ∗ row% c 16 ∗ row% c 17 ∗ row% c 18 ∗ row% c 19 ∗ row% c 20 ∗ row% c 21 ∗ row% c 22 ∗ row% c 23 ∗ row% c 24 ∗ row% c 25 ∗ row% c 26 ∗ row% c 27 ∗ row% c 28 ∗ row% c 29 ∗ row% c 30 ∗ row% c 31) := by
  rw [rest_bar, sep31]
  rfl

-- Copy k's send duty returns row 0 at the share lent to it.
theorem payload_send_pts (c : Dev nD) (k : ℕ) (hk : k < 32) (h1 : 1 ≤ k) :
    (sumRd (F := F) m).payload (sendCell c k hk) 0 0
      = ((rowM 0 (by decide)).view.loc (c : Thread nD τ) ↦[(rowM 0 (by decide)).view.set]{q k} (rowFill (S m c)) : sProp 𝕄) :=
  payload_send m c k hk h1 0

-- Copy k lands row 0 of the sender over row k of the device k places on, which is k places after the sender.
theorem payload_recv_out (c : Dev nD) (k : ℕ) (hk : k < 32) (h1 : 1 ≤ k) :
    (sumRd (F := F) m).payload (recvCell (peer c k) k hk) 0 0
      = (iprop(∃ fd, (rowM k hk).view.loc (peer c k : Thread nD τ) ↦[(rowM k hk).view.set]{fullShare}
          ((rowM k hk).view.write (Elt F) fd ((rowM 0 (by decide)).view.read (Elt F) (rowFill (S m c))) Finset.univ)) : sProp 𝕄) := by
  rw [payload_recv m (peer c k) k hk h1 0]; unfold recvPay; rw [back_peer]

end Cert.Kernel.Sum
end
-- ==== Proof.LaunchKernel.lean ====
import proofs.«901085_g7700000000001086_dist_sum_ax0_shard0_i_m2048_n1024_v7x_i32_f32_1_alg».proof.Proof.LevelsKernel
import proofs.«901085_g7700000000001086_dist_sum_ax0_shard0_i_m2048_n1024_v7x_i32_f32_1_alg».proof.Proof.TablesKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev OIx : Type := (Unit ⊕ Fin 31) ⊕ (Unit ⊕ Fin 31)

def osem : OIx → SemLoc sig
  | .inl (.inl _) => .dma (sendS 0 (by decide)).sem
  | .inl (.inr k) => .dma (sendS (kk k) (kk_lt k)).sem
  | .inr (.inl _) => .dma (recvS 0 (by decide)).sem
  | .inr (.inr k) => .dma (recvS (kk k) (kk_lt k)).sem

def oword : OIx → ℕ
  | .inl (.inl _) => 3
  | .inl (.inr k) => 3 + kk k
  | .inr (.inl _) => 35
  | .inr (.inr k) => 35 + kk k

theorem osem_eq (i : OIx) : ∃ d : DmaSem sig, osem i = .dma d ∧ d.val = oword i := by
  rcases i with (_ | k) | (_ | k)
  · exact ⟨_, rfl, sendS_val 0 (by decide)⟩
  · exact ⟨_, rfl, sendS_val _ _⟩
  · exact ⟨_, rfl, recvS_val 0 (by decide)⟩
  · exact ⟨_, rfl, recvS_val _ _⟩

theorem oword_inj : Function.Injective oword := by
  rintro ((_ | k) | (_ | k)) ((_ | l) | (_ | l)) h <;> simp only [oword, kk] at h <;>
    first | rfl | (exfalso; omega) | (congr 2; apply Fin.ext; omega)

theorem dma_scoped : ∀ d : DmaSem sig, (SemLoc.dma d : SemLoc sig).isScoped .tc = true := by decide
theorem stage_word : ∀ (w : Fin cfg0.W) (s : Fin (cfg0.spec w).nbuf), ((cfg0.spec w).sem s).val < 3 := by decide

theorem ownSemFacts : Pipeline.OwnSemFacts cfg0.spec osem where
  isScoped i := by obtain ⟨d, hd, -⟩ := osem_eq i; rw [hd]; exact dma_scoped d
  inj i j h := by
    obtain ⟨d, hd, hv⟩ := osem_eq i
    obtain ⟨e, he, hw⟩ := osem_eq j
    rw [hd, he] at h
    have : d = e := by injection h
    exact oword_inj (by rw [← hv, ← hw, this])
  disj i w s h := by
    obtain ⟨d, hd, hv⟩ := osem_eq i
    rw [hd] at h
    have : d = (cfg0.spec w).sem s := by injection h
    have h3 := stage_word w s
    rw [← this, hv] at h3
    rcases i with (_ | k) | (_ | k) <;> simp only [oword] at h3 <;> omega

theorem ownSems0_eq (c : Dev nD) :
    (Pipeline.ownSems0 (Ix := Unit) (Name := ℕ) (U := UU) (Lvl := ℕ) (Val := Elt F) (τ := τ) osem c : sProp 𝕄)
      = iprop((semVal (sendCell c 0 (by decide)) 0 ∗ bigSep Finset.univ fun k : Fin 31 => semVal (sendCell c (kk k) (kk_lt k)) 0)
          ∗ (semVal (recvCell c 0 (by decide)) 0 ∗ bigSep Finset.univ fun k : Fin 31 => semVal (recvCell c (kk k) (kk_lt k)) 0)) := by
  unfold Pipeline.ownSems0
  rw [bigSep_univ_sum, bigSep_univ_sum, bigSep_univ_sum, bigSep_univ_of_subsingleton (), bigSep_univ_of_subsingleton ()]
  rfl

abbrev CIx : Type := Unit ⊕ (Fin 31 ⊕ Fin 31)

def csem : CIx → SemLoc sig
  | .inl _ => .reg barS
  | .inr (.inl k) => .dma (sendS (kk k) (kk_lt k)).sem
  | .inr (.inr k) => .dma (recvS (kk k) (kk_lt k)).sem

abbrev kcell (ck : Dev nD × CIx) : GSem nD τ sig := ((ck.1 : Thread nD τ), csem ck.2)

theorem csem_inj : Function.Injective csem := by
  have hs : ∀ k l : Fin 31, (sendS (kk k) (kk_lt k)).sem = (sendS (kk l) (kk_lt l)).sem → k = l := fun k l h => by
    have := congrArg Fin.val h; rw [sendS_val, sendS_val] at this; simp only [kk] at this; exact Fin.ext (by omega)
  have hr : ∀ k l : Fin 31, (recvS (kk k) (kk_lt k)).sem = (recvS (kk l) (kk_lt l)).sem → k = l := fun k l h => by
    have := congrArg Fin.val h; rw [recvS_val, recvS_val] at this; simp only [kk] at this; exact Fin.ext (by omega)
  have hsr : ∀ k l : Fin 31, (sendS (kk k) (kk_lt k)).sem ≠ (recvS (kk l) (kk_lt l)).sem := fun k l h => by
    have := congrArg Fin.val h; rw [sendS_val, recvS_val] at this; simp only [kk] at this; have := k.isLt; omega
  intro i j h
  rcases i with _ | k | k <;> rcases j with _ | l | l
  · rfl
  · exact absurd h.symm (dma_ne_bar _)
  · exact absurd h.symm (dma_ne_bar _)
  · exact absurd h (dma_ne_bar _)
  · rw [hs k l (SemLoc.dma.inj h)]
  · exact absurd (SemLoc.dma.inj h) (hsr k l)
  · exact absurd h (dma_ne_bar _)
  · exact absurd (SemLoc.dma.inj h).symm (hsr l k)
  · rw [hr k l (SemLoc.dma.inj h)]

theorem kcell_injective : Function.Injective (kcell : Dev nD × CIx → GSem nD τ sig) := by
  rintro ⟨c, i⟩ ⟨c', i'⟩ h
  have h1 : c = c' := congrArg (fun g : GSem nD τ sig => g.1.1) h
  subst h1
  have h2 : i = i' := csem_inj (congrArg Prod.snd h)
  subst h2; rfl

def sumCells : Finset (GSem nD τ sig) := Finset.univ.map ⟨kcell, kcell_injective⟩

abbrev TIx : Type := Fin 31 ⊕ (Fin 31 ⊕ Fin 31)

def tcell : TIx → CIx
  | .inl _ => .inl ()
  | .inr x => .inr x
def tduty : TIx → Fin 32
  | .inl j => ⟨kk j, kk_lt j⟩
  | .inr _ => 0

abbrev tokOf (cj : Dev nD × TIx) : GSem nD τ sig × ℕ × Fin 32 := (kcell (cj.1, tcell cj.2), 0, tduty cj.2)

theorem tokOf_injective : Function.Injective (tokOf : Dev nD × TIx → GSem nD τ sig × ℕ × Fin 32) := by
  rintro ⟨c, t⟩ ⟨c', t'⟩ h
  have h1 := kcell_injective (congrArg (fun x : GSem nD τ sig × ℕ × Fin 32 => x.1) h)
  have h2 : tduty t = tduty t' := congrArg (fun x : GSem nD τ sig × ℕ × Fin 32 => x.2.2) h
  have hc : c = c' := congrArg Prod.fst h1
  have ht : tcell t = tcell t' := congrArg Prod.snd h1
  subst hc
  have : t = t' := by
    rcases t with j | x <;> rcases t' with j' | x' <;> simp only [tcell, tduty] at ht h2
    · have := congrArg Fin.val h2; simp only [kk] at this; congr 1; apply Fin.ext; omega
    · cases ht
    · cases ht
    · injection ht with ht; rw [ht]
  subst this; rfl

def sumToks : Finset (GSem nD τ sig × ℕ × Fin 32) := Finset.univ.map ⟨tokOf, tokOf_injective⟩

def u₀ : UU :=
  (initOf (Pipeline.cells cfgs cellOf_inj) (Pipeline.launchToks cfgs cellOf_inj), initOf sumCells sumToks)

def toks (c : Dev nD) : sProp 𝕄 :=
  iprop((bigSep Finset.univ fun j : Fin 31 => dutyTok ER (barCell c) 0 (⟨kk j, kk_lt j⟩ : Fin 32))
    ∗ (bigSep Finset.univ fun k : Fin 31 => dutyTok ER (sendCell c (kk k) (kk_lt k)) 0 (0 : Fin 32))
    ∗ (bigSep Finset.univ fun k : Fin 31 => dutyTok ER (recvCell c (kk k) (kk_lt k)) 0 (0 : Fin 32)))

def G (c : Dev nD) : sProp 𝕄 :=
  iprop((bigSep Finset.univ fun i : CIx => roundState ER (sumRd m) (kcell (c, i)) 0)
    ∗ (bigSep Finset.univ fun i : CIx => iprop(atPos ER (kcell (c, i)) 0 ∅ 0 ∗ reached ER (kcell (c, i)) 0)) ∗ toks c)

theorem bigSep_CIx (Φ : CIx → sProp 𝕄) :
    bigSep Finset.univ Φ = iprop(Φ (.inl ()) ∗ (bigSep Finset.univ fun k : Fin 31 => Φ (.inr (.inl k))) ∗ (bigSep Finset.univ fun k : Fin 31 => Φ (.inr (.inr k)))) := by
  rw [bigSep_univ_sum, bigSep_univ_sum, bigSep_univ_of_subsingleton ()]; rfl

theorem bigSep_TIx (Φ : TIx → sProp 𝕄) :
    bigSep Finset.univ Φ = iprop((bigSep Finset.univ fun j : Fin 31 => Φ (.inl j)) ∗ (bigSep Finset.univ fun k : Fin 31 => Φ (.inr (.inl k))) ∗ (bigSep Finset.univ fun k : Fin 31 => Φ (.inr (.inr k)))) := by
  rw [bigSep_univ_sum, bigSep_univ_sum]; rfl

theorem fund_sum : BI.own (ER (initOf sumCells sumToks)) ⊢ (|==> bigSep Finset.univ (G m) : sProp 𝕄) := by
  have hX (Φ : GSem nD τ sig → sProp 𝕄) : bigSep sumCells Φ = bigSep Finset.univ fun c : Dev nD => bigSep Finset.univ fun i : CIx => Φ (kcell (c, i)) := by
    unfold sumCells; rw [bigSep_map, bigSep_univ_prod]; rfl
  have hT : bigSep sumToks (fun x => (dutyTok ER x.1 x.2.1 x.2.2 : sProp 𝕄)) = bigSep Finset.univ fun c : Dev nD => toks c := by
    unfold sumToks; rw [bigSep_map, bigSep_univ_prod]
    exact bigSep_congr fun c _ => by unfold toks; rw [bigSep_TIx]; rfl
  iintro HX
  imod (Rounds.fund ER (sumRd m) sumCells sumToks) $$ HX with ⟨Hst, Hr, Hat, Htok⟩
  imodintro
  ihave Hst' := (Entails.of_eq (hX fun g => roundState ER (sumRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun i : CIx => semVal (kcell (c, i)) 0) ∗ idleSems c) : sProp 𝕄) := by
  rw [ownSems0_eq, unscopedSems0_eq, bigSep_CIx]
  unfold idleSems
  iintro ⟨⟨⟨HS0, HS⟩, ⟨HR0, HR⟩⟩, HB⟩
  isplitl [HB HS HR]
  · isplitl [HB]; · iexact HB
    isplitl [HS]; · iexact HS
    iexact HR
  · isplitl [HS0]; · iexact HS0
    iexact HR0

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sumRd m) κ (kcell (c, i))))
          ∗ (bigSep Finset.univ fun i : CIx => iprop(atPos ER (kcell (c, i)) 0 ∅ 0 ∗ reached ER (kcell (c, i)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun i : CIx => semVal (kcell (c, i)) 0) ∗ bigSep Finset.univ fun i : CIx => roundState ER (sumRd m) (kcell (c, i)) 0)
      ⊢ (|={Set.univ}=> bigSep Finset.univ fun i : CIx => iprop(∃ κ : ℕ, cellInv ER (sumRd m) κ (kcell (c, i))) : sProp 𝕄) from by
        rw [← bigSep_sep']
        exact (bigSep_mono fun i _ => (Rounds.body_intro ER (sumRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

def shift (k : ℕ) : Dev nD ≃ Dev nD := ⟨fun c => peer c k, fun c => back c k, fun c => back_peer c k, fun c => peer_back c k⟩

theorem ring_deal (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (peer c (kk k)) k :=
  (bigSep_univ_comm Φ).trans ((bigSep_congr fun k _ => bigSep_univ_equiv (shift (kk k)) (fun c => Φ c k)).trans
    (bigSep_univ_comm (fun (c : Dev nD) (k : Fin 31) => Φ (peer c (kk k)) k)).symm)

theorem negD_rev (k : Fin 31) : (⟨kk (Fin.revPerm k), kk_lt (Fin.revPerm k)⟩ : Fin 32) = negD k := by
  apply Fin.ext
  show kk (Fin.rev k) = 32 - kk k
  unfold kk; rw [Fin.val_rev]; have := k.isLt; omega

theorem sig_around :
    (bigSep Finset.univ fun c : Dev nD => bigSep Finset.univ fun j : Fin 31 => (dutyTok ER (barCell c) 0 (⟨kk j, kk_lt j⟩ : Fin 32) : sProp 𝕄))
      = bigSep Finset.univ fun c : Dev nD => sigToks c := by
  have e (c : Dev nD) : (bigSep Finset.univ fun j : Fin 31 => (dutyTok ER (barCell c) 0 (⟨kk j, kk_lt j⟩ : Fin 32) : sProp 𝕄))
      = bigSep Finset.univ fun k : Fin 31 => dutyTok ER (barCell c) 0 (negD k) :=
    (bigSep_univ_equiv Fin.revPerm fun j : Fin 31 => (dutyTok ER (barCell c) 0 (⟨kk j, kk_lt j⟩ : Fin 32) : sProp 𝕄)).trans
      (bigSep_congr fun k _ => by rw [negD_rev])
  rw [bigSep_congr (s := Finset.univ) fun c _ => e c, ring_deal fun c k => (dutyTok ER (barCell c) 0 (negD k) : sProp 𝕄)]
  rfl

theorem recv_around :
    (bigSep Finset.univ fun c : Dev nD => bigSep Finset.univ fun k : Fin 31 => (dutyTok ER (recvCell c (kk k) (kk_lt k)) 0 (0 : Fin 32) : sProp 𝕄))
      = bigSep Finset.univ fun c : Dev nD => bigSep Finset.univ fun k : Fin 31 => dutyTok ER (recvCell (peer c (kk k)) (kk k) (kk_lt k)) 0 (0 : Fin 32) :=
  ring_deal fun c k => (dutyTok ER (recvCell c (kk k) (kk_lt k)) 0 (0 : Fin 32) : sProp 𝕄)

theorem toks_around :
    (bigSep Finset.univ fun c : Dev nD => (toks c : sProp 𝕄)) ⊢ bigSep Finset.univ fun c : Dev nD => iprop(sigToks c ∗ xferToks c) := by
  unfold toks xferToks
  rw [bigSep_sep', bigSep_sep', bigSep_sep', bigSep_sep', sig_around, recv_around]
  iintro ⟨H1, H2, H3⟩
  isplitl [H1]; · iexact H1
  isplitl [H3]; · iexact H3
  iexact H2

theorem cells_eq (Φ : GSem nD τ sig → sProp 𝕄) : bigSep sumCells Φ = bigSep Finset.univ fun ck : Dev nD × CIx => Φ (kcell ck) := by
  unfold sumCells; rw [bigSep_map]; rfl

def records (K : GSem nD τ sig → ℕ) : sProp 𝕄 :=
  iprop((bigSep Finset.univ fun ck : Dev nD × CIx => cellInv ER (sumRd m) (K (kcell ck)) (kcell ck))
    ∗ bigSep Finset.univ fun ck : Dev nD × CIx => reached ER (kcell ck) 0)

instance records_persistent (K : GSem nD τ sig → ℕ) : BI.Persistent (records m K) := by unfold records; infer_instance

theorem inv_at (K : GSem nD τ sig → ℕ) (ck : Dev nD × CIx) :
    records m K ⊢ cellInv ER (sumRd m) (K (kcell ck)) (kcell ck) := by
  unfold records; iintro ⟨#HI, -⟩
  iapply (show (bigSep Finset.univ fun ck : Dev nD × CIx => (cellInv ER (sumRd m) (K (kcell ck)) (kcell ck) : sProp 𝕄))
    ⊢ cellInv ER (sumRd m) (K (kcell ck)) (kcell ck) from bigSep_elim (Finset.mem_univ ck))
  iexact HI
theorem reached_at (K : GSem nD τ sig → ℕ) (ck : Dev nD × CIx) : records m K ⊢ reached ER (kcell ck) 0 := by
  unfold records; iintro ⟨-, #HR⟩
  iapply (show (bigSep Finset.univ fun ck : Dev nD × CIx => (reached ER (kcell ck) 0 : sProp 𝕄)) ⊢ reached ER (kcell ck) 0 from
    bigSep_elim (Finset.mem_univ ck))
  iexact HR

theorem invs_intro (K : GSem nD τ sig → ℕ) (c : Dev nD) : records m K ⊢ invs m K c := by
  unfold invs
  iintro #H
  isplitr; · iapply (inv_at m K (c, .inl ())); iexact H
  isplitr; · iapply (bigSep_intro_persistent fun (k : Fin 31) _ => inv_at m K (c, .inr (.inl k))); iexact H
  isplitr; · iapply (bigSep_intro_persistent fun (k : Fin 31) _ => inv_at m K (c, .inr (.inr k))); iexact H
  isplitr; · iapply (bigSep_intro_persistent fun (k : Fin 31) _ => inv_at m K (peer c (kk k), .inl ())); iexact H
  iapply (bigSep_intro_persistent fun (k : Fin 31) _ => inv_at m K (peer c (kk k), .inr (.inr k))); iexact H

theorem rch_intro (K : GSem nD τ sig → ℕ) (c : Dev nD) : records m K ⊢ rch c := by
  unfold rch
  iintro #H
  isplitr; · iapply (bigSep_intro_persistent fun (k : Fin 31) _ => reached_at m K (peer c (kk k), .inl ())); iexact H
  isplitr; · iapply (bigSep_intro_persistent fun (k : Fin 31) _ => reached_at m K (peer c (kk k), .inr (.inr k))); iexact H
  isplitr; · iapply (bigSep_intro_persistent fun (k : Fin 31) _ => reached_at m K (c, .inr (.inl k))); iexact H
  iapply (bigSep_intro_persistent fun (k : Fin 31) _ => reached_at m K (c, .inr (.inr k))); iexact H

def linear (c : Dev nD) : sProp 𝕄 := iprop(pos c ∗ (sigToks c ∗ xferToks c) ∗ idleSems c)

def G' (c : Dev nD) : sProp 𝕄 := iprop((∃ K, invs m K c ∗ pos c ∗ rch c ∗ sigToks c ∗ xferToks c) ∗ idleSems c)

theorem ghost_intro (K : GSem nD τ sig → ℕ) (c : Dev nD) : iprop(records m K ∗ linear c) ⊢ G' m c := by
  unfold linear G'
  iintro ⟨#HR, Hpos, ⟨Hsig, Hxfer⟩, Hidle⟩
  isplitr [Hidle]
  · iexists K
    isplitr; · iapply (invs_intro m K c); iexact HR
    isplitl [Hpos]; · iexact Hpos
    isplitr; · iapply (rch_intro m K c); iexact HR
    isplitl [Hsig]; · iexact Hsig
    iexact Hxfer
  · iexact Hidle

theorem pos_eq (c : Dev nD) : (bigSep Finset.univ fun i : CIx => (atPos ER (kcell (c, i)) 0 ∅ 0 : sProp 𝕄)) = pos c := by
  unfold pos; rw [bigSep_CIx]; rfl

theorem regroup :
    (bigSep Finset.univ fun c : Dev nD => iprop((bigSep Finset.univ fun i : CIx => iprop(∃ κ : ℕ, cellInv ER (sumRd m) κ (kcell (c, i))))
          ∗ (bigSep Finset.univ fun i : CIx => iprop(atPos ER (kcell (c, i)) 0 ∅ 0 ∗ reached ER (kcell (c, i)) 0)) ∗ toks c ∗ idleSems c) : sProp 𝕄)
      ⊢ bigSep Finset.univ (G' m) := by
  rw [bigSep_sep', bigSep_sep', bigSep_sep', ← bigSep_univ_prod (fun ck : Dev nD × CIx => iprop(∃ κ : ℕ, cellInv ER (sumRd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄)),
    bigSep_congr (s := Finset.univ) (fun (c : Dev nD) _ => pos_eq (F := F) c),
    ← cells_eq (fun g => iprop(∃ κ : ℕ, cellInv ER (sumRd m) κ g))]
  have hlin : (bigSep Finset.univ fun c : Dev nD => (linear c : sProp 𝕄))
      = iprop((bigSep Finset.univ fun c : Dev nD => pos c) ∗ (bigSep Finset.univ fun c : Dev nD => iprop(sigToks c ∗ xferToks c))
          ∗ bigSep Finset.univ fun c : Dev nD => idleSems c) := by
    unfold linear; rw [bigSep_sep', bigSep_sep']
  iintro ⟨HI, ⟨Hat, #HR⟩, Htok, Hidle⟩
  ihave HK := (BI.bigSep_exists_pi sumCells (fun (g : GSem nD τ sig) (κ : ℕ) => (cellInv ER (sumRd m) κ g : sProp 𝕄))) $$ HI
  icases HK with ⟨%K, HI⟩
  ihave #HI' := (Entails.of_eq (cells_eq (fun g => (cellInv ER (sumRd m) (K g) g : sProp 𝕄)))) $$ HI
  ihave Htk := (toks_around (F := F)) $$ Htok
  iapply (bigSep_with_persistent (R := records m K) fun c _ => ghost_intro m K c)
  isplitr
  · unfold records; isplitl; · iexact HI'
    iexact HR
  · iapply (Entails.of_eq hlin.symm)
    isplitl [Hat]; · iexact Hat
    isplitl [Htk]; · iexact Htk
    iexact Hidle

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem tallyAt_nsmul (g : GSem nD τ sig) (n : ℕ) : n • (tallyAt g () 1 : CellTallies nD τ sig Unit) = tallyAt g () n := by
  induction n with
  | zero => rw [zero_smul]; unfold tallyAt tallyOn; rw [Finsupp.single_zero, Pi.single_zero]
  | succ n ih => rw [succ_nsmul, ih, tallyAt_add]

theorem creds_of_launch (c : Dev nD) : (Pipeline.launchCred O₀ c : sProp 𝕄) ⊢ creds c := by
  have hR : (Pipeline.launchCred Orecv c : sProp 𝕄)
      = bigSep Finset.univ fun k : Fin 31 => Pipeline.launchCred (fun d : Dev nD => (tallyAt (recvCell (peer d (kk k)) (kk k) (kk_lt k)) () N : CellTallies nD τ sig Unit)) c :=
    Pipeline.launchCred_sum Finset.univ (fun (k : Fin 31) (d : Dev nD) => (tallyAt (recvCell (peer d (kk k)) (kk k) (kk_lt k)) () N : CellTallies nD τ sig Unit)) c
  have hB : (Pipeline.launchCred Obar c : sProp 𝕄)
      = bigSep Finset.univ fun k : Fin 31 => Pipeline.launchCred (fun d : Dev nD => (tallyAt (barCell (peer d (kk k))) () 1 : CellTallies nD τ sig Unit)) c :=
    Pipeline.launchCred_sum Finset.univ (fun (k : Fin 31) (d : Dev nD) => (tallyAt (barCell (peer d (kk k))) () 1 : CellTallies nD τ sig Unit)) c
  have h31 : (tallyAt (barCell c) () 31 : CellTallies nD τ sig Unit) = ∑ k : Fin 31, tallyAt (barCell c) () 1 := by
    rw [Finset.sum_const, Finset.card_univ, Fintype.card_fin, tallyAt_nsmul]
  rw [show (Pipeline.launchCred O₀ c : sProp 𝕄) = Pipeline.launchCred (fun d => Orecv d + Obar d) c from rfl, Pipeline.launchCred_add, hR, hB]
  unfold creds
  rw [h31, Pipeline.cred_finsetSum]
  have eR : (bigSep Finset.univ fun k : Fin 31 => (Pipeline.launchCred (fun d : Dev nD => (tallyAt (recvCell (peer d (kk k)) (kk k) (kk_lt k)) () N : CellTallies nD τ sig Unit)) c : sProp 𝕄))
      ⊢ bigSep Finset.univ fun k : Fin 31 => cred (tallyAt (recvCell c (kk k) (kk_lt k)) () N) :=
    bigSep_mono fun k _ =>
      Pipeline.launchCred_tallyAt (SemLoc.dma (recvS (kk k) (kk_lt k)).sem) (fun d => peer d (kk k)) (fun d => back d (kk k))
        (fun c => peer_back c (kk k)) (fun d => back_peer d (kk k)) () N c
  have eB : (bigSep Finset.univ fun k : Fin 31 => (Pipeline.launchCred (fun d : Dev nD => (tallyAt (barCell (peer d (kk k))) () 1 : CellTallies nD τ sig Unit)) c : sProp 𝕄))
      ⊢ bigSep Finset.univ fun k : Fin 31 => cred (tallyAt (barCell c) () 1) :=
    bigSep_mono fun k _ =>
      Pipeline.launchCred_tallyAt (SemLoc.reg barS) (fun d => peer d (kk k)) (fun d => back d (kk k))
        (fun c => peer_back c (kk k)) (fun d => back_peer d (kk k)) () 1 c
  iintro ⟨HR, HB⟩
  isplitl [HB]
  · iapply eB; iexact HB
  · iapply eR; iexact HR

def X (c : Dev nD) : sProp 𝕄 :=
  iprop((∃ K, invs m K c ∗ pos c ∗ rch c ∗ sigToks c ∗ xferToks c) ∗ creds c ∗ levAts L lv ∗ idleSems c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  iintro ⟨-, Hlev, Hcr, -, HG⟩
  ihave Hc := (creds_of_launch (F := F) c) $$ Hcr
  imodintro
  unfold X G'
  icases HG with ⟨HK, Hidle⟩
  isplitl
  · isplitl [HK]; · iexact HK
    isplitl [Hc]; · iexact Hc
    isplitl [Hlev]; · iexact Hlev
    iexact Hidle
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X scrPts
  iintro ⟨⟨HK, Hc, Hlev, Hidle⟩, -, ⟨%f, Hr⟩⟩
  isplitl [HK]; · iexact HK
  isplitl [Hc]; · iexact Hc
  isplitl [Hlev]; · iexact Hlev
  isplitl [Hidle]; · iexact Hidle
  iexists f; iexact Hr

theorem phiN_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φend m c from rfl, scopedRest0_eq, ownSems0_eq]
  unfold Φend idleSems scrPts
  iintro ⟨Hr, ⟨HS0, HR0⟩, HS, HR⟩
  isplitr; · iempintro
  isplitl [HS0 HS HR0 HR]
  · isplitl [HS0 HS]
    · isplitl [HS0]; · iexact HS0
      iexact HS
    · isplitl [HR0]; · iexact HR0
      iexact HR
  iexists (full m c); iexact Hr

theorem stage_low : ∀ (w : Fin cfg0.W) (s : Fin (cfg0.win w).nbuf), isRecvSem (SemLoc.dma ((cfg0.win w).sem s) : SemLoc sig) = false := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | t, ht⟩
      · exact Or.inl rfl
      · by_cases h : t < 7
        · exact Or.inr (Or.inl (if_pos h))
        · exact Or.inr (Or.inr (if_neg h)))

theorem share_eq (c : Dev nD) (w : Fin cfg0.W) : (dats m ρ 0 c).share w = fullShare := by unfold Dat.share; split <;> rfl

end Launch

open Launch

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_sum m) $$ HX with HG
      imodintro
      isplitl [HP] <;> iassumption)
    (hglob := glob m)
    (hA := fun _ _ => rfl) (hpf := fun _ k => k.elim0)
    (X := X m) (Y := fun _ => iprop(emp)) (Z := fun _ => iprop(emp))
    (hX := start_intro m ρ) (hin := phi0_intro m ρ) (hout := phiN_exit m ρ)
    (QY := fun _ _ => True)
    (hY := fun c s' => by
      iintro ⟨-, -, HSI⟩
      imodintro
      isplitr; · ipureintro; trivial
      iexact HSI)
    (hQ := fun _ h c w => (h c).1 w)

end Cert.Kernel.Sum
end
-- ==== Proof.FinalKernel.lean ====
import proofs.«901085_g7700000000001086_dist_sum_ax0_shard0_i_m2048_n1024_v7x_i32_f32_1_alg».proof.Proof.LaunchKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem final_x (m : (ℓ : Loc nD τ sig) → Buf (Elt F) ℓ) (ρ : Dev nD → PrngReg) (c : Dev nD) :
    (dats (F := F) m ρ 0 c).arrAt (0 : Fin 2) cfg0.N = m ((c : Thread nD τ).loc main_arg0) :=
  ((dats (F := F) m ρ 0 c).arrAt_in (0 : Fin 2) rfl cfg0.N).trans rfl

theorem seven_lt : 7 < cfg0.N := by rw [cfg0_N]; decide

theorem out_off_zero :
    (fun a => (win0_1.index (⟨7, seven_lt⟩ : Fin cfg0.N)) a * main_v1.ty.shape.size a) = fun _ => 0 :=
  funext fun a => by fin_cases a <;> decide

theorem final_out (m : (ℓ : Loc nD τ sig) → Buf (Elt F) ℓ) (ρ : Dev nD → PrngReg) (c : Dev nD) :
    (dats (F := F) m ρ 0 c).arrAt (1 : Fin 2) cfg0.N = outAt m c := by
  have hf : (cfg0.win 1).flush (⟨7, seven_lt⟩ : Fin cfg0.N) = true := (flush0_1 ⟨7, seven_lt⟩).mpr rfl
  have hs := (dats (F := F) m ρ 0 c).arrAt_succ (1 : Fin 2) ⟨7, seven_lt⟩
  rw [if_pos hf] at hs
  refine (congrArg ((dats (F := F) m ρ 0 c).arrAt (1 : Fin 2)) cfg0_N).trans (hs.trans ?_)
  exact Memref.write_access_unit_zero_univ (Elt F) main_v1 out_off_zero (fun a => by fin_cases a <;> decide) _ _

theorem run_values (m : (ℓ : Loc nD τ sig) → Buf (Elt F) ℓ) (ρ : Dev nD → PrngReg)
    (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono
    (fun r h c => ⟨(h c (1 : Fin 2)).trans (final_out m ρ c), (h c (0 : Fin 2)).trans (final_x m ρ c)⟩)
    (run_main m ρ hbody)

end Cert.Kernel.Sum
end
-- ==== Proof.Oblig.lean ====
import proofs.«901085_g7700000000001086_dist_sum_ax0_shard0_i_m2048_n1024_v7x_i32_f32_1_alg».proof.Proof.Data

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ObligAt (c : Dev nD) (t : Fin cfg0.N) : Prop :=
  iprop((dats (F := F) m ρ 0 c).Φ t.castSucc ∗ (dats (F := F) m ρ 0 c).owesAt () t.castSucc
      ∗ bigSep Finset.univ fun w : Fin cfg0.W =>
          iprop(∃ d, owns (Ix := Unit) (Name := ℕ) (U := UU) (Lvl := ℕ) (c : Thread nD τ) ((cfg0.win w).stage (cfg0.slots t w)) fullShare ((dats (F := F) m ρ 0 c).before w t d)))
    ⊢ wp frame (wpE (defs₀ (F := F)) 𝒱₀ (c : Thread nD τ) none) Set.univ (defs₀ (F := F) .tc cfg0.body (cfg0.bodyArgs t (cfg0.slots t))) fun _ =>
        iprop((dats (F := F) m ρ 0 c).Φ t.succ ∗ (dats (F := F) m ρ 0 c).owesAt () t.succ
          ∗ bigSep Finset.univ fun w : Fin cfg0.W =>
              match cfg0.idle w (cfg0.grid.coords t) with
              | true =>
                match (cfg0.win w).flush t with
                | false => iprop(∃ d, owns (Ix := Unit) (Name := ℕ) (U := UU) (Lvl := ℕ) (c : Thread nD τ) ((cfg0.win w).stage (cfg0.slots t w)) fullShare ((dats (F := F) m ρ 0 c).before w t d))
                | true => owns (Ix := Unit) (Name := ℕ) (U := UU) (Lvl := ℕ) (c : Thread nD τ) ((cfg0.win w).stage (cfg0.slots t w)) fullShare ((dats (F := F) m ρ 0 c).after w t)
              | false => owns (Ix := Unit) (Name := ℕ) (U := UU) (Lvl := ℕ) (c : Thread nD τ) ((cfg0.win w).stage (cfg0.slots t w)) fullShare ((dats (F := F) m ρ 0 c).after w t))

theorem obligation_of (c : Dev nD) (h : ∀ t : Fin cfg0.N, ObligAt m ρ c t) :
    BodyObligation (dats (F := F) m ρ 0 c) (defs₀ (F := F)) 𝒱₀ () Set.univ := h

end Cert.KernelIdeal.Sum
end
-- ==== Proof.Rows.lean ====
import proofs.«901085_g7700000000001086_dist_sum_ax0_shard0_i_m2048_n1024_v7x_i32_f32_1_alg».proof.Proof.Data
import Idealize.ShloMosaic.Lib.Pipeline.Value
import Idealize.ShloMosaic.Rules.PointsTo

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem zero_lt32 : 0 < 32 := by decide

abbrev r0 : Rect S32x1024 := Rect.unit (s := S32x1024) ![0, 0] S1x1024.size inb_S32x1024_S1x1024_0_0

abbrev rAll : Rect S32x1024 := Rect.unit (s := S32x1024) ![0, 0] S32x1024.size inb_S32x1024_S32x1024_0_0

abbrev rowR (k : ℕ) (hk : k < 32) : Rect S32x1024 := Rect.unit (s := S32x1024) ![k, 0] S1x1024.size (inb_row k hk)

theorem row_set (k : ℕ) (hk : k < 32) : (rowM k hk).view.set = (rowR k hk).set := by
  show ((scr.view.slice (rowR k hk)).reshape S1024 _).set = _
  rw [View.set_reshape]
  exact View.set_slice_whole _ _

theorem mem_row (k : ℕ) (hk : k < 32) (i : (cc0_scratch0 : Ref sig .tc).ty.Idx) :
    i ∈ (rowM k hk).view.set ↔ (i 0).val = k := by
  rw [row_set, Rect.mem_set_unit]
  constructor
  · intro h
    have h0 := h 0
    change k ≤ (i 0).val ∧ (i 0).val < k + 1 at h0
    omega
  · intro h a
    fin_cases a
    · show k ≤ (i 0).val ∧ (i 0).val < k + 1
      omega
    · have h1 : (i 1).val < 1024 := (i 1).isLt
      show 0 ≤ (i 1).val ∧ (i 1).val < 0 + 1024
      omega

theorem colIdx_row_emb (k : ℕ) (hk : k < 32) (y : S1x1024.Idx) : colIdx ((rowR k hk).emb y) = y := by
  funext a
  fin_cases a
  · apply Fin.ext
    have h0 : (y 0).val < 1 := (y 0).isLt
    show 0 = (y 0).val
    omega
  · apply Fin.ext
    show 0 + 1 * (y 1).val = (y 1).val
    omega

theorem r0_set : ((scr.access r0 : View sig .tc _ _ _).set) = (rowM 0 zero_lt32).view.set :=
  (View.set_reshape (scr.view.slice r0) _).symm

theorem r0_store_sub : (scr.access r0 : View sig .tc _ _ _).setOn Finset.univ ⊆ (rowM 0 zero_lt32).view.set := by
  rw [View.setOn_univ, r0_set]

theorem r0_load_sub : (scr : Memref sig .tc .vmem S32x1024 .f32).view.setOn r0.toLoadRect.set ⊆ (rowM 0 zero_lt32).view.set := by
  rw [← r0_set, View.set_slice]; exact Finset.Subset.refl _

theorem read_row0 (v : FVec F S1x1024 .f32) :
    (scr : Memref sig .tc .vmem S32x1024 .f32).view.readAt (Elt F) r0.toLoadRect (rowFill v) = v := by
  funext x
  exact congrArg v (colIdx_row_emb 0 zero_lt32 x)

theorem write_row0 (f : ScrC F) (v : FVec F S1x1024 .f32) (i : (cc0_scratch0 : Ref sig .tc).ty.Idx)
    (hi : i ∈ (rowM 0 zero_lt32).view.set) :
    ((scr.access r0 : View sig .tc _ _ _).write (Elt F) f v Finset.univ) i = rowFill v i := by
  rw [← r0_set] at hi
  obtain ⟨y, rfl⟩ := View.exists_emb_of_mem_set _ hi
  rw [View.write_emb_of_mem _ _ (Finset.mem_univ y)]
  show v y = v (colIdx ((rowR 0 zero_lt32).emb y))
  rw [colIdx_row_emb]

theorem row0Pts_write_eq (c : Dev nD) (f : ScrC F) (v : FVec F S1x1024 .f32) :
    (row0Pts c ((scr.access r0 : View sig .tc _ _ _).write (Elt F) f v Finset.univ) : sProp 𝕄) = row0Pts c (rowFill v) := by
  unfold row0Pts
  exact BI.Region.is_congr fun i hi => write_row0 f v i hi

theorem colIdx_rowM_emb (k : ℕ) (hk : k < 32) (y : S1024.Idx) :
    colIdx ((rowM k hk).view.emb y) = Shape.reshapeEquiv squeezes_S1x1024_S1024.numel_eq y :=
  colIdx_row_emb k hk _

theorem landed_row (k : ℕ) (hk : k < 32) (fd : ScrC F) (v : FVec F S1x1024 .f32) (i : (cc0_scratch0 : Ref sig .tc).ty.Idx)
    (hi : i ∈ (rowM k hk).view.set) :
    ((rowM k hk).view.write (Elt F) fd ((rowM 0 zero_lt32).view.read (Elt F) (rowFill v)) Finset.univ) i = rowFill v i := by
  obtain ⟨y, rfl⟩ := View.exists_emb_of_mem_set _ hi
  rw [View.write_emb_of_mem _ _ (Finset.mem_univ y)]
  show v (colIdx ((rowM 0 zero_lt32).view.emb y)) = v (colIdx ((rowM k hk).view.emb y))
  rw [colIdx_rowM_emb, colIdx_rowM_emb]

theorem full_row (m : (ℓ : Loc nD τ sig) → Buf (Elt F) ℓ) (c : Dev nD) (k : ℕ) (hk : k < 32)
    (i : (cc0_scratch0 : Ref sig .tc).ty.Idx) (hi : i ∈ (rowM k hk).view.set) :
    full m c i = rowFill (S m (back c k)) i := by
  have h : (i 0).val = k := (mem_row k hk i).mp hi
  show S m (back c (i 0).val) (colIdx i) = S m (back c k) (colIdx i)
  rw [h]

theorem recvPay_full (m : (ℓ : Loc nD τ sig) → Buf (Elt F) ℓ) (c : Dev nD) (k : ℕ) (hk : k < 32) :
    recvPay m c k hk
      ⊢ ((rowM k hk).view.loc (c : Thread nD τ) ↦[(rowM k hk).view.set]{fullShare} (full m c) : sProp 𝕄) := by
  unfold recvPay
  refine exists_elim fun fd => Entails.of_eq ?_
  exact BI.Region.is_congr fun i hi => (landed_row k hk fd _ i hi).trans (full_row m c k hk i hi).symm

theorem row0_full_eq (m : (ℓ : Loc nD τ sig) → Buf (Elt F) ℓ) (c : Dev nD) :
    (row0Pts c (rowFill (S m c)) : sProp 𝕄)
      = ((rowM 0 zero_lt32).view.loc (c : Thread nD τ) ↦[(rowM 0 zero_lt32).view.set]{fullShare} (full m c)) := by
  unfold row0Pts
  refine BI.Region.is_congr fun i hi => ?_
  rw [full_row m c 0 zero_lt32 i hi, back_zero]

theorem row0_full (m : (ℓ : Loc nD τ sig) → Buf (Elt F) ℓ) (c : Dev nD) :
    row0Pts c (rowFill (S m c))
      ⊣⊢ ((rowM 0 zero_lt32).view.loc (c : Thread nD τ) ↦[(rowM 0 zero_lt32).view.set]{fullShare} (full m c) : sProp 𝕄) := by
  rw [row0_full_eq]

theorem rest_rows (c : Dev nD) :
    (Finset.univ \ (rowM 0 zero_lt32).view.set : Finset (Idx ((c : Thread nD τ).loc cc0_scratch0)))
      = Finset.univ.biUnion fun k : Fin 31 => (rowM (kk k) (kk_lt k)).view.set := by
  ext i
  have hi : (i 0).val < 32 := (i 0).isLt
  rw [Finset.mem_sdiff, Finset.mem_biUnion]
  constructor
  · rintro ⟨-, h⟩
    have h0 : (i 0).val ≠ 0 := fun e => h ((mem_row 0 zero_lt32 i).mpr e)
    refine ⟨⟨(i 0).val - 1, by omega⟩, Finset.mem_univ _, (mem_row _ _ i).mpr ?_⟩
    show (i 0).val = (i 0).val - 1 + 1
    omega
  · rintro ⟨k, -, hk⟩
    have hk' : (i 0).val = kk k := (mem_row _ _ i).mp hk
    refine ⟨Finset.mem_univ _, fun h => ?_⟩
    have h0 : (i 0).val = 0 := (mem_row 0 zero_lt32 i).mp h
    have := kk_pos k
    omega

theorem rows_disjoint (k k' : Fin 31) (h : k ≠ k') :
    Disjoint (rowM (kk k) (kk_lt k)).view.set (rowM (kk k') (kk_lt k')).view.set := by
  rw [Finset.disjoint_left]
  intro i hi hi'
  rw [mem_row] at hi hi'
  apply h
  apply Fin.ext
  unfold kk at hi hi'
  omega

theorem scr_rows (c : Dev nD) (f : ScrC F) :
    scrPts c f ⊣⊢ (iprop(row0Pts c f ∗ bigSep Finset.univ fun k : Fin 31 =>
      (rowM (kk k) (kk_lt k)).view.loc (c : Thread nD τ) ↦[(rowM (kk k) (kk_lt k)).view.set]{fullShare} f) : sProp 𝕄) := by
  have hsplit : (scrPts c f : sProp 𝕄)
      ⊣⊢ iprop(row0Pts c f ∗ ((c : Thread nD τ).loc cc0_scratch0) ↦[Finset.univ \ (rowM 0 zero_lt32).view.set]{fullShare} f) :=
    pointsTo_split_subset (Finset.subset_univ _)
  have hrest : (((c : Thread nD τ).loc cc0_scratch0) ↦[Finset.univ \ (rowM 0 zero_lt32).view.set]{fullShare} f : sProp 𝕄)
      = bigSep Finset.univ fun k : Fin 31 =>
        (rowM (kk k) (kk_lt k)).view.loc (c : Thread nD τ) ↦[(rowM (kk k) (kk_lt k)).view.set]{fullShare} f := by
    rw [rest_rows c]
    exact pointsTo_biUnion (ℓ := (c : Thread nD τ).loc cc0_scratch0) (q := fullShare) (f := f) Finset.univ
      (fun k : Fin 31 => (rowM (kk k) (kk_lt k)).view.set) fun k _ k' _ h => rows_disjoint k k' h
  rw [← hrest]
  exact hsplit

theorem row0_share (c : Dev nD) (f : ScrC F) (k : ℕ) :
    ((rowM 0 zero_lt32).view.loc (c : Thread nD τ) ↦[(rowM 0 zero_lt32).view.set]{qrest k} f : sProp 𝕄)
      ⊣⊢ iprop(((rowM 0 zero_lt32).view.loc (c : Thread nD τ) ↦[(rowM 0 zero_lt32).view.set]{q (k + 1)} f)
        ∗ ((rowM 0 zero_lt32).view.loc (c : Thread nD τ) ↦[(rowM 0 zero_lt32).view.set]{qrest (k + 1)} f)) := by
  show _ ⊣⊢ iprop(((rowM 0 zero_lt32).view.loc (c : Thread nD τ) ↦[(rowM 0 zero_lt32).view.set]{(qrest k).left} f)
        ∗ ((rowM 0 zero_lt32).view.loc (c : Thread nD τ) ↦[(rowM 0 zero_lt32).view.set]{(qrest k).right} f))
  exact pointsTo_share (PosShare.mem_left_op_right (qrest k))

theorem read_all (f : ScrC F) :
    (scr : Memref sig .tc .vmem S32x1024 .f32).view.readAt (Elt F) rAll.toLoadRect f = f :=
  Memref.readAt_unit_zero (Elt F) cc0_scratch0 (by funext a; fin_cases a <;> rfl) inb_S32x1024_S32x1024_0_0 f

end Cert.KernelIdeal.Sum
end
-- ==== Proof.Body0.lean ====
import proofs.«901085_g7700000000001086_dist_sum_ax0_shard0_i_m2048_n1024_v7x_i32_f32_1_alg».proof.Proof.Oblig
import proofs.«901085_g7700000000001086_dist_sum_ax0_shard0_i_m2048_n1024_v7x_i32_f32_1_alg».proof.Proof.Tables
import proofs.«901085_g7700000000001086_dist_sum_ax0_shard0_i_m2048_n1024_v7x_i32_f32_1_alg».proof.Proof.Rows

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

theorem idle_w0 : KernelIdeal.idle0 0 (grid0.coords t0_0) = false := by decide
theorem idle_w1 : KernelIdeal.idle0 1 (grid0.coords t0_0) = true := by decide
theorem flush_w1 : (win0 1).flush t0_0 = false := by decide
theorem idle_w0' : cfg0.idle 0 (cfg0.grid.coords t0_0) = false := by decide
theorem idle_w1' : cfg0.idle 1 (cfg0.grid.coords t0_0) = true := by decide
theorem flush_w1' : (cfg0.win 1).flush t0_0 = false := by decide

theorem prog_bind_ret {E : Type → Type} {α β : Type} (a : α) (k : α → Prog E β) : Prog.bind (Prog.ret a) k = k a := rfl

theorem cond1_t0 : k0_cond1 (grid0.coords t0_0) = 1#1 := by decide
theorem cond3_t0 : ¬ k0_cond3 (grid0.coords t0_0) = 1#1 := by decide

theorem before_x (c : Dev nD) (d) : (dats (F := F) m ρ 0 c).before 0 t0_0 d = xblk m c t0_0 := by
  unfold Dat.before; rw [if_pos (fetch0_0 t0_0)]; rfl

theorem chunk0 (c : Dev nD) (d) (g0 : BufTy.Contents (Elt F) (win0_0.stage (cfg0.slots t0_0 0)).view.ty)
    (hg0 : View.read (Elt F) (win0_0.stage (cfg0.slots t0_0 0)).view g0 = (dats (F := F) m ρ 0 c).before 0 t0_0 d) :
    (win0_0.stage (cfg0.slots t0_0 0)).view.readAt (Elt F) (Rect.unit (s := S256x1024) ![0, 0] S256x1024.size inb_S256x1024_S256x1024_0_0).toLoadRect g0
      = xblk m c (tN 0) := by
  have hr : (Memref.whole cc0_stg0_0 : Memref sig .tc .vmem S256x1024 .f32).view.readAt (Elt F)
      (Rect.unit (s := S256x1024) ![0, 0] S256x1024.size inb_S256x1024_S256x1024_0_0).toLoadRect g0 = g0 :=
    Memref.readAt_unit_zero (Elt F) cc0_stg0_0 (by funext a; fin_cases a <;> rfl) _ g0
  have hw : View.read (Elt F) (Memref.whole cc0_stg0_0 : Memref sig .tc .vmem S256x1024 .f32).view g0 = g0 := View.read_whole _ _
  exact hr.trans (hw.symm.trans (hg0.trans (before_x m ρ c d)))

theorem row0_after (c : Dev nD) (d) (g0 : BufTy.Contents (Elt F) (win0_0.stage (cfg0.slots t0_0 0)).view.ty)
    (hg0 : View.read (Elt F) (win0_0.stage (cfg0.slots t0_0 0)).view g0 = (dats (F := F) m ρ 0 c).before 0 t0_0 d) (f0 : ScrC F) :
    (row0Pts c ((scr.access r0 : View sig .tc _ _ _).write (Elt F) f0
        (k0_pay1 ((win0_0.stage (cfg0.slots t0_0 0)).view.readAt (Elt F) (Rect.unit (s := S256x1024) ![0, 0] S256x1024.size inb_S256x1024_S256x1024_0_0).toLoadRect g0))
        Finset.univ) : sProp 𝕄)
      = row0Pts c (rowFill (acc m c 0)) := by
  rw [row0Pts_write_eq, chunk0 m ρ c d g0 hg0]; rfl

end Body0

open Body0

-- Signal k pays the duty d = 32 - k of the barrier cell k places on, which hands over the signaller's own row d.
theorem pay_sig (c : Dev nD) (k : ℕ) (d : Fin 32) (hk : 1 ≤ k) (hd : 1 ≤ d.val) (hkd : k + d.val = 32) :
    (sumRd (F := F) m).payload (barCell (peer c k)) 0 d
      = iprop((∃ f, (rowM d.val d.isLt).view.loc (c : Thread nD τ) ↦[(rowM d.val d.isLt).view.set]{fullShare} f) ∗ reached ER (recvCell c d.val d.isLt) 0) :=
  payload_bar_out m c k d.val d.isLt hk hkd hd

attribute [local sl_rounds] duties_bar amount_bar pay_sig Fin.coe_ofNat_eq_mod
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq

set_option maxRecDepth 8192 in
set_option maxHeartbeats 4000000 in
theorem body_t0 (c : Dev nD) : ObligAt m ρ c Gen.t0_0 := by
  unfold ObligAt
  rw [bigSep_W0, bigSep_W0, idle_w1', flush_w1']
  rw [show (dats m ρ 0 c).Φ t0_0.castSucc = Φ₀ m c from rfl, show (dats m ρ 0 c).Φ t0_0.succ = Φmid m c 0 from rfl]
  simp only [idle_w0', idle_w0]
  unfold Dat.owesAt Pipeline.owesWithin
  have eO : O₀ c = O₀ c := rfl
  conv at eO =>
    rhs
    unfold O₀ Obar
    rw [← Equiv.sum_comp Fin.revPerm]
    simp only [Fin.sum_univ_succ, Fin.sum_univ_zero, add_zero, ← add_assoc, kk, Fin.revPerm_apply, Fin.val_rev, Fin.val_succ, Fin.val_zero, Nat.reduceAdd, Nat.reduceSub]
  rw [show (dats m ρ 0 c).owed t0_0.castSucc = O₀ c from rfl, show (dats m ρ 0 c).owed t0_0.succ = Orecv c from rfl, eO]
  sl_whnfR [defs₀, Defs.onTc]
  sl_unfold [cc0_body]
  sl_unfold [cc0_body_skel]
  unfold Φ₀ owns
  iintro ⟨⟨⟨%K, #Hinv, Hpos, #Hrch, Hsig, Hxfer⟩, Hcred, #Hlev, Hidle, ⟨%f0, Hscr⟩⟩, ⟨%W, %hW, HO⟩, ⟨%d0, %g0, %hg0, Hx⟩, Hout⟩
  have eI : invs m K c = invs m K c := rfl
  conv at eI =>
    rhs
    unfold invs
    simp only [sep31, kk, Fin.coe_ofNat_eq_mod, Fin.val_zero, Fin.val_one, Nat.reduceMod, Nat.reduceAdd]
  ihave HI := (Entails.of_eq eI) $$ Hinv
  icases HI with ⟨-, -, -, ⟨#I1, #I2, #I3, #I4, #I5, #I6, #I7, #I8, #I9, #I10, #I11, #I12, #I13, #I14, #I15, #I16, #I17, #I18, #I19, #I20, #I21, #I22, #I23, #I24, #I25, #I26, #I27, #I28, #I29, #I30, #I31⟩, -⟩
  have eR : rch (F := F) c = rch (F := F) c := rfl
  conv at eR =>
    rhs
    unfold rch
    simp only [sep31, kk, Fin.coe_ofNat_eq_mod, Fin.val_zero, Fin.val_one, Nat.reduceMod, Nat.reduceAdd]
  ihave HR := (Entails.of_eq eR) $$ Hrch
  icases HR with ⟨⟨#B1, #B2, #B3, #B4, #B5, #B6, #B7, #B8, #B9, #B10, #B11, #B12, #B13, #B14, #B15, #B16, #B17, #B18, #B19, #B20, #B21, #B22, #B23, #B24, #B25, #B26, #B27, #B28, #B29, #B30, #B31⟩, -, -, ⟨#V1, #V2, #V3, #V4, #V5, #V6, #V7, #V8, #V9, #V10, #V11, #V12, #V13, #V14, #V15, #V16, #V17, #V18, #V19, #V20, #V21, #V22, #V23, #V24, #V25, #V26, #V27, #V28, #V29, #V30, #V31⟩⟩
  have eT : sigToks (F := F) c = sigToks (F := F) c := rfl
  conv at eT =>
    rhs
    unfold sigToks
    simp only [sep31, kk, Fin.coe_ofNat_eq_mod, Fin.val_zero, Fin.val_one, Nat.reduceMod, Nat.reduceAdd, negD, Nat.reduceSub, Fin.reduceFinMk, Fin.mk_one]
  ihave HT := (Entails.of_eq eT) $$ Hsig
  icases HT with ⟨T1, T2, T3, T4, T5, T6, T7, T8, T9, T10, T11, T12, T13, T14, T15, T16, T17, T18, T19, T20, T21, T22, T23, T24, T25, T26, T27, T28, T29, T30, T31⟩
  ihave HS := (scr_rows c f0).1 $$ Hscr
  icases HS with ⟨Hrow0, Hrows⟩
  have eS := bigSep_univ_equiv Fin.revPerm (fun k : Fin 31 => ((rowM (kk k) (kk_lt k)).view.loc (c : Thread nD τ) ↦[(rowM (kk k) (kk_lt k)).view.set]{fullShare} f0 : sProp 𝕄))
  conv at eS =>
    rhs
    simp only [sep31, kk, Fin.coe_ofNat_eq_mod, Fin.val_zero, Fin.val_one, Nat.reduceMod, Nat.reduceAdd, Fin.revPerm_apply, Fin.val_rev, Nat.reduceSub]
  ihave HS' := (Entails.of_eq eS) $$ Hrows
  icases HS' with ⟨R31, R30, R29, R28, R27, R26, R25, R24, R23, R22, R21, R20, R19, R18, R17, R16, R15, R14, R13, R12, R11, R10, R9, R8, R7, R6, R5, R4, R3, R2, R1⟩
  have h1 := cond1_t0
  have h3 := cond3_t0
  sl_exec_parts (disch := sl_decide)

  unfold row0Pts
  iapply (wp_load 𝒱₀ (c : Thread nD τ) none Set.univ (m := scr) r0_load_sub) $$ Hrow0; iintro Hrow0
  iapply (wp_store 𝒱₀ (c : Thread nD τ) none Set.univ (m := scr) (r := r0) (Mk := Finset.univ) r0_store_sub) $$ Hrow0; iintro Hrow0
  sl_rw [prog_bind_ret]

  sl_exec (disch := sl_decide)
  sl_step

  unfold Φmid
  isplitl [Hpos Hxfer Hcred Hidle Hrow0]
  · isplitl [Hpos Hxfer]
    · iexists K
      isplitr; · iexact Hinv
      isplitl [Hpos]; · iexact Hpos
      isplitr; · iexact Hrch
      iexact Hxfer
    isplitl [Hcred]; · iexact Hcred
    isplitr; · iexact Hlev
    isplitl [Hidle]; · iexact Hidle
    iapply (Entails.of_eq (row0_after m ρ c d0 g0 hg0 f0))
    unfold row0Pts; iexact Hrow0
  isplitl [HO]
  · iexists W
    isplitr; · ipureintro; exact fun _ _ => Or.inl trivial
    iexact HO
  isplitl [Hx]
  · iexists g0
    isplitr; · ipureintro; exact hg0.trans (before_x m ρ c d0)
    iexact Hx
  · iexact Hout

end Cert.KernelIdeal.Sum
end
-- ==== Proof.BodyMid.lean ====
import proofs.«901085_g7700000000001086_dist_sum_ax0_shard0_i_m2048_n1024_v7x_i32_f32_1_alg».proof.Proof.Oblig
import proofs.«901085_g7700000000001086_dist_sum_ax0_shard0_i_m2048_n1024_v7x_i32_f32_1_alg».proof.Proof.Rows

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem cond1_mid : ∀ t : Fin grid0.N, 1 ≤ t.val → ¬ (k0_cond1 (grid0.coords t) = 1#1) := by decide
theorem cond3_mid : ∀ t : Fin grid0.N, t.val ≤ 6 → ¬ (k0_cond3 (grid0.coords t) = 1#1) := by decide
theorem cond2_mid : ∀ t : Fin grid0.N, 1 ≤ t.val → Scalar.cmpi .ne (Scalar.extui (Scalar.cmpi .sgt (BitVec.ofNat 32 ((grid0.coords t) 0).val) 0#32)) 0#32 = 1#1 := by decide

theorem Φ_before (c : Dev nD) (t : Fin cfg0.N) (ht : 1 ≤ t.val ∧ t.val ≤ 6) : (dats (F := F) m ρ 0 c).Φ t.castSucc = Φmid m c (t.val - 1) := by
  obtain ⟨n, hn⟩ := t
  cases n with
  | zero => exact absurd ht.1 (Nat.not_succ_le_zero 0)
  | succ n => exact if_pos (by simp only [] at ht; omega)
theorem Φ_after (c : Dev nD) (t : Fin cfg0.N) (ht : 1 ≤ t.val ∧ t.val ≤ 6) : (dats (F := F) m ρ 0 c).Φ t.succ = Φmid m c t.val := by
  obtain ⟨n, hn⟩ := t
  exact if_pos (by simp only [] at ht; omega)
theorem owed_before (c : Dev nD) (t : Fin cfg0.N) (ht : 1 ≤ t.val ∧ t.val ≤ 6) : (dats (F := F) m ρ 0 c).owed t.castSucc = Orecv c := by
  obtain ⟨n, hn⟩ := t
  cases n with
  | zero => exact absurd ht.1 (Nat.not_succ_le_zero 0)
  | succ n => exact if_pos (by simp only [] at ht; omega)
theorem owed_after (c : Dev nD) (t : Fin cfg0.N) (ht : 1 ≤ t.val ∧ t.val ≤ 6) : (dats (F := F) m ρ 0 c).owed t.succ = Orecv c := by
  obtain ⟨n, hn⟩ := t
  exact if_pos (by simp only [] at ht; omega)

theorem idle1_mid : ∀ t : Fin grid0.N, t.val ≤ 6 → idle0 1 (grid0.coords t) = true := by decide
theorem flush1_mid (t : Fin cfg0.N) (ht : t.val ≤ 6) : (win0 1).flush t = false := by
  have h := (flush0_1 t).not
  have h8 : t.val < 8 := by have := t.isLt; have := cfg0_N; omega
  cases hf : (win0 1).flush t with
  | false => rfl
  | true => exact absurd ((flush0_1 t).mp hf) (by omega)

theorem read_chunk (arg1 : Memref sig .tc .vmem S256x1024 .f32) (f : arg1.view.ty.Contents (Elt F)) :
    arg1.view.readAt (Elt F) (Rect.unit (s := S256x1024) ![0, 0] S256x1024.size inb_S256x1024_S256x1024_0_0).toLoadRect f = arg1.view.read (Elt F) f := by
  funext y
  rw [View.readAt_apply]
  congr 1
  funext a
  apply Fin.ext
  rw [LoadRect.idx_apply]
  fin_cases a
  · show 0 + 1 * (y 0).val = (y 0).val
    omega
  · show 0 + 1 * (y 1).val = (y 1).val
    omega

theorem accum_step (c : Dev nD) (arg1 : Memref sig .tc .vmem S256x1024 .f32) (v : FVec F S1x1024 .f32) (x : Vec F S256x1024 .f32)
    {α : Type} (k : PUnit → Prog (TpuEff nD τ sig (Elt F) Λ₀ .tc) α) (Q : α → sProp 𝕄)
    (hl0 : (scr : Memref sig .tc .vmem S32x1024 .f32).view.LoadsAt r0.toLoadRect)
    (hlx : arg1.view.LoadsAt (Rect.unit (s := S256x1024) ![0, 0] S256x1024.size inb_S256x1024_S256x1024_0_0).toLoadRect)
    (hs : ((scr : Memref sig .tc .vmem S32x1024 .f32).access r0).Stores Finset.univ)
    (hm : (Finset.univ : Finset r0.shape.Idx) = Finset.univ ∨ ∀ a, r0.stride a = 1) :
    iprop(row0Pts c (rowFill v) ∗ owns (Ix := Unit) (Name := ℕ) (U := UU) (Lvl := ℕ) (c : Thread nD τ) arg1 fullShare x
        ∗ ((row0Pts c (rowFill (k0_pay2 v x)) ∗ owns (Ix := Unit) (Name := ℕ) (U := UU) (Lvl := ℕ) (c : Thread nD τ) arg1 fullShare x)
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scr r0.toLoadRect hl0) fun v13 =>
           .op (.load arg1 (Rect.unit (s := S256x1024) ![0, 0] S256x1024.size inb_S256x1024_S256x1024_0_0).toLoadRect hlx) fun v14 =>
           .op (.load scr r0.toLoadRect hl0) fun _ =>
           .op (.store scr r0 (k0_pay2 v13 v14) Finset.univ hs hm) k) Q := by
  iintro ⟨Hrow, Hx, Hk⟩
  unfold row0Pts owns
  icases Hx with ⟨%f, %hf, Hx⟩
  iapply (wp_load 𝒱₀ (c : Thread nD τ) none Set.univ (m := scr) r0_load_sub) $$ Hrow; iintro Hrow
  rw [read_row0]
  iapply (wp_load 𝒱₀ (c : Thread nD τ) none Set.univ (m := arg1) (View.setOn_subset_set _ _)) $$ Hx; iintro Hx
  rw [read_chunk, hf]
  iapply (wp_load 𝒱₀ (c : Thread nD τ) none Set.univ (m := scr) r0_load_sub) $$ Hrow; iintro Hrow
  iapply (wp_store 𝒱₀ (c : Thread nD τ) none Set.univ (m := scr) (r := r0) (Mk := Finset.univ) r0_store_sub) $$ Hrow; iintro Hrow
  have e := row0Pts_write_eq (F := F) c (rowFill v) (k0_pay2 v x)
  unfold row0Pts at e
  iapply Hk
  isplitl [Hrow]
  · iapply (Entails.of_eq e)
    iexact Hrow
  · iexists f
    isplitr
    · ipureintro; exact hf
    iexact Hx

theorem before0_mid (c : Dev nD) (t : Fin cfg0.N) (d : (cfg0.win 0).block.Idx → Elt F (cfg0.win 0).elt) :
    (dats (F := F) m ρ 0 c).before 0 t d = xblk m c t := by
  unfold Dat.before
  rw [if_pos (fetch0_0 t)]
  rfl

theorem acc_step (c : Dev nD) (t : Fin cfg0.N) (ht : 1 ≤ t.val) : acc m c t.val = k0_pay2 (acc m c (t.val - 1)) (xblk m c t) := by
  obtain ⟨n, hn⟩ := t
  cases n with
  | zero => exact absurd ht (Nat.not_succ_le_zero 0)
  | succ n =>
    have h8 : n + 1 < 8 := by have := cfg0_N; omega
    have hN : tN (n + 1) = (⟨n + 1, hn⟩ : Fin cfg0.N) := Fin.ext (Nat.mod_eq_of_lt h8)
    show acc m c (n + 1) = k0_pay2 (acc m c (n + 1 - 1)) (xblk m c ⟨n + 1, hn⟩)
    rw [Nat.add_sub_cancel, ← hN]
    rfl

theorem body_mid (c : Dev nD) (t : Fin cfg0.N) (ht : 1 ≤ t.val ∧ t.val ≤ 6) : ObligAt m ρ c t := by
  unfold ObligAt Dat.owesAt
  rw [Φ_before m ρ c t ht, Φ_after m ρ c t ht, owed_before m ρ c t ht, owed_after m ρ c t ht, bigSep_W0, bigSep_W0]
  simp only [idle1_mid t ht.2, flush1_mid t ht.2]
  show _ ⊢ wp frame _ Set.univ (bodyAt0 t) _
  unfold bodyAt0
  rw [cc0_body_eq_skeleton]
  unfold cc0_body_skel
  simp only [cond1_mid t ht.1, cond2_mid t ht.1, cond3_mid t ht.2, ↓reduceDIte, Prog.bind_lift]
  iintro ⟨HΦ, HO, Hw0, Hw1⟩
  unfold Φmid
  icases HΦ with ⟨Hghost, Hcred, Hlev, Hidle, Hrow⟩
  icases Hw0 with ⟨%d, Hx⟩
  rw [before0_mid, acc_step m c t ht.1]
  sl_step
  iapply (accum_step c (stage0_0 (cfg0.slots t 0)) (acc m c (t.val - 1)) (xblk m c t) (fun _ => Pure.pure PUnit.unit) _ _ _ _ _)
  isplitl [Hrow]
  · iexact Hrow
  isplitl [Hx]
  · iexact Hx
  iintro ⟨Hrow, Hx⟩
  iapply (le_wp_ret _ _)
  isplitl [Hghost Hcred Hlev Hidle Hrow]
  · isplitl [Hghost]
    · iexact Hghost
    isplitl [Hcred]
    · iexact Hcred
    isplitl [Hlev]
    · iexact Hlev
    isplitl [Hidle]
    · iexact Hidle
    iexact Hrow
  isplitl [HO]
  · icases HO with ⟨%W, %hW, HO⟩
    iexists W
    isplitr
    · ipureintro; exact fun _ _ => Or.inl trivial
    iexact HO
  isplitl [Hx]
  · iexact Hx
  iexact Hw1

end Cert.KernelIdeal.Sum
end
-- ==== Proof.Debt.lean ====
import proofs.«901085_g7700000000001086_dist_sum_ax0_shard0_i_m2048_n1024_v7x_i32_f32_1_alg».proof.Proof.Data

set_option maxRecDepth 8192

noncomputable section

namespace Cert.KernelIdeal.Sum

open Cert.KernelIdeal Cert.KernelIdeal.Gen
open Idealize.ShloMosaic
open Idealize.ShloMosaic.TcCoe
open Idealize.SL Idealize.SL.Sem

theorem Orecv_desc0 (c : Dev nD) : Orecv c = ((((((((((((((((((((((((((((((((0 : CellTallies nD τ sig Unit) + tallyAt (recvCell (peer c 31) 31 (by decide)) () N) + tallyAt (recvCell (peer c 30) 30 (by decide)) () N) + tallyAt (recvCell (peer c 29) 29 (by decide)) () N) + tallyAt (recvCell (peer c 28) 28 (by decide)) () N) + tallyAt (recvCell (peer c 27) 27 (by decide)) () N) + tallyAt (recvCell (peer c 26) 26 (by decide)) () N) + tallyAt (recvCell (peer c 25) 25 (by decide)) () N) + tallyAt (recvCell (peer c 24) 24 (by decide)) () N) + tallyAt (recvCell (peer c 23) 23 (by decide)) () N) + tallyAt (recvCell (peer c 22) 22 (by decide)) () N) + tallyAt (recvCell (peer c 21) 21 (by decide)) () N) + tallyAt (recvCell (peer c 20) 20 (by decide)) () N) + tallyAt (recvCell (peer c 19) 19 (by decide)) () N) + tallyAt (recvCell (peer c 18) 18 (by decide)) () N) + tallyAt (recvCell (peer c 17) 17 (by decide)) () N) + tallyAt (recvCell (peer c 16) 16 (by decide)) () N) + tallyAt (recvCell (peer c 15) 15 (by decide)) () N) + tallyAt (recvCell (peer c 14) 14 (by decide)) () N) + tallyAt (recvCell (peer c 13) 13 (by decide)) () N) + tallyAt (recvCell (peer c 12) 12 (by decide)) () N) + tallyAt (recvCell (peer c 11) 11 (by decide)) () N) + tallyAt (recvCell (peer c 10) 10 (by decide)) () N) + tallyAt (recvCell (peer c 9) 9 (by decide)) () N) + tallyAt (recvCell (peer c 8) 8 (by decide)) () N) + tallyAt (recvCell (peer c 7) 7 (by decide)) () N) + tallyAt (recvCell (peer c 6) 6 (by decide)) () N) + tallyAt (recvCell (peer c 5) 5 (by decide)) () N) + tallyAt (recvCell (peer c 4) 4 (by decide)) () N) + tallyAt (recvCell (peer c 3) 3 (by decide)) () N) + tallyAt (recvCell (peer c 2) 2 (by decide)) () N) + tallyAt (recvCell (peer c 1) 1 (by decide)) () N) := by
  rw [zero_add]; unfold Orecv; rw [← Equiv.sum_comp Fin.revPerm]; simp only [Fin.sum_univ_succ, Fin.sum_univ_zero, add_zero, ← add_assoc]; rfl

end Cert.KernelIdeal.Sum

end
-- ==== Proof.Exchange.lean ====
import proofs.«901085_g7700000000001086_dist_sum_ax0_shard0_i_m2048_n1024_v7x_i32_f32_1_alg».proof.Proof.Rows
import proofs.«901085_g7700000000001086_dist_sum_ax0_shard0_i_m2048_n1024_v7x_i32_f32_1_alg».proof.Proof.Tables
import Idealize.ShloMosaic.Lib.Rounds

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local macro "row0% " c:term:max p:term:max f:term:max : term =>
  `(((rowM 0 zero_lt32).view.loc ($c : Thread nD τ) ↦[(rowM 0 zero_lt32).view.set]{$p} $f))

theorem row0_share_eq (c : Dev nD) (f : ScrC F) (k : ℕ) :
    (row0% c (qrest k) f : sProp 𝕄) = iprop(row0% c (q (k + 1)) f ∗ row0% c (qrest (k + 1)) f) :=
  BI.equiv_iff.mp ⟨(row0_share c f k).1, (row0_share c f k).2⟩

def shareChain (c : Dev nD) (f : ScrC F) : ℕ → ℕ → sProp 𝕄
  | 0, k => row0% c (qrest k) f
  | n + 1, k => iprop(row0% c (q (k + 1)) f ∗ shareChain c f n (k + 1))

theorem shareChain_eq (c : Dev nD) (f : ScrC F) (n k : ℕ) : (row0% c (qrest k) f : sProp 𝕄) = shareChain c f n k := by
  induction n generalizing k with
  | zero => rfl
  | succ n ih =>
    show _ = iprop(row0% c (q (k + 1)) f ∗ shareChain c f n (k + 1))
    rw [← ih (k + 1)]
    exact row0_share_eq c f k

theorem row0_shares_lit (c : Dev nD) (f : ScrC F) :
    (row0Pts c f : sProp 𝕄) = iprop(row0% c (q 1) f ∗ row0% c (q 2) f ∗ row0% c (q 3) f ∗ row0% c (q 4) f ∗ row0% c (q 5) f
      ∗ row0% c (q 6) f ∗ row0% c (q 7) f ∗ row0% c (q 8) f ∗ row0% c (q 9) f ∗ row0% c (q 10) f ∗ row0% c (q 11) f
      ∗ row0% c (q 12) f ∗ row0% c (q 13) f ∗ row0% c (q 14) f ∗ row0% c (q 15) f ∗ row0% c (q 16) f ∗ row0% c (q 17) f
      ∗ row0% c (q 18) f ∗ row0% c (q 19) f ∗ row0% c (q 20) f ∗ row0% c (q 21) f ∗ row0% c (q 22) f ∗ row0% c (q 23) f
      ∗ row0% c (q 24) f ∗ row0% c (q 25) f ∗ row0% c (q 26) f ∗ row0% c (q 27) f ∗ row0% c (q 28) f ∗ row0% c (q 29) f
      ∗ row0% c (q 30) f ∗ row0% c (q 31) f ∗ row0% c (qrest 31) f) :=
  shareChain_eq c f 31 0

theorem sep_assoc_eq (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩

theorem row0_shares (c : Dev nD) (f : ScrC F) :
    row0Pts c f ⊣⊢ (iprop((bigSep Finset.univ fun k : Fin 31 => row0% c (q (kk k)) f) ∗ row0% c (qrest 31) f) : sProp 𝕄) := by
  rw [row0_shares_lit, sep31]
  simp only [sep_assoc_eq]
  exact ⟨.rfl, .rfl⟩

theorem close_send (m : (ℓ : Loc nD τ sig) → Buf (Elt F) ℓ) (K : GSem nD τ sig → ℕ) (c : Dev nD) (k : ℕ) (hk : k < 32) :
    iprop(cellInv ER (sumRd m) (K (sendCell c k hk)) (sendCell c k hk) ∗ atPos ER (sendCell c k hk) 1 ∅ 0)
      ⊢ (|={Set.univ}=> semVal (sendCell c k hk) 0 : sProp 𝕄) :=
  Rounds.cell_close ER (sumRd m) (Set.mem_univ _) (fun h => h) (R := 1) (fun r hr => duties_later m _ r hr)

theorem close_recv (m : (ℓ : Loc nD τ sig) → Buf (Elt F) ℓ) (K : GSem nD τ sig → ℕ) (c : Dev nD) (k : ℕ) (hk : k < 32) :
    iprop(cellInv ER (sumRd m) (K (recvCell c k hk)) (recvCell c k hk) ∗ atPos ER (recvCell c k hk) 1 ∅ 0)
      ⊢ (|={Set.univ}=> semVal (recvCell c k hk) 0 : sProp 𝕄) :=
  Rounds.cell_close ER (sumRd m) (Set.mem_univ _) (fun h => h) (R := 1) (fun r hr => duties_later m _ r hr)

theorem scr_rows_eq (c : Dev nD) (f : ScrC F) :
    (scrPts c f : sProp 𝕄) = iprop(row0Pts c f ∗ bigSep Finset.univ fun k : Fin 31 =>
      (rowM (kk k) (kk_lt k)).view.loc (c : Thread nD τ) ↦[(rowM (kk k) (kk_lt k)).view.set]{fullShare} f) :=
  BI.equiv_iff.mp ⟨(scr_rows c f).1, (scr_rows c f).2⟩

theorem rows_join (m : (ℓ : Loc nD τ sig) → Buf (Elt F) ℓ) (c : Dev nD) :
    iprop(row0Pts c (rowFill (S m c)) ∗ bigSep Finset.univ fun k : Fin 31 => recvPay m c (kk k) (kk_lt k))
      ⊢ (scrPts c (full m c) : sProp 𝕄) := by
  rw [scr_rows_eq c (full m c)]
  exact BIClass.sep_mono (row0_full m c).1 (bigSep_mono fun k _ => recvPay_full m c (kk k) (kk_lt k))

end Cert.KernelIdeal.Sum
end
-- ==== Proof.Finish7.lean ====
import proofs.«901085_g7700000000001086_dist_sum_ax0_shard0_i_m2048_n1024_v7x_i32_f32_1_alg».proof.Proof.Exchange

set_option maxRecDepth 8192

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem finish7_big (K : GSem nD τ sig → ℕ) (c : Dev nD) :
    iprop((bigSep Finset.univ fun k : Fin 31 => cellInv ER (sumRd m) (K (sendCell c (kk k) (kk_lt k))) (sendCell c (kk k) (kk_lt k)))
      ∗ (bigSep Finset.univ fun k : Fin 31 => cellInv ER (sumRd m) (K (recvCell c (kk k) (kk_lt k))) (recvCell c (kk k) (kk_lt k)))
      ∗ (bigSep Finset.univ fun k : Fin 31 => atPos ER (sendCell c (kk k) (kk_lt k)) 1 ∅ 0)
      ∗ (bigSep Finset.univ fun k : Fin 31 => atPos ER (recvCell c (kk k) (kk_lt k)) 1 ∅ 0)
      ∗ (bigSep Finset.univ fun k : Fin 31 => (sumRd (F := F) m).payload (recvCell c (kk k) (kk_lt k)) 0 (0 : Fin 32))
      ∗ (bigSep Finset.univ fun k : Fin 31 => ((rowM 0 zero_lt32).view.loc (c : Thread nD τ) ↦[(rowM 0 zero_lt32).view.set]{q (kk k)} (rowFill (S m c))))
      ∗ ((rowM 0 zero_lt32).view.loc (c : Thread nD τ) ↦[(rowM 0 zero_lt32).view.set]{qrest 31} (rowFill (S m c))))
      ⊢ (|={Set.univ}=> iprop(scrPts c (full m c)
          ∗ (bigSep Finset.univ fun k : Fin 31 => semVal (sendCell c (kk k) (kk_lt k)) 0)
          ∗ (bigSep Finset.univ fun k : Fin 31 => semVal (recvCell c (kk k) (kk_lt k)) 0)) : sProp 𝕄) := by
  have hpay : (bigSep Finset.univ fun k : Fin 31 => ((sumRd (F := F) m).payload (recvCell c (kk k) (kk_lt k)) 0 (0 : Fin 32) : sProp 𝕄))
      ⊢ bigSep Finset.univ fun k : Fin 31 => recvPay m c (kk k) (kk_lt k) :=
    bigSep_mono fun k _ => Entails.of_eq (payload_recv m c (kk k) (kk_lt k) (kk_pos k) (0 : Fin 32))
  iintro ⟨HIs, HIr, Hps, Hpr, Hpay, Hsh, Hrest⟩

  imod (show iprop((bigSep Finset.univ fun k : Fin 31 => cellInv ER (sumRd m) (K (sendCell c (kk k) (kk_lt k))) (sendCell c (kk k) (kk_lt k)))
        ∗ (bigSep Finset.univ fun k : Fin 31 => atPos ER (sendCell c (kk k) (kk_lt k)) 1 ∅ 0))
      ⊢ (|={Set.univ}=> bigSep Finset.univ fun k : Fin 31 => semVal (sendCell c (kk k) (kk_lt k)) 0 : sProp 𝕄) from by
        rw [← bigSep_sep']
        exact (bigSep_mono fun k _ => close_send m K c (kk k) (kk_lt k)).trans (bigSep_fupd _ _)) $$ [HIs Hps] with Hzs
  · isplitl [HIs] <;> iassumption
  imod (show iprop((bigSep Finset.univ fun k : Fin 31 => cellInv ER (sumRd m) (K (recvCell c (kk k) (kk_lt k))) (recvCell c (kk k) (kk_lt k)))
        ∗ (bigSep Finset.univ fun k : Fin 31 => atPos ER (recvCell c (kk k) (kk_lt k)) 1 ∅ 0))
      ⊢ (|={Set.univ}=> bigSep Finset.univ fun k : Fin 31 => semVal (recvCell c (kk k) (kk_lt k)) 0 : sProp 𝕄) from by
        rw [← bigSep_sep']
        exact (bigSep_mono fun k _ => close_recv m K c (kk k) (kk_lt k)).trans (bigSep_fupd _ _)) $$ [HIr Hpr] with Hzr
  · isplitl [HIr] <;> iassumption
  imodintro
  isplitl [Hpay Hsh Hrest]
  ·
    ihave Hrow0 := (row0_shares c (rowFill (S m c))).2 $$ [Hsh Hrest]
    · isplitl [Hsh] <;> iassumption
    ihave Hpay' := hpay $$ Hpay
    iapply (rows_join m c)
    isplitl [Hrow0] <;> iassumption
  isplitl [Hzs] <;> iassumption

end Cert.KernelIdeal.Sum
end
-- ==== Proof.Tail7.lean ====
import proofs.«901085_g7700000000001086_dist_sum_ax0_shard0_i_m2048_n1024_v7x_i32_f32_1_alg».proof.Proof.Rows

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem out_rect_zero : (![0, 0] : Fin 2 → ℕ) = fun _ => 0 := by funext a; fin_cases a <;> rfl

theorem read_write_whole {Val : EltTy → Type} {κ : Kind} {sp : Space} {s : Shape} {e : EltTy} (M : Memref sig κ sp s e) (hM : M.IsWhole)
    {off : Fin s.rank → ℕ} (hz : off = fun _ => 0) (inb : ∀ a, off a + s.size a ≤ s.size a)
    (f : M.view.ty.Contents Val) (w : s.Idx → Val e) :
    M.view.read Val ((M.access (Rect.unit off s.size inb) : View sig κ _ _ _).write Val f w Finset.univ) = w := by
  obtain ⟨b, rfl, rfl, rfl, hb⟩ := hM
  cases hb
  rw [Memref.write_access_unit_zero_univ Val b hz inb f w]
  rfl

theorem tail7_op (m : (ℓ : Loc nD τ sig) → Buf (Elt F) ℓ) (c : Dev nD) (arg2 : Memref sig .tc .vmem S1x1024 .f32) (harg2 : arg2.IsWhole)
    (X : Vec F S1x1024 .f32) (Q : PUnit → sProp 𝕄)
    (hlA : (scr : Memref sig .tc .vmem S32x1024 .f32).view.LoadsAt rAll.toLoadRect)
    (hlo : arg2.view.LoadsAt (Rect.unit (s := S1x1024) ![0, 0] S1x1024.size inb_S1x1024_S1x1024_0_0).toLoadRect)
    (hs : (arg2.access (Rect.unit (s := S1x1024) ![0, 0] S1x1024.size inb_S1x1024_S1x1024_0_0)).Stores Finset.univ)
    (hm : (Finset.univ : Finset (Rect.unit (s := S1x1024) ![0, 0] S1x1024.size inb_S1x1024_S1x1024_0_0).shape.Idx) = Finset.univ
      ∨ ∀ a, (Rect.unit (s := S1x1024) ![0, 0] S1x1024.size inb_S1x1024_S1x1024_0_0).stride a = 1) :
    iprop(scrPts c (full m c) ∗ owns (Ix := Unit) (Name := ℕ) (U := UU) (Lvl := ℕ) (c : Thread nD τ) arg2 fullShare X
        ∗ ((scrPts c (full m c) ∗ owns (Ix := Unit) (Name := ℕ) (U := UU) (Lvl := ℕ) (c : Thread nD τ) arg2 fullShare (outAt m c)) -∗ Q ⟨⟩))
      ⊢ wp frame (wpE (defs₀ (F := F)) 𝒱₀ (c : Thread nD τ) none) Set.univ
          (.op (.load scr rAll.toLoadRect hlA) fun v1098 =>
           .op (.load arg2 (Rect.unit (s := S1x1024) ![0, 0] S1x1024.size inb_S1x1024_S1x1024_0_0).toLoadRect hlo) fun _ =>
           .op (.store arg2 (Rect.unit (s := S1x1024) ![0, 0] S1x1024.size inb_S1x1024_S1x1024_0_0) (k0_pay3 v1098) Finset.univ hs hm) fun _ =>
             Pure.pure PUnit.unit) Q := by
  unfold scrPts owns
  iintro ⟨Hs, ⟨%f, %hf, Ho⟩, Hk⟩
  iapply (wp_load 𝒱₀ (c : Thread nD τ) none Set.univ (m := scr) (Finset.subset_univ _)) $$ Hs; iintro Hs
  rw [read_all]
  iapply (wp_load 𝒱₀ (c : Thread nD τ) none Set.univ (m := arg2) (View.setOn_subset_set _ _)) $$ Ho; iintro Ho
  iapply (wp_store 𝒱₀ (c : Thread nD τ) none Set.univ (m := arg2)
    (r := Rect.unit (s := S1x1024) ![0, 0] S1x1024.size inb_S1x1024_S1x1024_0_0) (Mk := Finset.univ)
    (by rw [View.setOn_univ]; exact View.set_slice_subset _ _)) $$ Ho; iintro Ho
  rw [Prog.pure_eq_ret, wp_ret]; imodintro
  iapply Hk
  isplitl [Hs]
  · iexact Hs
  · iexists _
    isplitr
    · ipureintro
      exact read_write_whole arg2 harg2 out_rect_zero inb_S1x1024_S1x1024_0_0 f (k0_pay3 (full m c))
    iexact Ho

end Cert.KernelIdeal.Sum
end
-- ==== Proof.Body7.lean ====
import proofs.«901085_g7700000000001086_dist_sum_ax0_shard0_i_m2048_n1024_v7x_i32_f32_1_alg».proof.Proof.BodyMid
import proofs.«901085_g7700000000001086_dist_sum_ax0_shard0_i_m2048_n1024_v7x_i32_f32_1_alg».proof.Proof.Debt
import proofs.«901085_g7700000000001086_dist_sum_ax0_shard0_i_m2048_n1024_v7x_i32_f32_1_alg».proof.Proof.Levels
import proofs.«901085_g7700000000001086_dist_sum_ax0_shard0_i_m2048_n1024_v7x_i32_f32_1_alg».proof.Proof.Finish7
import proofs.«901085_g7700000000001086_dist_sum_ax0_shard0_i_m2048_n1024_v7x_i32_f32_1_alg».proof.Proof.Tail7

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cond1_7 : ¬ (k0_cond1 (grid0.coords t0_7) = 1#1) := by decide
theorem cond3_7 : k0_cond3 (grid0.coords t0_7) = 1#1 := by decide
theorem acc_last (c : Dev nD) : k0_pay2 (acc m c 6) (xblk m c t0_7) = S m c := (acc_step m c t0_7 (by decide)).symm

attribute [local sl_rounds] duties_bar amount_bar expect_bar amount_send amount_recv duties_send duties_recv expect_send expect_recv payload_send_pts payload_recv_out

set_option hygiene false in
local macro "copy_step " e:ident : tactic => `(tactic| (
  icases Hsh with ⟨Hqk, Hsh⟩
  icases Hp with ⟨⟨⟨%fk, Hdk⟩, -⟩, Hp⟩
  icases HtP with ⟨HtPk, HtP⟩
  icases HtS with ⟨HtSk, HtS⟩
  icases HIsC with ⟨#HIsk, #HIsC⟩
  icases HIpC with ⟨#HIpk, #HIpC⟩
  icases HrPC with ⟨#HrPk, #HrPC⟩
  icases HrSC with ⟨#HrSk, #HrSC⟩
  sl_exec (disch := simp only [$e:ident])
  iclear HIpk HrPk HrSk))

set_option sl_exec.stepHeartbeats 400000 in
set_option maxHeartbeats 40000000 in
theorem body_t7 (c : Dev nD) : ObligAt m ρ c t0_7 := by
  unfold ObligAt Dat.owesAt
  rw [show (dats (F := F) m ρ 0 c).Φ (t0_7 : Fin cfg0.N).castSucc = Φmid m c 6 from rfl,
    show (dats (F := F) m ρ 0 c).Φ (t0_7 : Fin cfg0.N).succ = Φend m c from rfl,
    show (dats (F := F) m ρ 0 c).owed (t0_7 : Fin cfg0.N).castSucc = Orecv c from rfl,
    show (dats (F := F) m ρ 0 c).owed (t0_7 : Fin cfg0.N).succ = 0 from rfl, bigSep_W0, bigSep_W0]
  rw [show cfg0.idle (1 : Fin 2) (cfg0.grid.coords t0_7) = false from by decide]
  dsimp only
  show _ ⊢ wp frame _ Set.univ (bodyAt0 t0_7) _
  unfold bodyAt0
  rw [cc0_body_eq_skeleton]
  unfold cc0_body_skel
  simp only [cond1_7, cond2_mid t0_7 (by decide), cond3_7, ↓reduceDIte, Prog.bind_lift]
  iintro ⟨HΦ, HO, Hw0, Hw1⟩
  unfold Φmid
  icases HΦ with ⟨⟨%K, HI, Hpos, Hrch, Htok⟩, Hcred, #Hlev, Hidle, Hrow⟩
  icases Hw0 with ⟨%d, Hx⟩
  rw [before0_mid]
  sl_step

  iapply (accum_step c (stage0_0 (cfg0.slots t0_7 0)) (acc m c 6) (xblk m c t0_7) _ _ _ _ _ _)
  isplitl [Hrow]
  · iexact Hrow
  isplitl [Hx]
  · iexact Hx
  iintro ⟨Hrow, Hx⟩
  rw [acc_last]
  simp only [show ((c : Thread nD τ).1 : Dev nD) = c from rfl]

  have eI : invs m K c = invs m K c := rfl
  conv at eI =>
    rhs
    unfold invs
    simp only [sep31, kk, Fin.coe_ofNat_eq_mod, Fin.val_zero, Fin.val_one, Nat.reduceMod, Nat.reduceAdd]
  ihave HI' := (Entails.of_eq eI) $$ HI
  icases HI' with ⟨#HIb, #HIsC, #HIrC, #HIbP, #HIpC⟩
  have eP : pos (F := F) c = pos (F := F) c := rfl
  conv at eP =>
    rhs
    unfold pos
    simp only [sep31, kk, Fin.coe_ofNat_eq_mod, Fin.val_zero, Fin.val_one, Nat.reduceMod, Nat.reduceAdd]
  ihave Hpos' := (Entails.of_eq eP) $$ Hpos
  icases Hpos' with ⟨Hat, ⟨HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31⟩, ⟨HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31⟩⟩
  have eR : rch (F := F) c = rch (F := F) c := rfl
  conv at eR =>
    rhs
    unfold rch
    simp only [sep31, kk, Fin.coe_ofNat_eq_mod, Fin.val_zero, Fin.val_one, Nat.reduceMod, Nat.reduceAdd]
  ihave Hrch' := (Entails.of_eq eR) $$ Hrch
  icases Hrch' with ⟨#HrBP, #HrPC, #HrSC, #HrRC⟩
  have eT : xferToks (F := F) c = xferToks (F := F) c := rfl
  conv at eT =>
    rhs
    unfold xferToks
    simp only [sep31, kk, Fin.coe_ofNat_eq_mod, Fin.val_zero, Fin.val_one, Nat.reduceMod, Nat.reduceAdd]
  ihave Htok' := (Entails.of_eq eT) $$ Htok
  icases Htok' with ⟨HtP, HtS⟩
  have eC : creds (F := F) c = creds (F := F) c := rfl
  conv at eC =>
    rhs
    unfold creds
    simp only [sep31, kk, Fin.coe_ofNat_eq_mod, Fin.val_zero, Fin.val_one, Nat.reduceMod, Nat.reduceAdd]
  ihave Hcred' := (Entails.of_eq eC) $$ Hcred
  icases Hcred' with ⟨HcB, ⟨HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29, HcR30, HcR31⟩⟩

  icases HO with ⟨%W, %hW, HO⟩
  ihave HO := (Entails.of_eq (congrArg (fun O => owes (Ix := Unit) (Name := ℕ) (U := UU) (Lvl := ℕ) (Val := Elt F) (c : Thread nD τ) O W) (Orecv_desc0 c))) $$ HO

  have hmw := mayWait_bar (F := F) c
  rw [Orecv_desc0 c] at hmw

  sl_exec
  have epay := rest_bar_chain (F := F) m c
  rw [Finset.sdiff_empty, duties_bar] at epay
  ihave Hp := (Entails.of_eq epay) $$ Hat_pay1
  ihave Hsh := (Entails.of_eq (row0_shares_lit c (rowFill (S m c)))) $$ Hrow
  copy_step dev32_eq
  copy_step dev33_eq
  copy_step dev34_eq
  copy_step dev35_eq
  copy_step dev36_eq
  copy_step dev37_eq
  copy_step dev38_eq
  copy_step dev39_eq
  copy_step dev40_eq
  copy_step dev41_eq
  copy_step dev42_eq
  copy_step dev43_eq
  copy_step dev44_eq
  copy_step dev45_eq
  copy_step dev46_eq
  copy_step dev47_eq
  copy_step dev48_eq
  copy_step dev49_eq
  copy_step dev50_eq
  copy_step dev51_eq
  copy_step dev52_eq
  copy_step dev53_eq
  copy_step dev54_eq
  copy_step dev55_eq
  copy_step dev56_eq
  copy_step dev57_eq
  copy_step dev58_eq
  copy_step dev59_eq
  copy_step dev60_eq
  copy_step dev61_eq

  icases HIrC with ⟨#HIr1, #HIr2, #HIr3, #HIr4, #HIr5, #HIr6, #HIr7, #HIr8, #HIr9, #HIr10, #HIr11, #HIr12, #HIr13, #HIr14, #HIr15, #HIr16, #HIr17, #HIr18, #HIr19, #HIr20, #HIr21, #HIr22, #HIr23, #HIr24, #HIr25, #HIr26, #HIr27, #HIr28, #HIr29, #HIr30, #HIr31⟩

  icases Hsh with ⟨Hqk, Hqrest⟩
  icases Hp with ⟨⟨%fk, Hdk⟩, -⟩
  sl_exec (disch := simp only [dev62_eq])

  have hfin := finish7_big m K c
  conv at hfin =>
    lhs
    simp only [sep31, kk, Fin.coe_ofNat_eq_mod, Fin.val_zero, Fin.val_one, Nat.reduceMod, Nat.reduceAdd]
  imod hfin $$ [HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaR1 HaR2 HaR3 HaR4 HaR5 HaR6 HaR7 HaR8 HaR9 HaR10 HaR11 HaR12 HaR13 HaR14 HaR15 HaR16 HaR17 HaR18 HaR19 HaR20 HaR21 HaR22 HaR23 HaR24 HaR25 HaR26 HaR27 HaR28 HaR29 HaR30 HaR31 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1 HaR15_pay1 HaR16_pay1 HaR17_pay1 HaR18_pay1 HaR19_pay1 HaR20_pay1 HaR21_pay1 HaR22_pay1 HaR23_pay1 HaR24_pay1 HaR25_pay1 HaR26_pay1 HaR27_pay1 HaR28_pay1 HaR29_pay1 HaR30_pay1 HaR31_pay1 HaS1_pay1 HaS2_pay1 HaS3_pay1 HaS4_pay1 HaS5_pay1 HaS6_pay1 HaS7_pay1 HaS8_pay1 HaS9_pay1 HaS10_pay1 HaS11_pay1 HaS12_pay1 HaS13_pay1 HaS14_pay1 HaS15_pay1 HaS16_pay1 HaS17_pay1 HaS18_pay1 HaS19_pay1 HaS20_pay1 HaS21_pay1 HaS22_pay1 HaS23_pay1 HaS24_pay1 HaS25_pay1 HaS26_pay1 HaS27_pay1 HaS28_pay1 HaS29_pay1 HaS30_pay1 HaS31_pay1 Hqrest] with ⟨Hscr, Hzs, Hzr⟩
  · iframe # ∗

  icases Hw1 with ⟨%d1, Hout⟩
  iapply (tail7_op m c (stage0_1 (cfg0.slots t0_7 1)) (hstage0_1 ((cfg0.slots t0_7 1).cast nbuf0_1)) _ _ _ _ _ _)
  isplitl [Hscr]
  · iexact Hscr
  isplitl [Hout]
  · iexact Hout
  iintro ⟨Hscr, Hout⟩

  isplitl [Hscr Hidle Hzs Hzr]
  · unfold Φend
    isplitl [Hscr]
    · iexact Hscr
    isplitl [Hidle]
    · iexact Hidle
    isplitl [Hzs]; (· iexact Hzs); iexact Hzr
  isplitl [HO]
  ·
    iexists _
    isplitr [HO]
    swap
    · iexact HO
    · ipureintro; exact fun _ _ => Or.inl trivial
  isplitl [Hx]
  · iexact Hx
  iexact Hout

end Cert.KernelIdeal.Sum
end
-- ==== Proof.Body.lean ====
import proofs.«901085_g7700000000001086_dist_sum_ax0_shard0_i_m2048_n1024_v7x_i32_f32_1_alg».proof.Proof.Body0
import proofs.«901085_g7700000000001086_dist_sum_ax0_shard0_i_m2048_n1024_v7x_i32_f32_1_alg».proof.Proof.Body7

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem body_obligation (m : (ℓ : Loc nD τ sig) → Buf (Elt F) ℓ) (ρ : Dev nD → PrngReg) (c : Dev nD) :
    BodyObligation (dats (F := F) m ρ 0 c) (defs₀ (F := F)) 𝒱₀ () Set.univ :=
  obligation_of m ρ c fun t => by
    rcases Gen.fin_N0 t with rfl | rfl | rfl | rfl | rfl | rfl | rfl | rfl
    · exact body_t0 m ρ c
    · exact body_mid m ρ c Gen.t0_1 ⟨by show 1 ≤ 1; decide, by show 1 ≤ 6; decide⟩
    · exact body_mid m ρ c Gen.t0_2 ⟨by show 1 ≤ 2; decide, by show 2 ≤ 6; decide⟩
    · exact body_mid m ρ c Gen.t0_3 ⟨by show 1 ≤ 3; decide, by show 3 ≤ 6; decide⟩
    · exact body_mid m ρ c Gen.t0_4 ⟨by show 1 ≤ 4; decide, by show 4 ≤ 6; decide⟩
    · exact body_mid m ρ c Gen.t0_5 ⟨by show 1 ≤ 5; decide, by show 5 ≤ 6; decide⟩
    · exact body_mid m ρ c Gen.t0_6 ⟨by show 1 ≤ 6; decide, by show 6 ≤ 6; decide⟩
    · exact body_t7 m ρ c

end Cert.KernelIdeal.Sum
end
-- ==== Proof.ObligKernel.lean ====
import proofs.«901085_g7700000000001086_dist_sum_ax0_shard0_i_m2048_n1024_v7x_i32_f32_1_alg».proof.Proof.DataKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def ObligAt (c : Dev nD) (t : Fin cfg0.N) : Prop :=
  iprop((dats (F := F) m ρ 0 c).Φ t.castSucc ∗ (dats (F := F) m ρ 0 c).owesAt () t.castSucc
      ∗ bigSep Finset.univ fun w : Fin cfg0.W =>
          iprop(∃ d, owns (Ix := Unit) (Name := ℕ) (U := UU) (Lvl := ℕ) (c : Thread nD τ) ((cfg0.win w).stage (cfg0.slots t w)) fullShare ((dats (F := F) m ρ 0 c).before w t d)))
    ⊢ wp frame (wpE (defs₀ (F := F)) 𝒱₀ (c : Thread nD τ) none) Set.univ (defs₀ (F := F) .tc cfg0.body (cfg0.bodyArgs t (cfg0.slots t))) fun _ =>
        iprop((dats (F := F) m ρ 0 c).Φ t.succ ∗ (dats (F := F) m ρ 0 c).owesAt () t.succ
          ∗ bigSep Finset.univ fun w : Fin cfg0.W =>
              match cfg0.idle w (cfg0.grid.coords t) with
              | true =>
                match (cfg0.win w).flush t with
                | false => iprop(∃ d, owns (Ix := Unit) (Name := ℕ) (U := UU) (Lvl := ℕ) (c : Thread nD τ) ((cfg0.win w).stage (cfg0.slots t w)) fullShare ((dats (F := F) m ρ 0 c).before w t d))
                | true => owns (Ix := Unit) (Name := ℕ) (U := UU) (Lvl := ℕ) (c : Thread nD τ) ((cfg0.win w).stage (cfg0.slots t w)) fullShare ((dats (F := F) m ρ 0 c).after w t)
              | false => owns (Ix := Unit) (Name := ℕ) (U := UU) (Lvl := ℕ) (c : Thread nD τ) ((cfg0.win w).stage (cfg0.slots t w)) fullShare ((dats (F := F) m ρ 0 c).after w t))

theorem obligation_of (c : Dev nD) (h : ∀ t : Fin cfg0.N, ObligAt m ρ c t) :
    BodyObligation (dats (F := F) m ρ 0 c) (defs₀ (F := F)) 𝒱₀ () Set.univ := h

end Cert.Kernel.Sum
end
-- ==== Proof.RowsKernel.lean ====
import proofs.«901085_g7700000000001086_dist_sum_ax0_shard0_i_m2048_n1024_v7x_i32_f32_1_alg».proof.Proof.DataKernel
import Idealize.ShloMosaic.Lib.Pipeline.Value
import Idealize.ShloMosaic.Rules.PointsTo

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem zero_lt32 : 0 < 32 := by decide

abbrev r0 : Rect S32x1024 := Rect.unit (s := S32x1024) ![0, 0] S1x1024.size inb_S32x1024_S1x1024_0_0

abbrev rAll : Rect S32x1024 := Rect.unit (s := S32x1024) ![0, 0] S32x1024.size inb_S32x1024_S32x1024_0_0

abbrev rowR (k : ℕ) (hk : k < 32) : Rect S32x1024 := Rect.unit (s := S32x1024) ![k, 0] S1x1024.size (inb_row k hk)

theorem row_set (k : ℕ) (hk : k < 32) : (rowM k hk).view.set = (rowR k hk).set := by
  show ((scr.view.slice (rowR k hk)).reshape S1024 _).set = _
  rw [View.set_reshape]
  exact View.set_slice_whole _ _

theorem mem_row (k : ℕ) (hk : k < 32) (i : (cc0_scratch0 : Ref sig .tc).ty.Idx) :
    i ∈ (rowM k hk).view.set ↔ (i 0).val = k := by
  rw [row_set, Rect.mem_set_unit]
  constructor
  · intro h
    have h0 := h 0
    change k ≤ (i 0).val ∧ (i 0).val < k + 1 at h0
    omega
  · intro h a
    fin_cases a
    · show k ≤ (i 0).val ∧ (i 0).val < k + 1
      omega
    · have h1 : (i 1).val < 1024 := (i 1).isLt
      show 0 ≤ (i 1).val ∧ (i 1).val < 0 + 1024
      omega

theorem colIdx_row_emb (k : ℕ) (hk : k < 32) (y : S1x1024.Idx) : colIdx ((rowR k hk).emb y) = y := by
  funext a
  fin_cases a
  · apply Fin.ext
    have h0 : (y 0).val < 1 := (y 0).isLt
    show 0 = (y 0).val
    omega
  · apply Fin.ext
    show 0 + 1 * (y 1).val = (y 1).val
    omega

theorem r0_set : ((scr.access r0 : View sig .tc _ _ _).set) = (rowM 0 zero_lt32).view.set :=
  (View.set_reshape (scr.view.slice r0) _).symm

theorem r0_store_sub : (scr.access r0 : View sig .tc _ _ _).setOn Finset.univ ⊆ (rowM 0 zero_lt32).view.set := by
  rw [View.setOn_univ, r0_set]

theorem r0_load_sub : (scr : Memref sig .tc .vmem S32x1024 .f32).view.setOn r0.toLoadRect.set ⊆ (rowM 0 zero_lt32).view.set := by
  rw [← r0_set, View.set_slice]; exact Finset.Subset.refl _

theorem read_row0 (v : FVec F S1x1024 .f32) :
    (scr : Memref sig .tc .vmem S32x1024 .f32).view.readAt (Elt F) r0.toLoadRect (rowFill v) = v := by
  funext x
  exact congrArg v (colIdx_row_emb 0 zero_lt32 x)

theorem write_row0 (f : ScrC F) (v : FVec F S1x1024 .f32) (i : (cc0_scratch0 : Ref sig .tc).ty.Idx)
    (hi : i ∈ (rowM 0 zero_lt32).view.set) :
    ((scr.access r0 : View sig .tc _ _ _).write (Elt F) f v Finset.univ) i = rowFill v i := by
  rw [← r0_set] at hi
  obtain ⟨y, rfl⟩ := View.exists_emb_of_mem_set _ hi
  rw [View.write_emb_of_mem _ _ (Finset.mem_univ y)]
  show v y = v (colIdx ((rowR 0 zero_lt32).emb y))
  rw [colIdx_row_emb]

theorem row0Pts_write_eq (c : Dev nD) (f : ScrC F) (v : FVec F S1x1024 .f32) :
    (row0Pts c ((scr.access r0 : View sig .tc _ _ _).write (Elt F) f v Finset.univ) : sProp 𝕄) = row0Pts c (rowFill v) := by
  unfold row0Pts
  exact BI.Region.is_congr fun i hi => write_row0 f v i hi

theorem colIdx_rowM_emb (k : ℕ) (hk : k < 32) (y : S1024.Idx) :
    colIdx ((rowM k hk).view.emb y) = Shape.reshapeEquiv squeezes_S1x1024_S1024.numel_eq y :=
  colIdx_row_emb k hk _

theorem landed_row (k : ℕ) (hk : k < 32) (fd : ScrC F) (v : FVec F S1x1024 .f32) (i : (cc0_scratch0 : Ref sig .tc).ty.Idx)
    (hi : i ∈ (rowM k hk).view.set) :
    ((rowM k hk).view.write (Elt F) fd ((rowM 0 zero_lt32).view.read (Elt F) (rowFill v)) Finset.univ) i = rowFill v i := by
  obtain ⟨y, rfl⟩ := View.exists_emb_of_mem_set _ hi
  rw [View.write_emb_of_mem _ _ (Finset.mem_univ y)]
  show v (colIdx ((rowM 0 zero_lt32).view.emb y)) = v (colIdx ((rowM k hk).view.emb y))
  rw [colIdx_rowM_emb, colIdx_rowM_emb]

theorem full_row (m : (ℓ : Loc nD τ sig) → Buf (Elt F) ℓ) (c : Dev nD) (k : ℕ) (hk : k < 32)
    (i : (cc0_scratch0 : Ref sig .tc).ty.Idx) (hi : i ∈ (rowM k hk).view.set) :
    full m c i = rowFill (S m (back c k)) i := by
  have h : (i 0).val = k := (mem_row k hk i).mp hi
  show S m (back c (i 0).val) (colIdx i) = S m (back c k) (colIdx i)
  rw [h]

theorem recvPay_full (m : (ℓ : Loc nD τ sig) → Buf (Elt F) ℓ) (c : Dev nD) (k : ℕ) (hk : k < 32) :
    recvPay m c k hk
      ⊢ ((rowM k hk).view.loc (c : Thread nD τ) ↦[(rowM k hk).view.set]{fullShare} (full m c) : sProp 𝕄) := by
  unfold recvPay
  refine exists_elim fun fd => Entails.of_eq ?_
  exact BI.Region.is_congr fun i hi => (landed_row k hk fd _ i hi).trans (full_row m c k hk i hi).symm

theorem row0_full_eq (m : (ℓ : Loc nD τ sig) → Buf (Elt F) ℓ) (c : Dev nD) :
    (row0Pts c (rowFill (S m c)) : sProp 𝕄)
      = ((rowM 0 zero_lt32).view.loc (c : Thread nD τ) ↦[(rowM 0 zero_lt32).view.set]{fullShare} (full m c)) := by
  unfold row0Pts
  refine BI.Region.is_congr fun i hi => ?_
  rw [full_row m c 0 zero_lt32 i hi, back_zero]

theorem row0_full (m : (ℓ : Loc nD τ sig) → Buf (Elt F) ℓ) (c : Dev nD) :
    row0Pts c (rowFill (S m c))
      ⊣⊢ ((rowM 0 zero_lt32).view.loc (c : Thread nD τ) ↦[(rowM 0 zero_lt32).view.set]{fullShare} (full m c) : sProp 𝕄) := by
  rw [row0_full_eq]

theorem rest_rows (c : Dev nD) :
    (Finset.univ \ (rowM 0 zero_lt32).view.set : Finset (Idx ((c : Thread nD τ).loc cc0_scratch0)))
      = Finset.univ.biUnion fun k : Fin 31 => (rowM (kk k) (kk_lt k)).view.set := by
  ext i
  have hi : (i 0).val < 32 := (i 0).isLt
  rw [Finset.mem_sdiff, Finset.mem_biUnion]
  constructor
  · rintro ⟨-, h⟩
    have h0 : (i 0).val ≠ 0 := fun e => h ((mem_row 0 zero_lt32 i).mpr e)
    refine ⟨⟨(i 0).val - 1, by omega⟩, Finset.mem_univ _, (mem_row _ _ i).mpr ?_⟩
    show (i 0).val = (i 0).val - 1 + 1
    omega
  · rintro ⟨k, -, hk⟩
    have hk' : (i 0).val = kk k := (mem_row _ _ i).mp hk
    refine ⟨Finset.mem_univ _, fun h => ?_⟩
    have h0 : (i 0).val = 0 := (mem_row 0 zero_lt32 i).mp h
    have := kk_pos k
    omega

theorem rows_disjoint (k k' : Fin 31) (h : k ≠ k') :
    Disjoint (rowM (kk k) (kk_lt k)).view.set (rowM (kk k') (kk_lt k')).view.set := by
  rw [Finset.disjoint_left]
  intro i hi hi'
  rw [mem_row] at hi hi'
  apply h
  apply Fin.ext
  unfold kk at hi hi'
  omega

theorem scr_rows (c : Dev nD) (f : ScrC F) :
    scrPts c f ⊣⊢ (iprop(row0Pts c f ∗ bigSep Finset.univ fun k : Fin 31 =>
      (rowM (kk k) (kk_lt k)).view.loc (c : Thread nD τ) ↦[(rowM (kk k) (kk_lt k)).view.set]{fullShare} f) : sProp 𝕄) := by
  have hsplit : (scrPts c f : sProp 𝕄)
      ⊣⊢ iprop(row0Pts c f ∗ ((c : Thread nD τ).loc cc0_scratch0) ↦[Finset.univ \ (rowM 0 zero_lt32).view.set]{fullShare} f) :=
    pointsTo_split_subset (Finset.subset_univ _)
  have hrest : (((c : Thread nD τ).loc cc0_scratch0) ↦[Finset.univ \ (rowM 0 zero_lt32).view.set]{fullShare} f : sProp 𝕄)
      = bigSep Finset.univ fun k : Fin 31 =>
        (rowM (kk k) (kk_lt k)).view.loc (c : Thread nD τ) ↦[(rowM (kk k) (kk_lt k)).view.set]{fullShare} f := by
    rw [rest_rows c]
    exact pointsTo_biUnion (ℓ := (c : Thread nD τ).loc cc0_scratch0) (q := fullShare) (f := f) Finset.univ
      (fun k : Fin 31 => (rowM (kk k) (kk_lt k)).view.set) fun k _ k' _ h => rows_disjoint k k' h
  rw [← hrest]
  exact hsplit

theorem row0_share (c : Dev nD) (f : ScrC F) (k : ℕ) :
    ((rowM 0 zero_lt32).view.loc (c : Thread nD τ) ↦[(rowM 0 zero_lt32).view.set]{qrest k} f : sProp 𝕄)
      ⊣⊢ iprop(((rowM 0 zero_lt32).view.loc (c : Thread nD τ) ↦[(rowM 0 zero_lt32).view.set]{q (k + 1)} f)
        ∗ ((rowM 0 zero_lt32).view.loc (c : Thread nD τ) ↦[(rowM 0 zero_lt32).view.set]{qrest (k + 1)} f)) := by
  show _ ⊣⊢ iprop(((rowM 0 zero_lt32).view.loc (c : Thread nD τ) ↦[(rowM 0 zero_lt32).view.set]{(qrest k).left} f)
        ∗ ((rowM 0 zero_lt32).view.loc (c : Thread nD τ) ↦[(rowM 0 zero_lt32).view.set]{(qrest k).right} f))
  exact pointsTo_share (PosShare.mem_left_op_right (qrest k))

theorem read_all (f : ScrC F) :
    (scr : Memref sig .tc .vmem S32x1024 .f32).view.readAt (Elt F) rAll.toLoadRect f = f :=
  Memref.readAt_unit_zero (Elt F) cc0_scratch0 (by funext a; fin_cases a <;> rfl) inb_S32x1024_S32x1024_0_0 f

end Cert.Kernel.Sum
end
-- ==== Proof.Body0Kernel.lean ====
import proofs.«901085_g7700000000001086_dist_sum_ax0_shard0_i_m2048_n1024_v7x_i32_f32_1_alg».proof.Proof.ObligKernel
import proofs.«901085_g7700000000001086_dist_sum_ax0_shard0_i_m2048_n1024_v7x_i32_f32_1_alg».proof.Proof.TablesKernel
import proofs.«901085_g7700000000001086_dist_sum_ax0_shard0_i_m2048_n1024_v7x_i32_f32_1_alg».proof.Proof.RowsKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

theorem idle_w0 : Kernel.idle0 0 (grid0.coords t0_0) = false := by decide
theorem idle_w1 : Kernel.idle0 1 (grid0.coords t0_0) = true := by decide
theorem flush_w1 : (win0 1).flush t0_0 = false := by decide
theorem idle_w0' : cfg0.idle 0 (cfg0.grid.coords t0_0) = false := by decide
theorem idle_w1' : cfg0.idle 1 (cfg0.grid.coords t0_0) = true := by decide
theorem flush_w1' : (cfg0.win 1).flush t0_0 = false := by decide

theorem prog_bind_ret {E : Type → Type} {α β : Type} (a : α) (k : α → Prog E β) : Prog.bind (Prog.ret a) k = k a := rfl

theorem cond1_t0 : k0_cond1 (grid0.coords t0_0) = 1#1 := by decide
theorem cond3_t0 : ¬ k0_cond3 (grid0.coords t0_0) = 1#1 := by decide

theorem before_x (c : Dev nD) (d) : (dats (F := F) m ρ 0 c).before 0 t0_0 d = xblk m c t0_0 := by
  unfold Dat.before; rw [if_pos (fetch0_0 t0_0)]; rfl

theorem chunk0 (c : Dev nD) (d) (g0 : BufTy.Contents (Elt F) (win0_0.stage (cfg0.slots t0_0 0)).view.ty)
    (hg0 : View.read (Elt F) (win0_0.stage (cfg0.slots t0_0 0)).view g0 = (dats (F := F) m ρ 0 c).before 0 t0_0 d) :
    (win0_0.stage (cfg0.slots t0_0 0)).view.readAt (Elt F) (Rect.unit (s := S256x1024) ![0, 0] S256x1024.size inb_S256x1024_S256x1024_0_0).toLoadRect g0
      = xblk m c (tN 0) := by
  have hr : (Memref.whole cc0_stg0_0 : Memref sig .tc .vmem S256x1024 .f32).view.readAt (Elt F)
      (Rect.unit (s := S256x1024) ![0, 0] S256x1024.size inb_S256x1024_S256x1024_0_0).toLoadRect g0 = g0 :=
    Memref.readAt_unit_zero (Elt F) cc0_stg0_0 (by funext a; fin_cases a <;> rfl) _ g0
  have hw : View.read (Elt F) (Memref.whole cc0_stg0_0 : Memref sig .tc .vmem S256x1024 .f32).view g0 = g0 := View.read_whole _ _
  exact hr.trans (hw.symm.trans (hg0.trans (before_x m ρ c d)))

theorem row0_after (c : Dev nD) (d) (g0 : BufTy.Contents (Elt F) (win0_0.stage (cfg0.slots t0_0 0)).view.ty)
    (hg0 : View.read (Elt F) (win0_0.stage (cfg0.slots t0_0 0)).view g0 = (dats (F := F) m ρ 0 c).before 0 t0_0 d) (f0 : ScrC F) :
    (row0Pts c ((scr.access r0 : View sig .tc _ _ _).write (Elt F) f0
        (k0_pay1 ((win0_0.stage (cfg0.slots t0_0 0)).view.readAt (Elt F) (Rect.unit (s := S256x1024) ![0, 0] S256x1024.size inb_S256x1024_S256x1024_0_0).toLoadRect g0))
        Finset.univ) : sProp 𝕄)
      = row0Pts c (rowFill (acc m c 0)) := by
  rw [row0Pts_write_eq, chunk0 m ρ c d g0 hg0]; rfl

end Body0

open Body0

-- Signal k pays the duty d = 32 - k of the barrier cell k places on, which hands over the signaller's own row d.
theorem pay_sig (c : Dev nD) (k : ℕ) (d : Fin 32) (hk : 1 ≤ k) (hd : 1 ≤ d.val) (hkd : k + d.val = 32) :
    (sumRd (F := F) m).payload (barCell (peer c k)) 0 d
      = iprop((∃ f, (rowM d.val d.isLt).view.loc (c : Thread nD τ) ↦[(rowM d.val d.isLt).view.set]{fullShare} f) ∗ reached ER (recvCell c d.val d.isLt) 0) :=
  payload_bar_out m c k d.val d.isLt hk hkd hd

attribute [local sl_rounds] duties_bar amount_bar pay_sig Fin.coe_ofNat_eq_mod
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq

set_option maxRecDepth 8192 in
set_option maxHeartbeats 4000000 in
theorem body_t0 (c : Dev nD) : ObligAt m ρ c Gen.t0_0 := by
  unfold ObligAt
  rw [bigSep_W0, bigSep_W0, idle_w1', flush_w1']
  rw [show (dats m ρ 0 c).Φ t0_0.castSucc = Φ₀ m c from rfl, show (dats m ρ 0 c).Φ t0_0.succ = Φmid m c 0 from rfl]
  simp only [idle_w0', idle_w0]
  unfold Dat.owesAt Pipeline.owesWithin
  have eO : O₀ c = O₀ c := rfl
  conv at eO =>
    rhs
    unfold O₀ Obar
    rw [← Equiv.sum_comp Fin.revPerm]
    simp only [Fin.sum_univ_succ, Fin.sum_univ_zero, add_zero, ← add_assoc, kk, Fin.revPerm_apply, Fin.val_rev, Fin.val_succ, Fin.val_zero, Nat.reduceAdd, Nat.reduceSub]
  rw [show (dats m ρ 0 c).owed t0_0.castSucc = O₀ c from rfl, show (dats m ρ 0 c).owed t0_0.succ = Orecv c from rfl, eO]
  sl_whnfR [defs₀, Defs.onTc]
  sl_unfold [cc0_body]
  sl_unfold [cc0_body_skel]
  unfold Φ₀ owns
  iintro ⟨⟨⟨%K, #Hinv, Hpos, #Hrch, Hsig, Hxfer⟩, Hcred, #Hlev, Hidle, ⟨%f0, Hscr⟩⟩, ⟨%W, %hW, HO⟩, ⟨%d0, %g0, %hg0, Hx⟩, Hout⟩
  have eI : invs m K c = invs m K c := rfl
  conv at eI =>
    rhs
    unfold invs
    simp only [sep31, kk, Fin.coe_ofNat_eq_mod, Fin.val_zero, Fin.val_one, Nat.reduceMod, Nat.reduceAdd]
  ihave HI := (Entails.of_eq eI) $$ Hinv
  icases HI with ⟨-, -, -, ⟨#I1, #I2, #I3, #I4, #I5, #I6, #I7, #I8, #I9, #I10, #I11, #I12, #I13, #I14, #I15, #I16, #I17, #I18, #I19, #I20, #I21, #I22, #I23, #I24, #I25, #I26, #I27, #I28, #I29, #I30, #I31⟩, -⟩
  have eR : rch (F := F) c = rch (F := F) c := rfl
  conv at eR =>
    rhs
    unfold rch
    simp only [sep31, kk, Fin.coe_ofNat_eq_mod, Fin.val_zero, Fin.val_one, Nat.reduceMod, Nat.reduceAdd]
  ihave HR := (Entails.of_eq eR) $$ Hrch
  icases HR with ⟨⟨#B1, #B2, #B3, #B4, #B5, #B6, #B7, #B8, #B9, #B10, #B11, #B12, #B13, #B14, #B15, #B16, #B17, #B18, #B19, #B20, #B21, #B22, #B23, #B24, #B25, #B26, #B27, #B28, #B29, #B30, #B31⟩, -, -, ⟨#V1, #V2, #V3, #V4, #V5, #V6, #V7, #V8, #V9, #V10, #V11, #V12, #V13, #V14, #V15, #V16, #V17, #V18, #V19, #V20, #V21, #V22, #V23, #V24, #V25, #V26, #V27, #V28, #V29, #V30, #V31⟩⟩
  have eT : sigToks (F := F) c = sigToks (F := F) c := rfl
  conv at eT =>
    rhs
    unfold sigToks
    simp only [sep31, kk, Fin.coe_ofNat_eq_mod, Fin.val_zero, Fin.val_one, Nat.reduceMod, Nat.reduceAdd, negD, Nat.reduceSub, Fin.reduceFinMk, Fin.mk_one]
  ihave HT := (Entails.of_eq eT) $$ Hsig
  icases HT with ⟨T1, T2, T3, T4, T5, T6, T7, T8, T9, T10, T11, T12, T13, T14, T15, T16, T17, T18, T19, T20, T21, T22, T23, T24, T25, T26, T27, T28, T29, T30, T31⟩
  ihave HS := (scr_rows c f0).1 $$ Hscr
  icases HS with ⟨Hrow0, Hrows⟩
  have eS := bigSep_univ_equiv Fin.revPerm (fun k : Fin 31 => ((rowM (kk k) (kk_lt k)).view.loc (c : Thread nD τ) ↦[(rowM (kk k) (kk_lt k)).view.set]{fullShare} f0 : sProp 𝕄))
  conv at eS =>
    rhs
    simp only [sep31, kk, Fin.coe_ofNat_eq_mod, Fin.val_zero, Fin.val_one, Nat.reduceMod, Nat.reduceAdd, Fin.revPerm_apply, Fin.val_rev, Nat.reduceSub]
  ihave HS' := (Entails.of_eq eS) $$ Hrows
  icases HS' with ⟨R31, R30, R29, R28, R27, R26, R25, R24, R23, R22, R21, R20, R19, R18, R17, R16, R15, R14, R13, R12, R11, R10, R9, R8, R7, R6, R5, R4, R3, R2, R1⟩
  have h1 := cond1_t0
  have h3 := cond3_t0
  sl_exec_parts (disch := sl_decide)

  unfold row0Pts
  iapply (wp_load 𝒱₀ (c : Thread nD τ) none Set.univ (m := scr) r0_load_sub) $$ Hrow0; iintro Hrow0
  iapply (wp_store 𝒱₀ (c : Thread nD τ) none Set.univ (m := scr) (r := r0) (Mk := Finset.univ) r0_store_sub) $$ Hrow0; iintro Hrow0
  sl_rw [prog_bind_ret]

  sl_exec (disch := sl_decide)
  sl_step

  unfold Φmid
  isplitl [Hpos Hxfer Hcred Hidle Hrow0]
  · isplitl [Hpos Hxfer]
    · iexists K
      isplitr; · iexact Hinv
      isplitl [Hpos]; · iexact Hpos
      isplitr; · iexact Hrch
      iexact Hxfer
    isplitl [Hcred]; · iexact Hcred
    isplitr; · iexact Hlev
    isplitl [Hidle]; · iexact Hidle
    iapply (Entails.of_eq (row0_after m ρ c d0 g0 hg0 f0))
    unfold row0Pts; iexact Hrow0
  isplitl [HO]
  · iexists W
    isplitr; · ipureintro; exact fun _ _ => Or.inl trivial
    iexact HO
  isplitl [Hx]
  · iexists g0
    isplitr; · ipureintro; exact hg0.trans (before_x m ρ c d0)
    iexact Hx
  · iexact Hout

end Cert.Kernel.Sum
end
-- ==== Proof.BodyMidKernel.lean ====
import proofs.«901085_g7700000000001086_dist_sum_ax0_shard0_i_m2048_n1024_v7x_i32_f32_1_alg».proof.Proof.ObligKernel
import proofs.«901085_g7700000000001086_dist_sum_ax0_shard0_i_m2048_n1024_v7x_i32_f32_1_alg».proof.Proof.RowsKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem cond1_mid : ∀ t : Fin grid0.N, 1 ≤ t.val → ¬ (k0_cond1 (grid0.coords t) = 1#1) := by decide
theorem cond3_mid : ∀ t : Fin grid0.N, t.val ≤ 6 → ¬ (k0_cond3 (grid0.coords t) = 1#1) := by decide
theorem cond2_mid : ∀ t : Fin grid0.N, 1 ≤ t.val → Scalar.cmpi .ne (Scalar.extui (Scalar.cmpi .sgt (BitVec.ofNat 32 ((grid0.coords t) 0).val) 0#32)) 0#32 = 1#1 := by decide

theorem Φ_before (c : Dev nD) (t : Fin cfg0.N) (ht : 1 ≤ t.val ∧ t.val ≤ 6) : (dats (F := F) m ρ 0 c).Φ t.castSucc = Φmid m c (t.val - 1) := by
  obtain ⟨n, hn⟩ := t
  cases n with
  | zero => exact absurd ht.1 (Nat.not_succ_le_zero 0)
  | succ n => exact if_pos (by simp only [] at ht; omega)
theorem Φ_after (c : Dev nD) (t : Fin cfg0.N) (ht : 1 ≤ t.val ∧ t.val ≤ 6) : (dats (F := F) m ρ 0 c).Φ t.succ = Φmid m c t.val := by
  obtain ⟨n, hn⟩ := t
  exact if_pos (by simp only [] at ht; omega)
theorem owed_before (c : Dev nD) (t : Fin cfg0.N) (ht : 1 ≤ t.val ∧ t.val ≤ 6) : (dats (F := F) m ρ 0 c).owed t.castSucc = Orecv c := by
  obtain ⟨n, hn⟩ := t
  cases n with
  | zero => exact absurd ht.1 (Nat.not_succ_le_zero 0)
  | succ n => exact if_pos (by simp only [] at ht; omega)
theorem owed_after (c : Dev nD) (t : Fin cfg0.N) (ht : 1 ≤ t.val ∧ t.val ≤ 6) : (dats (F := F) m ρ 0 c).owed t.succ = Orecv c := by
  obtain ⟨n, hn⟩ := t
  exact if_pos (by simp only [] at ht; omega)

theorem idle1_mid : ∀ t : Fin grid0.N, t.val ≤ 6 → idle0 1 (grid0.coords t) = true := by decide
theorem flush1_mid (t : Fin cfg0.N) (ht : t.val ≤ 6) : (win0 1).flush t = false := by
  have h := (flush0_1 t).not
  have h8 : t.val < 8 := by have := t.isLt; have := cfg0_N; omega
  cases hf : (win0 1).flush t with
  | false => rfl
  | true => exact absurd ((flush0_1 t).mp hf) (by omega)

theorem read_chunk (arg1 : Memref sig .tc .vmem S256x1024 .f32) (f : arg1.view.ty.Contents (Elt F)) :
    arg1.view.readAt (Elt F) (Rect.unit (s := S256x1024) ![0, 0] S256x1024.size inb_S256x1024_S256x1024_0_0).toLoadRect f = arg1.view.read (Elt F) f := by
  funext y
  rw [View.readAt_apply]
  congr 1
  funext a
  apply Fin.ext
  rw [LoadRect.idx_apply]
  fin_cases a
  · show 0 + 1 * (y 0).val = (y 0).val
    omega
  · show 0 + 1 * (y 1).val = (y 1).val
    omega

theorem accum_step (c : Dev nD) (arg1 : Memref sig .tc .vmem S256x1024 .f32) (v : FVec F S1x1024 .f32) (x : Vec F S256x1024 .f32)
    {α : Type} (k : PUnit → Prog (TpuEff nD τ sig (Elt F) Λ₀ .tc) α) (Q : α → sProp 𝕄)
    (hl0 : (scr : Memref sig .tc .vmem S32x1024 .f32).view.LoadsAt r0.toLoadRect)
    (hlx : arg1.view.LoadsAt (Rect.unit (s := S256x1024) ![0, 0] S256x1024.size inb_S256x1024_S256x1024_0_0).toLoadRect)
    (hs : ((scr : Memref sig .tc .vmem S32x1024 .f32).access r0).Stores Finset.univ)
    (hm : (Finset.univ : Finset r0.shape.Idx) = Finset.univ ∨ ∀ a, r0.stride a = 1) :
    iprop(row0Pts c (rowFill v) ∗ owns (Ix := Unit) (Name := ℕ) (U := UU) (Lvl := ℕ) (c : Thread nD τ) arg1 fullShare x
        ∗ ((row0Pts c (rowFill (k0_pay2 v x)) ∗ owns (Ix := Unit) (Name := ℕ) (U := UU) (Lvl := ℕ) (c : Thread nD τ) arg1 fullShare x)
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scr r0.toLoadRect hl0) fun v13 =>
           .op (.load arg1 (Rect.unit (s := S256x1024) ![0, 0] S256x1024.size inb_S256x1024_S256x1024_0_0).toLoadRect hlx) fun v14 =>
           .op (.load scr r0.toLoadRect hl0) fun _ =>
           .op (.store scr r0 (k0_pay2 v13 v14) Finset.univ hs hm) k) Q := by
  iintro ⟨Hrow, Hx, Hk⟩
  unfold row0Pts owns
  icases Hx with ⟨%f, %hf, Hx⟩
  iapply (wp_load 𝒱₀ (c : Thread nD τ) none Set.univ (m := scr) r0_load_sub) $$ Hrow; iintro Hrow
  rw [read_row0]
  iapply (wp_load 𝒱₀ (c : Thread nD τ) none Set.univ (m := arg1) (View.setOn_subset_set _ _)) $$ Hx; iintro Hx
  rw [read_chunk, hf]
  iapply (wp_load 𝒱₀ (c : Thread nD τ) none Set.univ (m := scr) r0_load_sub) $$ Hrow; iintro Hrow
  iapply (wp_store 𝒱₀ (c : Thread nD τ) none Set.univ (m := scr) (r := r0) (Mk := Finset.univ) r0_store_sub) $$ Hrow; iintro Hrow
  have e := row0Pts_write_eq (F := F) c (rowFill v) (k0_pay2 v x)
  unfold row0Pts at e
  iapply Hk
  isplitl [Hrow]
  · iapply (Entails.of_eq e)
    iexact Hrow
  · iexists f
    isplitr
    · ipureintro; exact hf
    iexact Hx

theorem before0_mid (c : Dev nD) (t : Fin cfg0.N) (d : (cfg0.win 0).block.Idx → Elt F (cfg0.win 0).elt) :
    (dats (F := F) m ρ 0 c).before 0 t d = xblk m c t := by
  unfold Dat.before
  rw [if_pos (fetch0_0 t)]
  rfl

theorem acc_step (c : Dev nD) (t : Fin cfg0.N) (ht : 1 ≤ t.val) : acc m c t.val = k0_pay2 (acc m c (t.val - 1)) (xblk m c t) := by
  obtain ⟨n, hn⟩ := t
  cases n with
  | zero => exact absurd ht (Nat.not_succ_le_zero 0)
  | succ n =>
    have h8 : n + 1 < 8 := by have := cfg0_N; omega
    have hN : tN (n + 1) = (⟨n + 1, hn⟩ : Fin cfg0.N) := Fin.ext (Nat.mod_eq_of_lt h8)
    show acc m c (n + 1) = k0_pay2 (acc m c (n + 1 - 1)) (xblk m c ⟨n + 1, hn⟩)
    rw [Nat.add_sub_cancel, ← hN]
    rfl

theorem body_mid (c : Dev nD) (t : Fin cfg0.N) (ht : 1 ≤ t.val ∧ t.val ≤ 6) : ObligAt m ρ c t := by
  unfold ObligAt Dat.owesAt
  rw [Φ_before m ρ c t ht, Φ_after m ρ c t ht, owed_before m ρ c t ht, owed_after m ρ c t ht, bigSep_W0, bigSep_W0]
  simp only [idle1_mid t ht.2, flush1_mid t ht.2]
  show _ ⊢ wp frame _ Set.univ (bodyAt0 t) _
  unfold bodyAt0
  rw [cc0_body_eq_skeleton]
  unfold cc0_body_skel
  simp only [cond1_mid t ht.1, cond2_mid t ht.1, cond3_mid t ht.2, ↓reduceDIte, Prog.bind_lift]
  iintro ⟨HΦ, HO, Hw0, Hw1⟩
  unfold Φmid
  icases HΦ with ⟨Hghost, Hcred, Hlev, Hidle, Hrow⟩
  icases Hw0 with ⟨%d, Hx⟩
  rw [before0_mid, acc_step m c t ht.1]
  sl_step
  iapply (accum_step c (stage0_0 (cfg0.slots t 0)) (acc m c (t.val - 1)) (xblk m c t) (fun _ => Pure.pure PUnit.unit) _ _ _ _ _)
  isplitl [Hrow]
  · iexact Hrow
  isplitl [Hx]
  · iexact Hx
  iintro ⟨Hrow, Hx⟩
  iapply (le_wp_ret _ _)
  isplitl [Hghost Hcred Hlev Hidle Hrow]
  · isplitl [Hghost]
    · iexact Hghost
    isplitl [Hcred]
    · iexact Hcred
    isplitl [Hlev]
    · iexact Hlev
    isplitl [Hidle]
    · iexact Hidle
    iexact Hrow
  isplitl [HO]
  · icases HO with ⟨%W, %hW, HO⟩
    iexists W
    isplitr
    · ipureintro; exact fun _ _ => Or.inl trivial
    iexact HO
  isplitl [Hx]
  · iexact Hx
  iexact Hw1

end Cert.Kernel.Sum
end
-- ==== Proof.DebtKernel.lean ====
import proofs.«901085_g7700000000001086_dist_sum_ax0_shard0_i_m2048_n1024_v7x_i32_f32_1_alg».proof.Proof.DataKernel

set_option maxRecDepth 8192

noncomputable section

namespace Cert.Kernel.Sum

open Cert.Kernel Cert.Kernel.Gen
open Idealize.ShloMosaic
open Idealize.ShloMosaic.TcCoe
open Idealize.SL Idealize.SL.Sem

theorem Orecv_desc0 (c : Dev nD) : Orecv c = ((((((((((((((((((((((((((((((((0 : CellTallies nD τ sig Unit) + tallyAt (recvCell (peer c 31) 31 (by decide)) () N) + tallyAt (recvCell (peer c 30) 30 (by decide)) () N) + tallyAt (recvCell (peer c 29) 29 (by decide)) () N) + tallyAt (recvCell (peer c 28) 28 (by decide)) () N) + tallyAt (recvCell (peer c 27) 27 (by decide)) () N) + tallyAt (recvCell (peer c 26) 26 (by decide)) () N) + tallyAt (recvCell (peer c 25) 25 (by decide)) () N) + tallyAt (recvCell (peer c 24) 24 (by decide)) () N) + tallyAt (recvCell (peer c 23) 23 (by decide)) () N) + tallyAt (recvCell (peer c 22) 22 (by decide)) () N) + tallyAt (recvCell (peer c 21) 21 (by decide)) () N) + tallyAt (recvCell (peer c 20) 20 (by decide)) () N) + tallyAt (recvCell (peer c 19) 19 (by decide)) () N) + tallyAt (recvCell (peer c 18) 18 (by decide)) () N) + tallyAt (recvCell (peer c 17) 17 (by decide)) () N) + tallyAt (recvCell (peer c 16) 16 (by decide)) () N) + tallyAt (recvCell (peer c 15) 15 (by decide)) () N) + tallyAt (recvCell (peer c 14) 14 (by decide)) () N) + tallyAt (recvCell (peer c 13) 13 (by decide)) () N) + tallyAt (recvCell (peer c 12) 12 (by decide)) () N) + tallyAt (recvCell (peer c 11) 11 (by decide)) () N) + tallyAt (recvCell (peer c 10) 10 (by decide)) () N) + tallyAt (recvCell (peer c 9) 9 (by decide)) () N) + tallyAt (recvCell (peer c 8) 8 (by decide)) () N) + tallyAt (recvCell (peer c 7) 7 (by decide)) () N) + tallyAt (recvCell (peer c 6) 6 (by decide)) () N) + tallyAt (recvCell (peer c 5) 5 (by decide)) () N) + tallyAt (recvCell (peer c 4) 4 (by decide)) () N) + tallyAt (recvCell (peer c 3) 3 (by decide)) () N) + tallyAt (recvCell (peer c 2) 2 (by decide)) () N) + tallyAt (recvCell (peer c 1) 1 (by decide)) () N) := by
  rw [zero_add]; unfold Orecv; rw [← Equiv.sum_comp Fin.revPerm]; simp only [Fin.sum_univ_succ, Fin.sum_univ_zero, add_zero, ← add_assoc]; rfl

end Cert.Kernel.Sum

end
-- ==== Proof.ExchangeKernel.lean ====
import proofs.«901085_g7700000000001086_dist_sum_ax0_shard0_i_m2048_n1024_v7x_i32_f32_1_alg».proof.Proof.RowsKernel
import proofs.«901085_g7700000000001086_dist_sum_ax0_shard0_i_m2048_n1024_v7x_i32_f32_1_alg».proof.Proof.TablesKernel
import Idealize.ShloMosaic.Lib.Rounds

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local macro "row0% " c:term:max p:term:max f:term:max : term =>
  `(((rowM 0 zero_lt32).view.loc ($c : Thread nD τ) ↦[(rowM 0 zero_lt32).view.set]{$p} $f))

theorem row0_share_eq (c : Dev nD) (f : ScrC F) (k : ℕ) :
    (row0% c (qrest k) f : sProp 𝕄) = iprop(row0% c (q (k + 1)) f ∗ row0% c (qrest (k + 1)) f) :=
  BI.equiv_iff.mp ⟨(row0_share c f k).1, (row0_share c f k).2⟩

def shareChain (c : Dev nD) (f : ScrC F) : ℕ → ℕ → sProp 𝕄
  | 0, k => row0% c (qrest k) f
  | n + 1, k => iprop(row0% c (q (k + 1)) f ∗ shareChain c f n (k + 1))

theorem shareChain_eq (c : Dev nD) (f : ScrC F) (n k : ℕ) : (row0% c (qrest k) f : sProp 𝕄) = shareChain c f n k := by
  induction n generalizing k with
  | zero => rfl
  | succ n ih =>
    show _ = iprop(row0% c (q (k + 1)) f ∗ shareChain c f n (k + 1))
    rw [← ih (k + 1)]
    exact row0_share_eq c f k

theorem row0_shares_lit (c : Dev nD) (f : ScrC F) :
    (row0Pts c f : sProp 𝕄) = iprop(row0% c (q 1) f ∗ row0% c (q 2) f ∗ row0% c (q 3) f ∗ row0% c (q 4) f ∗ row0% c (q 5) f
      ∗ row0% c (q 6) f ∗ row0% c (q 7) f ∗ row0% c (q 8) f ∗ row0% c (q 9) f ∗ row0% c (q 10) f ∗ row0% c (q 11) f
      ∗ row0% c (q 12) f ∗ row0% c (q 13) f ∗ row0% c (q 14) f ∗ row0% c (q 15) f ∗ row0% c (q 16) f ∗ row0% c (q 17) f
      ∗ row0% c (q 18) f ∗ row0% c (q 19) f ∗ row0% c (q 20) f ∗ row0% c (q 21) f ∗ row0% c (q 22) f ∗ row0% c (q 23) f
      ∗ row0% c (q 24) f ∗ row0% c (q 25) f ∗ row0% c (q 26) f ∗ row0% c (q 27) f ∗ row0% c (q 28) f ∗ row0% c (q 29) f
      ∗ row0% c (q 30) f ∗ row0% c (q 31) f ∗ row0% c (qrest 31) f) :=
  shareChain_eq c f 31 0

theorem sep_assoc_eq (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩

theorem row0_shares (c : Dev nD) (f : ScrC F) :
    row0Pts c f ⊣⊢ (iprop((bigSep Finset.univ fun k : Fin 31 => row0% c (q (kk k)) f) ∗ row0% c (qrest 31) f) : sProp 𝕄) := by
  rw [row0_shares_lit, sep31]
  simp only [sep_assoc_eq]
  exact ⟨.rfl, .rfl⟩

theorem close_send (m : (ℓ : Loc nD τ sig) → Buf (Elt F) ℓ) (K : GSem nD τ sig → ℕ) (c : Dev nD) (k : ℕ) (hk : k < 32) :
    iprop(cellInv ER (sumRd m) (K (sendCell c k hk)) (sendCell c k hk) ∗ atPos ER (sendCell c k hk) 1 ∅ 0)
      ⊢ (|={Set.univ}=> semVal (sendCell c k hk) 0 : sProp 𝕄) :=
  Rounds.cell_close ER (sumRd m) (Set.mem_univ _) (fun h => h) (R := 1) (fun r hr => duties_later m _ r hr)

theorem close_recv (m : (ℓ : Loc nD τ sig) → Buf (Elt F) ℓ) (K : GSem nD τ sig → ℕ) (c : Dev nD) (k : ℕ) (hk : k < 32) :
    iprop(cellInv ER (sumRd m) (K (recvCell c k hk)) (recvCell c k hk) ∗ atPos ER (recvCell c k hk) 1 ∅ 0)
      ⊢ (|={Set.univ}=> semVal (recvCell c k hk) 0 : sProp 𝕄) :=
  Rounds.cell_close ER (sumRd m) (Set.mem_univ _) (fun h => h) (R := 1) (fun r hr => duties_later m _ r hr)

theorem scr_rows_eq (c : Dev nD) (f : ScrC F) :
    (scrPts c f : sProp 𝕄) = iprop(row0Pts c f ∗ bigSep Finset.univ fun k : Fin 31 =>
      (rowM (kk k) (kk_lt k)).view.loc (c : Thread nD τ) ↦[(rowM (kk k) (kk_lt k)).view.set]{fullShare} f) :=
  BI.equiv_iff.mp ⟨(scr_rows c f).1, (scr_rows c f).2⟩

theorem rows_join (m : (ℓ : Loc nD τ sig) → Buf (Elt F) ℓ) (c : Dev nD) :
    iprop(row0Pts c (rowFill (S m c)) ∗ bigSep Finset.univ fun k : Fin 31 => recvPay m c (kk k) (kk_lt k))
      ⊢ (scrPts c (full m c) : sProp 𝕄) := by
  rw [scr_rows_eq c (full m c)]
  exact BIClass.sep_mono (row0_full m c).1 (bigSep_mono fun k _ => recvPay_full m c (kk k) (kk_lt k))

end Cert.Kernel.Sum
end
-- ==== Proof.Finish7Kernel.lean ====
import proofs.«901085_g7700000000001086_dist_sum_ax0_shard0_i_m2048_n1024_v7x_i32_f32_1_alg».proof.Proof.ExchangeKernel

set_option maxRecDepth 8192

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem finish7_big (K : GSem nD τ sig → ℕ) (c : Dev nD) :
    iprop((bigSep Finset.univ fun k : Fin 31 => cellInv ER (sumRd m) (K (sendCell c (kk k) (kk_lt k))) (sendCell c (kk k) (kk_lt k)))
      ∗ (bigSep Finset.univ fun k : Fin 31 => cellInv ER (sumRd m) (K (recvCell c (kk k) (kk_lt k))) (recvCell c (kk k) (kk_lt k)))
      ∗ (bigSep Finset.univ fun k : Fin 31 => atPos ER (sendCell c (kk k) (kk_lt k)) 1 ∅ 0)
      ∗ (bigSep Finset.univ fun k : Fin 31 => atPos ER (recvCell c (kk k) (kk_lt k)) 1 ∅ 0)
      ∗ (bigSep Finset.univ fun k : Fin 31 => (sumRd (F := F) m).payload (recvCell c (kk k) (kk_lt k)) 0 (0 : Fin 32))
      ∗ (bigSep Finset.univ fun k : Fin 31 => ((rowM 0 zero_lt32).view.loc (c : Thread nD τ) ↦[(rowM 0 zero_lt32).view.set]{q (kk k)} (rowFill (S m c))))
      ∗ ((rowM 0 zero_lt32).view.loc (c : Thread nD τ) ↦[(rowM 0 zero_lt32).view.set]{qrest 31} (rowFill (S m c))))
      ⊢ (|={Set.univ}=> iprop(scrPts c (full m c)
          ∗ (bigSep Finset.univ fun k : Fin 31 => semVal (sendCell c (kk k) (kk_lt k)) 0)
          ∗ (bigSep Finset.univ fun k : Fin 31 => semVal (recvCell c (kk k) (kk_lt k)) 0)) : sProp 𝕄) := by
  have hpay : (bigSep Finset.univ fun k : Fin 31 => ((sumRd (F := F) m).payload (recvCell c (kk k) (kk_lt k)) 0 (0 : Fin 32) : sProp 𝕄))
      ⊢ bigSep Finset.univ fun k : Fin 31 => recvPay m c (kk k) (kk_lt k) :=
    bigSep_mono fun k _ => Entails.of_eq (payload_recv m c (kk k) (kk_lt k) (kk_pos k) (0 : Fin 32))
  iintro ⟨HIs, HIr, Hps, Hpr, Hpay, Hsh, Hrest⟩

  imod (show iprop((bigSep Finset.univ fun k : Fin 31 => cellInv ER (sumRd m) (K (sendCell c (kk k) (kk_lt k))) (sendCell c (kk k) (kk_lt k)))
        ∗ (bigSep Finset.univ fun k : Fin 31 => atPos ER (sendCell c (kk k) (kk_lt k)) 1 ∅ 0))
      ⊢ (|={Set.univ}=> bigSep Finset.univ fun k : Fin 31 => semVal (sendCell c (kk k) (kk_lt k)) 0 : sProp 𝕄) from by
        rw [← bigSep_sep']
        exact (bigSep_mono fun k _ => close_send m K c (kk k) (kk_lt k)).trans (bigSep_fupd _ _)) $$ [HIs Hps] with Hzs
  · isplitl [HIs] <;> iassumption
  imod (show iprop((bigSep Finset.univ fun k : Fin 31 => cellInv ER (sumRd m) (K (recvCell c (kk k) (kk_lt k))) (recvCell c (kk k) (kk_lt k)))
        ∗ (bigSep Finset.univ fun k : Fin 31 => atPos ER (recvCell c (kk k) (kk_lt k)) 1 ∅ 0))
      ⊢ (|={Set.univ}=> bigSep Finset.univ fun k : Fin 31 => semVal (recvCell c (kk k) (kk_lt k)) 0 : sProp 𝕄) from by
        rw [← bigSep_sep']
        exact (bigSep_mono fun k _ => close_recv m K c (kk k) (kk_lt k)).trans (bigSep_fupd _ _)) $$ [HIr Hpr] with Hzr
  · isplitl [HIr] <;> iassumption
  imodintro
  isplitl [Hpay Hsh Hrest]
  ·
    ihave Hrow0 := (row0_shares c (rowFill (S m c))).2 $$ [Hsh Hrest]
    · isplitl [Hsh] <;> iassumption
    ihave Hpay' := hpay $$ Hpay
    iapply (rows_join m c)
    isplitl [Hrow0] <;> iassumption
  isplitl [Hzs] <;> iassumption

end Cert.Kernel.Sum
end
-- ==== Proof.Tail7Kernel.lean ====
import proofs.«901085_g7700000000001086_dist_sum_ax0_shard0_i_m2048_n1024_v7x_i32_f32_1_alg».proof.Proof.RowsKernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem out_rect_zero : (![0, 0] : Fin 2 → ℕ) = fun _ => 0 := by funext a; fin_cases a <;> rfl

theorem read_write_whole {Val : EltTy → Type} {κ : Kind} {sp : Space} {s : Shape} {e : EltTy} (M : Memref sig κ sp s e) (hM : M.IsWhole)
    {off : Fin s.rank → ℕ} (hz : off = fun _ => 0) (inb : ∀ a, off a + s.size a ≤ s.size a)
    (f : M.view.ty.Contents Val) (w : s.Idx → Val e) :
    M.view.read Val ((M.access (Rect.unit off s.size inb) : View sig κ _ _ _).write Val f w Finset.univ) = w := by
  obtain ⟨b, rfl, rfl, rfl, hb⟩ := hM
  cases hb
  rw [Memref.write_access_unit_zero_univ Val b hz inb f w]
  rfl

theorem tail7_op (m : (ℓ : Loc nD τ sig) → Buf (Elt F) ℓ) (c : Dev nD) (arg2 : Memref sig .tc .vmem S1x1024 .f32) (harg2 : arg2.IsWhole)
    (X : Vec F S1x1024 .f32) (Q : PUnit → sProp 𝕄)
    (hlA : (scr : Memref sig .tc .vmem S32x1024 .f32).view.LoadsAt rAll.toLoadRect)
    (hlo : arg2.view.LoadsAt (Rect.unit (s := S1x1024) ![0, 0] S1x1024.size inb_S1x1024_S1x1024_0_0).toLoadRect)
    (hs : (arg2.access (Rect.unit (s := S1x1024) ![0, 0] S1x1024.size inb_S1x1024_S1x1024_0_0)).Stores Finset.univ)
    (hm : (Finset.univ : Finset (Rect.unit (s := S1x1024) ![0, 0] S1x1024.size inb_S1x1024_S1x1024_0_0).shape.Idx) = Finset.univ
      ∨ ∀ a, (Rect.unit (s := S1x1024) ![0, 0] S1x1024.size inb_S1x1024_S1x1024_0_0).stride a = 1) :
    iprop(scrPts c (full m c) ∗ owns (Ix := Unit) (Name := ℕ) (U := UU) (Lvl := ℕ) (c : Thread nD τ) arg2 fullShare X
        ∗ ((scrPts c (full m c) ∗ owns (Ix := Unit) (Name := ℕ) (U := UU) (Lvl := ℕ) (c : Thread nD τ) arg2 fullShare (outAt m c)) -∗ Q ⟨⟩))
      ⊢ wp frame (wpE (defs₀ (F := F)) 𝒱₀ (c : Thread nD τ) none) Set.univ
          (.op (.load scr rAll.toLoadRect hlA) fun v1098 =>
           .op (.load arg2 (Rect.unit (s := S1x1024) ![0, 0] S1x1024.size inb_S1x1024_S1x1024_0_0).toLoadRect hlo) fun _ =>
           .op (.store arg2 (Rect.unit (s := S1x1024) ![0, 0] S1x1024.size inb_S1x1024_S1x1024_0_0) (k0_pay3 v1098) Finset.univ hs hm) fun _ =>
             Pure.pure PUnit.unit) Q := by
  unfold scrPts owns
  iintro ⟨Hs, ⟨%f, %hf, Ho⟩, Hk⟩
  iapply (wp_load 𝒱₀ (c : Thread nD τ) none Set.univ (m := scr) (Finset.subset_univ _)) $$ Hs; iintro Hs
  rw [read_all]
  iapply (wp_load 𝒱₀ (c : Thread nD τ) none Set.univ (m := arg2) (View.setOn_subset_set _ _)) $$ Ho; iintro Ho
  iapply (wp_store 𝒱₀ (c : Thread nD τ) none Set.univ (m := arg2)
    (r := Rect.unit (s := S1x1024) ![0, 0] S1x1024.size inb_S1x1024_S1x1024_0_0) (Mk := Finset.univ)
    (by rw [View.setOn_univ]; exact View.set_slice_subset _ _)) $$ Ho; iintro Ho
  rw [Prog.pure_eq_ret, wp_ret]; imodintro
  iapply Hk
  isplitl [Hs]
  · iexact Hs
  · iexists _
    isplitr
    · ipureintro
      exact read_write_whole arg2 harg2 out_rect_zero inb_S1x1024_S1x1024_0_0 f (k0_pay3 (full m c))
    iexact Ho

end Cert.Kernel.Sum
end
-- ==== Proof.Body7Kernel.lean ====
import proofs.«901085_g7700000000001086_dist_sum_ax0_shard0_i_m2048_n1024_v7x_i32_f32_1_alg».proof.Proof.BodyMidKernel
import proofs.«901085_g7700000000001086_dist_sum_ax0_shard0_i_m2048_n1024_v7x_i32_f32_1_alg».proof.Proof.DebtKernel
import proofs.«901085_g7700000000001086_dist_sum_ax0_shard0_i_m2048_n1024_v7x_i32_f32_1_alg».proof.Proof.LevelsKernel
import proofs.«901085_g7700000000001086_dist_sum_ax0_shard0_i_m2048_n1024_v7x_i32_f32_1_alg».proof.Proof.Finish7Kernel
import proofs.«901085_g7700000000001086_dist_sum_ax0_shard0_i_m2048_n1024_v7x_i32_f32_1_alg».proof.Proof.Tail7Kernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cond1_7 : ¬ (k0_cond1 (grid0.coords t0_7) = 1#1) := by decide
theorem cond3_7 : k0_cond3 (grid0.coords t0_7) = 1#1 := by decide
theorem acc_last (c : Dev nD) : k0_pay2 (acc m c 6) (xblk m c t0_7) = S m c := (acc_step m c t0_7 (by decide)).symm

attribute [local sl_rounds] duties_bar amount_bar expect_bar amount_send amount_recv duties_send duties_recv expect_send expect_recv payload_send_pts payload_recv_out

set_option hygiene false in
local macro "copy_step " e:ident : tactic => `(tactic| (
  icases Hsh with ⟨Hqk, Hsh⟩
  icases Hp with ⟨⟨⟨%fk, Hdk⟩, -⟩, Hp⟩
  icases HtP with ⟨HtPk, HtP⟩
  icases HtS with ⟨HtSk, HtS⟩
  icases HIsC with ⟨#HIsk, #HIsC⟩
  icases HIpC with ⟨#HIpk, #HIpC⟩
  icases HrPC with ⟨#HrPk, #HrPC⟩
  icases HrSC with ⟨#HrSk, #HrSC⟩
  sl_exec (disch := simp only [$e:ident])
  iclear HIpk HrPk HrSk))

set_option sl_exec.stepHeartbeats 400000 in
set_option maxHeartbeats 40000000 in
theorem body_t7 (c : Dev nD) : ObligAt m ρ c t0_7 := by
  unfold ObligAt Dat.owesAt
  rw [show (dats (F := F) m ρ 0 c).Φ (t0_7 : Fin cfg0.N).castSucc = Φmid m c 6 from rfl,
    show (dats (F := F) m ρ 0 c).Φ (t0_7 : Fin cfg0.N).succ = Φend m c from rfl,
    show (dats (F := F) m ρ 0 c).owed (t0_7 : Fin cfg0.N).castSucc = Orecv c from rfl,
    show (dats (F := F) m ρ 0 c).owed (t0_7 : Fin cfg0.N).succ = 0 from rfl, bigSep_W0, bigSep_W0]
  rw [show cfg0.idle (1 : Fin 2) (cfg0.grid.coords t0_7) = false from by decide]
  dsimp only
  show _ ⊢ wp frame _ Set.univ (bodyAt0 t0_7) _
  unfold bodyAt0
  rw [cc0_body_eq_skeleton]
  unfold cc0_body_skel
  simp only [cond1_7, cond2_mid t0_7 (by decide), cond3_7, ↓reduceDIte, Prog.bind_lift]
  iintro ⟨HΦ, HO, Hw0, Hw1⟩
  unfold Φmid
  icases HΦ with ⟨⟨%K, HI, Hpos, Hrch, Htok⟩, Hcred, #Hlev, Hidle, Hrow⟩
  icases Hw0 with ⟨%d, Hx⟩
  rw [before0_mid]
  sl_step

  iapply (accum_step c (stage0_0 (cfg0.slots t0_7 0)) (acc m c 6) (xblk m c t0_7) _ _ _ _ _ _)
  isplitl [Hrow]
  · iexact Hrow
  isplitl [Hx]
  · iexact Hx
  iintro ⟨Hrow, Hx⟩
  rw [acc_last]
  simp only [show ((c : Thread nD τ).1 : Dev nD) = c from rfl]

  have eI : invs m K c = invs m K c := rfl
  conv at eI =>
    rhs
    unfold invs
    simp only [sep31, kk, Fin.coe_ofNat_eq_mod, Fin.val_zero, Fin.val_one, Nat.reduceMod, Nat.reduceAdd]
  ihave HI' := (Entails.of_eq eI) $$ HI
  icases HI' with ⟨#HIb, #HIsC, #HIrC, #HIbP, #HIpC⟩
  have eP : pos (F := F) c = pos (F := F) c := rfl
  conv at eP =>
    rhs
    unfold pos
    simp only [sep31, kk, Fin.coe_ofNat_eq_mod, Fin.val_zero, Fin.val_one, Nat.reduceMod, Nat.reduceAdd]
  ihave Hpos' := (Entails.of_eq eP) $$ Hpos
  icases Hpos' with ⟨Hat, ⟨HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31⟩, ⟨HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31⟩⟩
  have eR : rch (F := F) c = rch (F := F) c := rfl
  conv at eR =>
    rhs
    unfold rch
    simp only [sep31, kk, Fin.coe_ofNat_eq_mod, Fin.val_zero, Fin.val_one, Nat.reduceMod, Nat.reduceAdd]
  ihave Hrch' := (Entails.of_eq eR) $$ Hrch
  icases Hrch' with ⟨#HrBP, #HrPC, #HrSC, #HrRC⟩
  have eT : xferToks (F := F) c = xferToks (F := F) c := rfl
  conv at eT =>
    rhs
    unfold xferToks
    simp only [sep31, kk, Fin.coe_ofNat_eq_mod, Fin.val_zero, Fin.val_one, Nat.reduceMod, Nat.reduceAdd]
  ihave Htok' := (Entails.of_eq eT) $$ Htok
  icases Htok' with ⟨HtP, HtS⟩
  have eC : creds (F := F) c = creds (F := F) c := rfl
  conv at eC =>
    rhs
    unfold creds
    simp only [sep31, kk, Fin.coe_ofNat_eq_mod, Fin.val_zero, Fin.val_one, Nat.reduceMod, Nat.reduceAdd]
  ihave Hcred' := (Entails.of_eq eC) $$ Hcred
  icases Hcred' with ⟨HcB, ⟨HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29, HcR30, HcR31⟩⟩

  icases HO with ⟨%W, %hW, HO⟩
  ihave HO := (Entails.of_eq (congrArg (fun O => owes (Ix := Unit) (Name := ℕ) (U := UU) (Lvl := ℕ) (Val := Elt F) (c : Thread nD τ) O W) (Orecv_desc0 c))) $$ HO

  have hmw := mayWait_bar (F := F) c
  rw [Orecv_desc0 c] at hmw

  sl_exec
  have epay := rest_bar_chain (F := F) m c
  rw [Finset.sdiff_empty, duties_bar] at epay
  ihave Hp := (Entails.of_eq epay) $$ Hat_pay1
  ihave Hsh := (Entails.of_eq (row0_shares_lit c (rowFill (S m c)))) $$ Hrow
  copy_step dev32_eq
  copy_step dev33_eq
  copy_step dev34_eq
  copy_step dev35_eq
  copy_step dev36_eq
  copy_step dev37_eq
  copy_step dev38_eq
  copy_step dev39_eq
  copy_step dev40_eq
  copy_step dev41_eq
  copy_step dev42_eq
  copy_step dev43_eq
  copy_step dev44_eq
  copy_step dev45_eq
  copy_step dev46_eq
  copy_step dev47_eq
  copy_step dev48_eq
  copy_step dev49_eq
  copy_step dev50_eq
  copy_step dev51_eq
  copy_step dev52_eq
  copy_step dev53_eq
  copy_step dev54_eq
  copy_step dev55_eq
  copy_step dev56_eq
  copy_step dev57_eq
  copy_step dev58_eq
  copy_step dev59_eq
  copy_step dev60_eq
  copy_step dev61_eq

  icases HIrC with ⟨#HIr1, #HIr2, #HIr3, #HIr4, #HIr5, #HIr6, #HIr7, #HIr8, #HIr9, #HIr10, #HIr11, #HIr12, #HIr13, #HIr14, #HIr15, #HIr16, #HIr17, #HIr18, #HIr19, #HIr20, #HIr21, #HIr22, #HIr23, #HIr24, #HIr25, #HIr26, #HIr27, #HIr28, #HIr29, #HIr30, #HIr31⟩

  icases Hsh with ⟨Hqk, Hqrest⟩
  icases Hp with ⟨⟨%fk, Hdk⟩, -⟩
  sl_exec (disch := simp only [dev62_eq])

  have hfin := finish7_big m K c
  conv at hfin =>
    lhs
    simp only [sep31, kk, Fin.coe_ofNat_eq_mod, Fin.val_zero, Fin.val_one, Nat.reduceMod, Nat.reduceAdd]
  imod hfin $$ [HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaR1 HaR2 HaR3 HaR4 HaR5 HaR6 HaR7 HaR8 HaR9 HaR10 HaR11 HaR12 HaR13 HaR14 HaR15 HaR16 HaR17 HaR18 HaR19 HaR20 HaR21 HaR22 HaR23 HaR24 HaR25 HaR26 HaR27 HaR28 HaR29 HaR30 HaR31 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1 HaR15_pay1 HaR16_pay1 HaR17_pay1 HaR18_pay1 HaR19_pay1 HaR20_pay1 HaR21_pay1 HaR22_pay1 HaR23_pay1 HaR24_pay1 HaR25_pay1 HaR26_pay1 HaR27_pay1 HaR28_pay1 HaR29_pay1 HaR30_pay1 HaR31_pay1 HaS1_pay1 HaS2_pay1 HaS3_pay1 HaS4_pay1 HaS5_pay1 HaS6_pay1 HaS7_pay1 HaS8_pay1 HaS9_pay1 HaS10_pay1 HaS11_pay1 HaS12_pay1 HaS13_pay1 HaS14_pay1 HaS15_pay1 HaS16_pay1 HaS17_pay1 HaS18_pay1 HaS19_pay1 HaS20_pay1 HaS21_pay1 HaS22_pay1 HaS23_pay1 HaS24_pay1 HaS25_pay1 HaS26_pay1 HaS27_pay1 HaS28_pay1 HaS29_pay1 HaS30_pay1 HaS31_pay1 Hqrest] with ⟨Hscr, Hzs, Hzr⟩
  · iframe # ∗

  icases Hw1 with ⟨%d1, Hout⟩
  iapply (tail7_op m c (stage0_1 (cfg0.slots t0_7 1)) (hstage0_1 ((cfg0.slots t0_7 1).cast nbuf0_1)) _ _ _ _ _ _)
  isplitl [Hscr]
  · iexact Hscr
  isplitl [Hout]
  · iexact Hout
  iintro ⟨Hscr, Hout⟩

  isplitl [Hscr Hidle Hzs Hzr]
  · unfold Φend
    isplitl [Hscr]
    · iexact Hscr
    isplitl [Hidle]
    · iexact Hidle
    isplitl [Hzs]; (· iexact Hzs); iexact Hzr
  isplitl [HO]
  ·
    iexists _
    isplitr [HO]
    swap
    · iexact HO
    · ipureintro; exact fun _ _ => Or.inl trivial
  isplitl [Hx]
  · iexact Hx
  iexact Hout

end Cert.Kernel.Sum
end
-- ==== Proof.BodyKernel.lean ====
import proofs.«901085_g7700000000001086_dist_sum_ax0_shard0_i_m2048_n1024_v7x_i32_f32_1_alg».proof.Proof.Body0Kernel
import proofs.«901085_g7700000000001086_dist_sum_ax0_shard0_i_m2048_n1024_v7x_i32_f32_1_alg».proof.Proof.Body7Kernel

noncomputable section

namespace Cert.Kernel.Sum

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem body_obligation (m : (ℓ : Loc nD τ sig) → Buf (Elt F) ℓ) (ρ : Dev nD → PrngReg) (c : Dev nD) :
    BodyObligation (dats (F := F) m ρ 0 c) (defs₀ (F := F)) 𝒱₀ () Set.univ :=
  obligation_of m ρ c fun t => by
    rcases Gen.fin_N0 t with rfl | rfl | rfl | rfl | rfl | rfl | rfl | rfl
    · exact body_t0 m ρ c
    · exact body_mid m ρ c Gen.t0_1 ⟨by show 1 ≤ 1; decide, by show 1 ≤ 6; decide⟩
    · exact body_mid m ρ c Gen.t0_2 ⟨by show 1 ≤ 2; decide, by show 2 ≤ 6; decide⟩
    · exact body_mid m ρ c Gen.t0_3 ⟨by show 1 ≤ 3; decide, by show 3 ≤ 6; decide⟩
    · exact body_mid m ρ c Gen.t0_4 ⟨by show 1 ≤ 4; decide, by show 4 ≤ 6; decide⟩
    · exact body_mid m ρ c Gen.t0_5 ⟨by show 1 ≤ 5; decide, by show 5 ≤ 6; decide⟩
    · exact body_mid m ρ c Gen.t0_6 ⟨by show 1 ≤ 6; decide, by show 6 ≤ 6; decide⟩
    · exact body_t7 m ρ c

end Cert.Kernel.Sum
end
-- ==== Proof.RefValue.lean ====
import proofs.«901085_g7700000000001086_dist_sum_ax0_shard0_i_m2048_n1024_v7x_i32_f32_1_alg».proof.Defs
import proofs.«901085_g7700000000001086_dist_sum_ax0_shard0_i_m2048_n1024_v7x_i32_f32_1_alg».proof.Proof.Gen.ReferenceIdeal
import proofs.«901085_g7700000000001086_dist_sum_ax0_shard0_i_m2048_n1024_v7x_i32_f32_1_alg».proof.Proof.Gen.Pre_finite_inputs_ReferenceIdeal
import proofs.«901085_g7700000000001086_dist_sum_ax0_shard0_i_m2048_n1024_v7x_i32_f32_1_alg».proof.Proof.Gen.ReferenceIdeal.Run
import proofs.«901085_g7700000000001086_dist_sum_ax0_shard0_i_m2048_n1024_v7x_i32_f32_1_alg».proof.Proof.Gen.ReferenceIdeal.Read
import Idealize.ShloMosaic.Lib.ValueIdx
import Idealize.ShloMosaic.PureOps.Ideal.Laws

noncomputable section

namespace Cert.Value

open Idealize.ShloMosaic Idealize.ShloMosaic.ValueIdx Idealize.SL.Sem
open scoped BigOperators

def colSum (X : (⟨2, ![65536, 1024]⟩ : Shape).Idx → EReal) : (⟨2, ![1, 1024]⟩ : Shape).Idx → EReal :=
  fun i => ∑ r : Fin 65536, X (ix2 r (⟨(i 1).val, (i 1).isLt⟩ : Fin 1024))

theorem colSum_apply (X : (⟨2, ![65536, 1024]⟩ : Shape).Idx → EReal) (j : Fin 1024) :
    colSum X (ix2 (0 : Fin 1) j) = ∑ r : Fin 65536, X (ix2 r j) := rfl

theorem ref_is_colSum (X : (⟨Cert.ReferenceIdeal.S65536x1024, .f32⟩ : BufTy).Contents (Elt Ideal)) :
    Cert.ReferenceIdeal.Read.val_main_v1 (F := Ideal) X = colSum X := by
  funext i
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  unfold colSum
  refine Finset.sum_congr rfl fun r _ => congrArg X ?_
  funext a
  match a with
  | ⟨0, _⟩ => rfl
  | ⟨1, _⟩ => rfl

theorem frame_ri : Cert.frame_ReferenceIdeal :=
  fun m ρ _ => (θ_run Cert.ReferenceIdeal.defs _ _).mono (fun _ h c => (h c).2)
    (Cert.ReferenceIdeal.Value.run (F := Ideal) m ρ)

end Cert.Value

end
-- ==== Proof.KernelValue.lean ====
import proofs.«901085_g7700000000001086_dist_sum_ax0_shard0_i_m2048_n1024_v7x_i32_f32_1_alg».proof.Proof.Data
import proofs.«901085_g7700000000001086_dist_sum_ax0_shard0_i_m2048_n1024_v7x_i32_f32_1_alg».proof.Proof.RefValue
import Idealize.ShloMosaic.Lib.Pipeline.Value
import Idealize.ShloMosaic.Lib.ValueIdx
import Idealize.ShloMosaic.Lib.Layout
import Idealize.ShloMosaic.PureOps.Ideal.Laws
import Mathlib.Algebra.BigOperators.Fin
import Mathlib.Logic.Equiv.Fin.Basic

noncomputable section

namespace Cert.Value

open Cert.KernelIdeal Cert.KernelIdeal.Gen Cert.KernelIdeal.Sum
open Idealize.ShloMosaic Idealize.ShloMosaic.TcCoe Idealize.ShloMosaic.ValueIdx
open scoped BigOperators

theorem sum_chunks {M : Type} [AddCommMonoid M] (a b : ℕ) (g : Fin (a * b) → M) :
    ∑ s : Fin a, ∑ r : Fin b, g (finProdFinEquiv (s, r)) = ∑ i : Fin (a * b), g i := by
  rw [← Fintype.sum_prod_type']
  exact Fintype.sum_equiv finProdFinEquiv _ _ (fun _ => rfl)

theorem sum_rows_2048 (g : Fin 2048 → EReal) :
    ∑ s : Fin 8, ∑ r : Fin 256, g ⟨256 * s.val + r.val, by omega⟩ = ∑ i : Fin 2048, g i := by
  rw [← sum_chunks 8 256 g]
  refine Finset.sum_congr rfl fun s _ => Finset.sum_congr rfl fun r _ => congrArg g (Fin.ext ?_)
  show 256 * s.val + r.val = r.val + 256 * s.val
  omega

theorem sum_rows_65536 (g : Fin 65536 → EReal) :
    ∑ d : Fin 32, ∑ r : Fin 2048, g ⟨d.val * 2048 + r.val, by omega⟩ = ∑ i : Fin 65536, g i := by
  rw [← sum_chunks 32 2048 g]
  refine Finset.sum_congr rfl fun d _ => Finset.sum_congr rfl fun r _ => congrArg g (Fin.ext ?_)
  show d.val * 2048 + r.val = r.val + 2048 * d.val
  omega

theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

section Blocks
variable {F : FTy → Type} [FloatOps F]

theorem xblk_apply (m : (ℓ : Loc nD τ sig) → Buf (Elt F) ℓ) (c : Dev nD) (t : Fin cfg0.N) (r : Fin 256) (j : Fin 1024)
    (h : 256 * t.val + r.val < 2048) :
    xblk m c t (ix2 r j) = m ((c : Thread nD τ).loc main_arg0) (ix2 (⟨256 * t.val + r.val, h⟩ : Fin 2048) j) := by
  obtain ⟨e0, e1⟩ := idx_in t
  show V m c main_arg0 (((cfg0.win 0).blk t).view.emb (ix2 r j)) = _
  refine congrArg (m ((c : Thread nD τ).loc main_arg0)) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * j.val = j.val; omega

end Blocks

theorem rowsum_apply {n : ℕ} (x : (⟨2, ![n, 1024]⟩ : Shape).Idx → EReal)
    (h : Shape.Reduces ⟨2, ![n, 1024]⟩ [0] ⟨1, ![1024]⟩) (hφ : FKind.Formats .f32)
    (hacc : (0x00000000#32 : BitVec 32) = FKind.add.neutral .f32 hφ) (j : Fin 1024) :
    multiReduction (F := Ideal) .add [0] ⟨1, ![1024]⟩ x 0x00000000#32 h hφ hacc (ix1 j) = ∑ r : Fin n, x (ix2 r j) := by
  refine (Ideal.multiReduction_add_single x 0x00000000#32 h hφ hacc (ix1 j)).trans ?_
  refine Finset.sum_congr rfl fun r _ => congrArg x (funext fun a => Fin.ext ?_)
  match a with
  | ⟨0, _⟩ => rfl
  | ⟨1, _⟩ => rfl

theorem cast_row_apply (v : (⟨1, ![1024]⟩ : Shape).Idx → EReal) (h : Shape.ShapeCasts ⟨1, ![1024]⟩ ⟨2, ![1, 1024]⟩) (j : Fin 1024) :
    shapeCast ⟨2, ![1, 1024]⟩ v h (ix2 (0 : Fin 1) j) = v (ix1 j) :=
  shapeCast_apply v h (ix2 (0 : Fin 1) j) (ix1 j) (by
    rw [Shape.rowMajor_val_one, Shape.rowMajor_val_two]
    show j.val = 0 * 1024 + j.val
    omega)

theorem pay1_apply (x : Vec Ideal S256x1024 .f32) (j : Fin 1024) :
    k0_pay1 x (ix2 (0 : Fin 1) j) = ∑ r : Fin 256, x (ix2 r j) := by
  unfold k0_pay1
  rw [shapeCast_self, shapeCast_self]
  exact (cast_row_apply _ _ j).trans (rowsum_apply x _ _ _ j)

theorem pay2_apply (v : Vec Ideal S1x1024 .f32) (x : Vec Ideal S256x1024 .f32) (j : Fin 1024) :
    k0_pay2 v x (ix2 (0 : Fin 1) j) = v (ix2 (0 : Fin 1) j) + ∑ r : Fin 256, x (ix2 r j) := by
  unfold k0_pay2
  rw [shapeCast_self, shapeCast_self, addf_apply]
  exact congrArg (v (ix2 (0 : Fin 1) j) + ·) ((cast_row_apply _ _ j).trans (rowsum_apply x _ _ _ j))

theorem pay3_apply (y : Vec Ideal S32x1024 .f32) (j : Fin 1024) :
    k0_pay3 y (ix2 (0 : Fin 1) j) = ∑ k : Fin 32, y (ix2 k j) := by
  unfold k0_pay3
  exact (cast_row_apply _ _ j).trans (rowsum_apply y _ _ _ j)

abbrev blkOf (m : (ℓ : Loc nD τ sig) → Buf (Elt Ideal) ℓ) (c : Dev nD) : (⟨2, ![2048, 1024]⟩ : Shape).Idx → EReal :=
  m ((c : Thread nD τ).loc main_arg0)

theorem acc_apply (m : (ℓ : Loc nD τ sig) → Buf (Elt Ideal) ℓ) (c : Dev nD) (j : Fin 1024) :
    ∀ (t : ℕ) (ht : t < 8), acc m c t (ix2 (0 : Fin 1) j)
      = ∑ s : Fin (t + 1), ∑ r : Fin 256, blkOf m c (ix2 (⟨256 * s.val + r.val, by omega⟩ : Fin 2048) j)
  | 0, ht => by
    rw [acc, pay1_apply, Fin.sum_univ_one]
    refine Finset.sum_congr rfl fun r _ => ?_
    exact xblk_apply m c (tN 0) r j (by show 256 * (0 % 8) + r.val < 2048; omega)
  | t + 1, ht => by
    rw [acc, pay2_apply, acc_apply m c j t (by omega), Fin.sum_univ_castSucc (n := t + 1)]
    refine congrArg₂ (fun a b : EReal => a + b) rfl (Finset.sum_congr rfl fun r _ => ?_)
    refine (xblk_apply m c (tN (t + 1)) r j (by show 256 * ((t + 1) % 8) + r.val < 2048; omega)).trans ?_
    refine congrArg (blkOf m c) (congrArg (ix2 · j) (Fin.ext ?_))
    show 256 * ((t + 1) % 8) + r.val = 256 * (t + 1) + r.val
    omega

theorem S_apply (m : (ℓ : Loc nD τ sig) → Buf (Elt Ideal) ℓ) (c : Dev nD) (j : Fin 1024) :
    S m c (ix2 (0 : Fin 1) j) = ∑ r : Fin 2048, blkOf m c (ix2 r j) := by
  unfold S
  rw [acc_apply m c j 7 (by omega)]
  exact sum_rows_2048 fun i => blkOf m c (ix2 i j)

theorem colIdx_ix2 (k : Fin 32) (j : Fin 1024) : colIdx (ix2 k j) = ix2 (0 : Fin 1) j := by
  funext a
  match a with
  | ⟨0, _⟩ => rfl
  | ⟨1, _⟩ => rfl

theorem back_back (c : Dev nD) (k : Fin 32) : back c (back c k.val).val = k := by
  apply Fin.ext
  have hc : c.val < 32 := c.isLt
  have hk : k.val < 32 := k.isLt
  simp only [back]
  omega

def backPerm (c : Dev nD) : Equiv.Perm (Fin 32) :=
  Function.Involutive.toPerm (fun k => back c k.val) (back_back c)

theorem full_apply (m : (ℓ : Loc nD τ sig) → Buf (Elt Ideal) ℓ) (c : Dev nD) (k : Fin 32) (j : Fin 1024) :
    (show Vec Ideal S32x1024 .f32 from full m c) (ix2 k j) = S m (backPerm c k) (ix2 (0 : Fin 1) j) := by
  show S m (back c k.val) (colIdx (ix2 k j)) = _
  rw [colIdx_ix2]
  rfl

theorem outAt_apply (m : (ℓ : Loc nD τ sig) → Buf (Elt Ideal) ℓ) (c : Dev nD) (j : Fin 1024) :
    outAt m c (ix2 (0 : Fin 1) j) = ∑ d : Dev nD, ∑ r : Fin 2048, blkOf m d (ix2 r j) := by
  unfold outAt
  rw [pay3_apply]
  refine Eq.trans (b := ∑ k : Fin 32, S m (backPerm c k) (ix2 (0 : Fin 1) j))
    (Finset.sum_congr rfl fun k _ => full_apply m c k j) ?_
  rw [Equiv.sum_comp (backPerm c) fun d => S m d (ix2 (0 : Fin 1) j)]
  exact Finset.sum_congr rfl fun d _ => S_apply m d j

theorem outAt_colSum (m : (ℓ : Loc nD τ sig) → Buf (Elt Ideal) ℓ) (X : (⟨2, ![65536, 1024]⟩ : Shape).Idx → EReal)
    (hX : ∀ c : Dev nD, m ((c : Thread nD τ).loc main_arg0) = Layout.block ⟨2, ![2048, 1024]⟩ ⟨2, ![65536, 1024]⟩ 0 32 c X)
    (c : Dev nD) : outAt m c = Cert.Value.colSum X := by
  funext i
  obtain ⟨p, j, rfl⟩ : ∃ (p : Fin 1) (j : Fin 1024), i = ix2 p j := ⟨i 0, i 1, eq_ix2 i⟩
  obtain rfl : p = 0 := Subsingleton.elim _ _
  show @Eq EReal (outAt m c (ix2 (0 : Fin 1) j)) (colSum X (ix2 (0 : Fin 1) j))
  rw [outAt_apply, colSum_apply, ← sum_rows_65536 fun i => X (ix2 i j)]
  refine Finset.sum_congr rfl fun d _ => Finset.sum_congr rfl fun r _ => ?_
  show m ((d : Thread nD τ).loc main_arg0) (ix2 r j) = _
  rw [hX d]
  show X (Layout.Tiles.idx _ d (ix2 r j)) = _
  refine congrArg X (funext fun a => Fin.ext ?_)
  match a with
  | ⟨0, _⟩ => rfl
  | ⟨1, _⟩ => rfl

end Cert.Value

end
-- ==== Proof.lean ====
import proofs.«901085_g7700000000001086_dist_sum_ax0_shard0_i_m2048_n1024_v7x_i32_f32_1_alg».proof.Defs
import proofs.«901085_g7700000000001086_dist_sum_ax0_shard0_i_m2048_n1024_v7x_i32_f32_1_alg».proof.Proof.Gen.Kernel
import proofs.«901085_g7700000000001086_dist_sum_ax0_shard0_i_m2048_n1024_v7x_i32_f32_1_alg».proof.Proof.Gen.KernelIdeal
import proofs.«901085_g7700000000001086_dist_sum_ax0_shard0_i_m2048_n1024_v7x_i32_f32_1_alg».proof.Proof.Gen.ReferenceIdeal
import proofs.«901085_g7700000000001086_dist_sum_ax0_shard0_i_m2048_n1024_v7x_i32_f32_1_alg».proof.Proof.Gen.Pre_finite_inputs_Kernel
import proofs.«901085_g7700000000001086_dist_sum_ax0_shard0_i_m2048_n1024_v7x_i32_f32_1_alg».proof.Proof.Gen.Pre_finite_inputs_ReferenceIdeal
import proofs.«901085_g7700000000001086_dist_sum_ax0_shard0_i_m2048_n1024_v7x_i32_f32_1_alg».proof.Proof.Final
import proofs.«901085_g7700000000001086_dist_sum_ax0_shard0_i_m2048_n1024_v7x_i32_f32_1_alg».proof.Proof.FinalKernel
import proofs.«901085_g7700000000001086_dist_sum_ax0_shard0_i_m2048_n1024_v7x_i32_f32_1_alg».proof.Proof.Body
import proofs.«901085_g7700000000001086_dist_sum_ax0_shard0_i_m2048_n1024_v7x_i32_f32_1_alg».proof.Proof.BodyKernel
import proofs.«901085_g7700000000001086_dist_sum_ax0_shard0_i_m2048_n1024_v7x_i32_f32_1_alg».proof.Proof.RefValue
import proofs.«901085_g7700000000001086_dist_sum_ax0_shard0_i_m2048_n1024_v7x_i32_f32_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2)
    (Cert.Kernel.Sum.run_values (F := Bits) m ρ (Cert.Kernel.Sum.body_obligation m ρ))

theorem frame_ki : Cert.frame_KernelIdeal := fun m ρ _ =>
  (θ_run Cert.KernelIdeal.defs _ _).mono (fun _ h c => (h c).2)
    (Cert.KernelIdeal.Sum.run_values (F := Ideal) m ρ (Cert.KernelIdeal.Sum.body_obligation m ρ))

theorem algebraic : Cert.algebraic_KernelIdeal_ReferenceIdeal := fun m ρ m' ρ' _ hagree =>
  ⟨Cert.Value.colSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c).1.trans (Cert.Value.outAt_colSum m _ hagree c), (h c).2⟩)
      (Cert.KernelIdeal.Sum.run_values (F := Ideal) m ρ (Cert.KernelIdeal.Sum.body_obligation m ρ)),
    (θ_run Cert.ReferenceIdeal.defs _ _).mono
      (fun _ h => ⟨(h 0).1.trans ((Cert.ReferenceIdeal.Read.val_main_v1_eq _).trans (Cert.Value.ref_is_colSum _)), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.Value.frame_ri, trivial, algebraic⟩

end Cert.Proof

end
